-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  IdealRules.truncf_extf.Statement Cert.KernelIdeal.S2048x256 .f32 .bf16
  ∧ IdealRules.truncf_extf.Statement Cert.KernelIdeal.S2048x256 .f32 .bf16
  ∧ IdealRules.truncf_extf.Statement Cert.KernelIdeal.S2048x64 .f32 .bf16
  ∧ IdealRules.truncf_extf.Statement Cert.KernelIdeal.S2048x64 .f32 .bf16

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v91)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v91) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v113) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x64 : Shape := ⟨2, ![50000, 64]⟩
abbrev S2x800000 : Shape := ⟨2, ![2, 800000]⟩
abbrev S50000 : Shape := ⟨1, ![50000]⟩
abbrev S128x256 : Shape := ⟨2, ![128, 256]⟩
abbrev S256 : Shape := ⟨1, ![256]⟩
abbrev S256x64 : Shape := ⟨2, ![256, 64]⟩
abbrev S64 : Shape := ⟨1, ![64]⟩
abbrev S64x1 : Shape := ⟨2, ![64, 1]⟩
abbrev S1 : Shape := ⟨1, ![1]⟩
abbrev S_ : Shape := ⟨0, ![]⟩

class Facts : Prop where
  bcast_S_S50000x64 : S_.BroadcastsInDim S50000x64 (![] : Fin 0 → Fin S50000x64.rank)
  reducesTo_S50000x64_S_d0_1 : S50000x64.ReducesTo [0, 1] S_
  h_S_ : 0 < S_.numel
  bcast_S_S128x256 : S_.BroadcastsInDim S128x256 (![] : Fin 0 → Fin S128x256.rank)
  reducesTo_S128x256_S_d0_1 : S128x256.ReducesTo [0, 1] S_
  bcast_S_S256 : S_.BroadcastsInDim S256 (![] : Fin 0 → Fin S256.rank)
  reducesTo_S256_S_d0 : S256.ReducesTo [0] S_
  bcast_S_S256x64 : S_.BroadcastsInDim S256x64 (![] : Fin 0 → Fin S256x64.rank)
  reducesTo_S256x64_S_d0_1 : S256x64.ReducesTo [0, 1] S_
  bcast_S_S64 : S_.BroadcastsInDim S64 (![] : Fin 0 → Fin S64.rank)
  reducesTo_S64_S_d0 : S64.ReducesTo [0] S_
  bcast_S_S64x1 : S_.BroadcastsInDim S64x1 (![] : Fin 0 → Fin S64x1.rank)
  reducesTo_S64x1_S_d0_1 : S64x1.ReducesTo [0, 1] S_
  bcast_S_S1 : S_.BroadcastsInDim S1 (![] : Fin 0 → Fin S1.rank)
  reducesTo_S1_S_d0 : S1.ReducesTo [0] S_
  bcast_S_S50000 : S_.BroadcastsInDim S50000 (![] : Fin 0 → Fin S50000.rank)
  reducesTo_S50000_S_d0 : S50000.ReducesTo [0] S_

variable [Facts]

def fn_part2 {F : FTy → Type} [FloatOps F] (main_arg2 : IVec S50000 32) (main_v33 : IVec S_ 1) : IVec S_ 1 :=
  let main_c_12 : IVec S_ 32 := constantI S_ 32 0#32
  let main_v34 : IVec S50000 32 := broadcastInDim S50000 ![] bcast_S_S50000 main_c_12
  let main_v35 : IVec S50000 1 := cmpi .sge main_arg2 main_v34
  let main_c_13 : IVec S_ 32 := constantI S_ 32 128#32
  let main_v36 : IVec S50000 32 := broadcastInDim S50000 ![] bcast_S_S50000 main_c_13
  let main_v37 : IVec S50000 1 := cmpi .slt main_arg2 main_v36
  let main_v38 : IVec S50000 1 := andi main_v35 main_v37
  let main_c_14 : IVec S_ 1 := constantI S_ 1 1#1
  let main_v39 : IVec S_ 1 := (fun x v => Host.reduce IntOp.andi x v reducesTo_S50000_S_d0 h_S_) main_v38 main_c_14
  let main_v40 : IVec S_ 1 := andi main_v33 main_v39
  main_v40

def fn_part1 {F : FTy → Type} [FloatOps F] (main_arg2 : IVec S50000 32) (main_arg6 : FVec F S64 .f32) (main_arg7 : FVec F S64x1 .f32) (main_arg8 : FVec F S1 .f32) (main_v13 : IVec S_ 1) (main_v16 : IVec S256x64 1) : IVec S_ 1 :=
  let main_c_5 : IVec S_ 1 := constantI S_ 1 1#1
  let main_v17 : IVec S_ 1 := (fun x v => Host.reduce IntOp.andi x v reducesTo_S256x64_S_d0_1 h_S_) main_v16 main_c_5
  let main_v18 : IVec S_ 1 := andi main_v13 main_v17
  let main_v19 : FVec F S64 .f32 := Host.absf main_arg6
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S64x1 .f32 := Host.absf main_arg7
  let main_cst_8 : FVec F S_ .f32 := constant S_ .f32 0x7F800000#32
  let main_v25 : FVec F S64x1 .f32 := broadcastInDim S64x1 ![] bcast_S_S64x1 main_cst_8
  let main_v26 : IVec S64x1 1 := cmpf .olt main_v24 main_v25
  let main_c_9 : IVec S_ 1 := constantI S_ 1 1#1
  let main_v27 : IVec S_ 1 := (fun x v => Host.reduce IntOp.andi x v reducesTo_S64x1_S_d0_1 h_S_) main_v26 main_c_9
  let main_v28 : IVec S_ 1 := andi main_v23 main_v27
  let main_v29 : FVec F S1 .f32 := Host.absf main_arg8
  let main_cst_10 : FVec F S_ .f32 := constant S_ .f32 0x7F800000#32
  let main_v30 : FVec F S1 .f32 := broadcastInDim S1 ![] bcast_S_S1 main_cst_10
  let main_v31 : IVec S1 1 := cmpf .olt main_v29 main_v30
  let main_c_11 : IVec S_ 1 := constantI S_ 1 1#1
  let main_v32 : IVec S_ 1 := (fun x v => Host.reduce IntOp.andi x v reducesTo_S1_S_d0 h_S_) main_v31 main_c_11
  let main_v33 : IVec S_ 1 := andi main_v28 main_v32
  fn_part2 (F := F) main_arg2 main_v33

def fn {F : FTy → Type} [FloatOps F] (main_arg0 : FVec F S50000x64 .f32) (main_arg1 : IVec S2x800000 32) (main_arg2 : IVec S50000 32) (main_arg3 : FVec F S128x256 .f32) (main_arg4 : FVec F S256 .f32) (main_arg5 : FVec F S256x64 .f32) (main_arg6 : FVec F S64 .f32) (main_arg7 : FVec F S64x1 .f32) (main_arg8 : FVec F S1 .f32) : IVec S_ 1 :=
  let main_v0 : FVec F S50000x64 .f32 := Host.absf main_arg0
  let main_cst : FVec F S_ .f32 := constant S_ .f32 0x7F800000#32
  let main_v1 : FVec F S50000x64 .f32 := broadcastInDim S50000x64 ![] bcast_S_S50000x64 main_cst
  let main_v2 : IVec S50000x64 1 := cmpf .olt main_v0 main_v1
  let main_c : IVec S_ 1 := constantI S_ 1 1#1
  let main_v3 : IVec S_ 1 := (fun x v => Host.reduce IntOp.andi x v reducesTo_S50000x64_S_d0_1 h_S_) main_v2 main_c
  let main_v4 : FVec F S128x256 .f32 := Host.absf main_arg3
  let main_cst_0 : FVec F S_ .f32 := constant S_ .f32 0x7F800000#32
  let main_v5 : FVec F S128x256 .f32 := broadcastInDim S128x256 ![] bcast_S_S128x256 main_cst_0
  let main_v6 : IVec S128x256 1 := cmpf .olt main_v4 main_v5
  let main_c_1 : IVec S_ 1 := constantI S_ 1 1#1
  let main_v7 : IVec S_ 1 := (fun x v => Host.reduce IntOp.andi x v reducesTo_S128x256_S_d0_1 h_S_) main_v6 main_c_1
  let main_v8 : IVec S_ 1 := andi main_v3 main_v7
  let main_v9 : FVec F S256 .f32 := Host.absf main_arg4
  let main_cst_2 : FVec F S_ .f32 := constant S_ .f32 0x7F800000#32
  let main_v10 : FVec F S256 .f32 := broadcastInDim S256 ![] bcast_S_S256 main_cst_2
  let main_v11 : IVec S256 1 := cmpf .olt main_v9 main_v10
  let main_c_3 : IVec S_ 1 := constantI S_ 1 1#1
  let main_v12 : IVec S_ 1 := (fun x v => Host.reduce IntOp.andi x v reducesTo_S256_S_d0 h_S_) main_v11 main_c_3
  let main_v13 : IVec S_ 1 := andi main_v8 main_v12
  let main_v14 : FVec F S256x64 .f32 := Host.absf main_arg5
  let main_cst_4 : FVec F S_ .f32 := constant S_ .f32 0x7F800000#32
  let main_v15 : FVec F S256x64 .f32 := broadcastInDim S256x64 ![] bcast_S_S256x64 main_cst_4
  let main_v16 : IVec S256x64 1 := cmpf .olt main_v14 main_v15
  fn_part1 (F := F) main_arg2 main_arg6 main_arg7 main_arg8 main_v13 main_v16
-- ==== Kernel.lean ====
abbrev S50000x64 : Shape := ⟨2, ![50000, 64]⟩
abbrev S2x800000 : Shape := ⟨2, ![2, 800000]⟩
abbrev S50000 : Shape := ⟨1, ![50000]⟩
abbrev S128x256 : Shape := ⟨2, ![128, 256]⟩
abbrev S256 : Shape := ⟨1, ![256]⟩
abbrev S256x64 : Shape := ⟨2, ![256, 64]⟩
abbrev S64 : Shape := ⟨1, ![64]⟩
abbrev S64x1 : Shape := ⟨2, ![64, 1]⟩
abbrev S1 : Shape := ⟨1, ![1]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S800000x64 : Shape := ⟨2, ![800000, 64]⟩
abbrev S800000x128 : Shape := ⟨2, ![800000, 128]⟩
abbrev S802816x128 : Shape := ⟨2, ![802816, 128]⟩
abbrev S802816 : Shape := ⟨1, ![802816]⟩
abbrev S392x1x2048 : Shape := ⟨3, ![392, 1, 2048]⟩
abbrev S2x128x256 : Shape := ⟨3, ![2, 128, 256]⟩
abbrev S2x128x1 : Shape := ⟨3, ![2, 128, 1]⟩
abbrev S2048x128 : Shape := ⟨2, ![2048, 128]⟩
abbrev S1x1x2048 : Shape := ⟨3, ![1, 1, 2048]⟩
abbrev S1x128x256 : Shape := ⟨3, ![1, 128, 256]⟩
abbrev S1x128x1 : Shape := ⟨3, ![1, 128, 1]⟩
abbrev S128x1 : Shape := ⟨2, ![128, 1]⟩
abbrev S2048x256 : Shape := ⟨2, ![2048, 256]⟩
abbrev S1x256 : Shape := ⟨2, ![1, 256]⟩
abbrev S1x2048 : Shape := ⟨2, ![1, 2048]⟩
abbrev S128x2048 : Shape := ⟨2, ![128, 2048]⟩
abbrev S128 : Shape := ⟨1, ![128]⟩
abbrev S128x512 : Shape := ⟨2, ![128, 512]⟩
abbrev S802816x64 : Shape := ⟨2, ![802816, 64]⟩
abbrev S2x128x64 : Shape := ⟨3, ![2, 128, 64]⟩
abbrev S2048x64 : Shape := ⟨2, ![2048, 64]⟩
abbrev S1x128x64 : Shape := ⟨3, ![1, 128, 64]⟩
abbrev S128x64 : Shape := ⟨2, ![128, 64]⟩
abbrev S2048x1 : Shape := ⟨2, ![2048, 1]⟩
abbrev S2048x512 : Shape := ⟨2, ![2048, 512]⟩
abbrev S1x64 : Shape := ⟨2, ![1, 64]⟩
abbrev S128x128 : Shape := ⟨2, ![128, 128]⟩
abbrev S1x1 : Shape := ⟨2, ![1, 1]⟩

abbrev nBuf : Space → Nat
  | .hbm => 120
  | .vmem => 41
  | .smem => 0
  | _ => 0

abbrev bufTy : (tb : Table) → Fin (tcTables nBuf tb) → BufTy
  | .hbm, ⟨0, _⟩ => ⟨S50000x64, .f32⟩
  | .hbm, ⟨1, _⟩ => ⟨S2x800000, .i32⟩
  | .hbm, ⟨2, _⟩ => ⟨S50000, .i32⟩
  | .hbm, ⟨3, _⟩ => ⟨S128x256, .f32⟩
  | .hbm, ⟨4, _⟩ => ⟨S256, .f32⟩
  | .hbm, ⟨5, _⟩ => ⟨S256x64, .f32⟩
  | .hbm, ⟨6, _⟩ => ⟨S64, .f32⟩
  | .hbm, ⟨7, _⟩ => ⟨S64x1, .f32⟩
  | .hbm, ⟨8, _⟩ => ⟨S1, .f32⟩
  | .hbm, ⟨9, _⟩ => ⟨S1x800000, .i32⟩
  | .hbm, ⟨10, _⟩ => ⟨S800000, .i32⟩
  | .hbm, ⟨11, _⟩ => ⟨S1x800000, .i32⟩
  | .hbm, ⟨12, _⟩ => ⟨S800000, .i32⟩
  | .hbm, ⟨13, _⟩ => ⟨S50000x64, .bf16⟩
  | .hbm, ⟨14, _⟩ => ⟨S_, .i32⟩
  | .hbm, ⟨15, _⟩ => ⟨S800000, .i32⟩
  | .hbm, ⟨16, _⟩ => ⟨S800000, .i1⟩
  | .hbm, ⟨17, _⟩ => ⟨S_, .i32⟩
  | .hbm, ⟨18, _⟩ => ⟨S800000, .i32⟩
  | .hbm, ⟨19, _⟩ => ⟨S800000, .i32⟩
  | .hbm, ⟨20, _⟩ => ⟨S800000, .i32⟩
  | .hbm, ⟨21, _⟩ => ⟨S800000x1, .i32⟩
  | .hbm, ⟨22, _⟩ => ⟨S800000x64, .bf16⟩
  | .hbm, ⟨23, _⟩ => ⟨S_, .i32⟩
  | .hbm, ⟨24, _⟩ => ⟨S800000, .i32⟩
  | .hbm, ⟨25, _⟩ => ⟨S800000, .i1⟩
  | .hbm, ⟨26, _⟩ => ⟨S_, .i32⟩
  | .hbm, ⟨27, _⟩ => ⟨S800000, .i32⟩
  | .hbm, ⟨28, _⟩ => ⟨S800000, .i32⟩
  | .hbm, ⟨29, _⟩ => ⟨S800000, .i32⟩
  | .hbm, ⟨30, _⟩ => ⟨S800000x1, .i32⟩
  | .hbm, ⟨31, _⟩ => ⟨S800000x64, .bf16⟩
  | .hbm, ⟨32, _⟩ => ⟨S800000x128, .bf16⟩
  | .hbm, ⟨33, _⟩ => ⟨S_, .i32⟩
  | .hbm, ⟨34, _⟩ => ⟨S800000, .i32⟩
  | .hbm, ⟨35, _⟩ => ⟨S800000, .i1⟩
  | .hbm, ⟨36, _⟩ => ⟨S_, .i32⟩
  | .hbm, ⟨37, _⟩ => ⟨S800000, .i32⟩
  | .hbm, ⟨38, _⟩ => ⟨S800000, .i32⟩
  | .hbm, ⟨39, _⟩ => ⟨S800000, .i32⟩
  | .hbm, ⟨40, _⟩ => ⟨S800000x1, .i32⟩
  | .hbm, ⟨41, _⟩ => ⟨S800000, .i32⟩
  | .hbm, ⟨42, _⟩ => ⟨S_, .f32⟩
  | .hbm, ⟨43, _⟩ => ⟨S_, .bf16⟩
  | .hbm, ⟨44, _⟩ => ⟨S802816x128, .bf16⟩
  | .hbm, ⟨45, _⟩ => ⟨S_, .i32⟩
  | .hbm, ⟨46, _⟩ => ⟨S_, .i32⟩
  | .hbm, ⟨47, _⟩ => ⟨S802816, .i32⟩
  | .hbm, ⟨48, _⟩ => ⟨S392x1x2048, .i32⟩
  | .hbm, ⟨49, _⟩ => ⟨S128x256, .bf16⟩
  | .hbm, ⟨50, _⟩ => ⟨S256x64, .bf16⟩
  | .hbm, ⟨51, _⟩ => ⟨S64x1, .bf16⟩
  | .hbm, ⟨52, _⟩ => ⟨S2x128x256, .f32⟩
  | .hbm, ⟨53, _⟩ => ⟨S2x128x256, .f32⟩
  | .hbm, ⟨54, _⟩ => ⟨S2x128x1, .f32⟩
  | .hbm, ⟨55, _⟩ => ⟨S1x128x256, .f32⟩
  | .hbm, ⟨56, _⟩ => ⟨S128x256, .f32⟩
  | .hbm, ⟨57, _⟩ => ⟨S1x128x256, .f32⟩
  | .hbm, ⟨58, _⟩ => ⟨S128x256, .f32⟩
  | .hbm, ⟨59, _⟩ => ⟨S128x256, .f32⟩
  | .hbm, ⟨60, _⟩ => ⟨S1x128x256, .f32⟩
  | .hbm, ⟨61, _⟩ => ⟨S128x256, .f32⟩
  | .hbm, ⟨62, _⟩ => ⟨S1x128x256, .f32⟩
  | .hbm, ⟨63, _⟩ => ⟨S128x256, .f32⟩
  | .hbm, ⟨64, _⟩ => ⟨S128x256, .f32⟩
  | .hbm, ⟨65, _⟩ => ⟨S1x128x1, .f32⟩
  | .hbm, ⟨66, _⟩ => ⟨S128x1, .f32⟩
  | .hbm, ⟨67, _⟩ => ⟨S1x128x1, .f32⟩
  | .hbm, ⟨68, _⟩ => ⟨S128x1, .f32⟩
  | .hbm, ⟨69, _⟩ => ⟨S128x1, .f32⟩
  | .hbm, ⟨70, _⟩ => ⟨S_, .f32⟩
  | .hbm, ⟨71, _⟩ => ⟨S128x1, .f32⟩
  | .hbm, ⟨72, _⟩ => ⟨S128x1, .f32⟩
  | .hbm, ⟨73, _⟩ => ⟨S128x256, .f32⟩
  | .hbm, ⟨74, _⟩ => ⟨S128x256, .f32⟩
  | .hbm, ⟨75, _⟩ => ⟨S128x256, .f32⟩
  | .hbm, ⟨76, _⟩ => ⟨S128x256, .f32⟩
  | .hbm, ⟨77, _⟩ => ⟨S128x256, .f32⟩
  | .hbm, ⟨78, _⟩ => ⟨S128x256, .f32⟩
  | .hbm, ⟨79, _⟩ => ⟨S_, .f32⟩
  | .hbm, ⟨80, _⟩ => ⟨S128x256, .f32⟩
  | .hbm, ⟨81, _⟩ => ⟨S128x256, .f32⟩
  | .hbm, ⟨82, _⟩ => ⟨S_, .f32⟩
  | .hbm, ⟨83, _⟩ => ⟨S128x256, .f32⟩
  | .hbm, ⟨84, _⟩ => ⟨S128x256, .f32⟩
  | .hbm, ⟨85, _⟩ => ⟨S128x256, .f32⟩
  | .hbm, ⟨86, _⟩ => ⟨S128x256, .f32⟩
  | .hbm, ⟨87, _⟩ => ⟨S128x512, .f32⟩
  | .hbm, ⟨88, _⟩ => ⟨S802816x64, .bf16⟩
  | .hbm, ⟨89, _⟩ => ⟨S2x128x64, .f32⟩
  | .hbm, ⟨90, _⟩ => ⟨S2x128x64, .f32⟩
  | .hbm, ⟨91, _⟩ => ⟨S1x128x64, .f32⟩
  | .hbm, ⟨92, _⟩ => ⟨S128x64, .f32⟩
  | .hbm, ⟨93, _⟩ => ⟨S1x128x64, .f32⟩
  | .hbm, ⟨94, _⟩ => ⟨S128x64, .f32⟩
  | .hbm, ⟨95, _⟩ => ⟨S128x64, .f32⟩
  | .hbm, ⟨96, _⟩ => ⟨S1x128x64, .f32⟩
  | .hbm, ⟨97, _⟩ => ⟨S128x64, .f32⟩
  | .hbm, ⟨98, _⟩ => ⟨S1x128x64, .f32⟩
  | .hbm, ⟨99, _⟩ => ⟨S128x64, .f32⟩
  | .hbm, ⟨100, _⟩ => ⟨S128x64, .f32⟩
  | .hbm, ⟨101, _⟩ => ⟨S128x64, .f32⟩
  | .hbm, ⟨102, _⟩ => ⟨S128x64, .f32⟩
  | .hbm, ⟨103, _⟩ => ⟨S128x64, .f32⟩
  | .hbm, ⟨104, _⟩ => ⟨S128x64, .f32⟩
  | .hbm, ⟨105, _⟩ => ⟨S128x64, .f32⟩
  | .hbm, ⟨106, _⟩ => ⟨S128x64, .f32⟩
  | .hbm, ⟨107, _⟩ => ⟨S_, .f32⟩
  | .hbm, ⟨108, _⟩ => ⟨S128x64, .f32⟩
  | .hbm, ⟨109, _⟩ => ⟨S128x64, .f32⟩
  | .hbm, ⟨110, _⟩ => ⟨S_, .f32⟩
  | .hbm, ⟨111, _⟩ => ⟨S128x64, .f32⟩
  | .hbm, ⟨112, _⟩ => ⟨S128x64, .f32⟩
  | .hbm, ⟨113, _⟩ => ⟨S128x64, .f32⟩
  | .hbm, ⟨114, _⟩ => ⟨S128x64, .f32⟩
  | .hbm, ⟨115, _⟩ => ⟨S128x128, .f32⟩
  | .hbm, ⟨116, _⟩ => ⟨S392x1x2048, .f32⟩
  | .hbm, ⟨117, _⟩ => ⟨S802816, .f32⟩
  | .hbm, ⟨118, _⟩ => ⟨S800000, .f32⟩
  | .hbm, ⟨119, _⟩ => ⟨S800000x1, .f32⟩
  | .local _ .vmem, ⟨0, _⟩ => ⟨S2048x128, .bf16⟩
  | .local _ .vmem, ⟨1, _⟩ => ⟨S2048x128, .bf16⟩
  | .local _ .vmem, ⟨2, _⟩ => ⟨S1x1x2048, .i32⟩
  | .local _ .vmem, ⟨3, _⟩ => ⟨S1x1x2048, .i32⟩
  | .local _ .vmem, ⟨4, _⟩ => ⟨S128x256, .bf16⟩
  | .local _ .vmem, ⟨5, _⟩ => ⟨S256, .f32⟩
  | .local _ .vmem, ⟨6, _⟩ => ⟨S1x128x256, .f32⟩
  | .local _ .vmem, ⟨7, _⟩ => ⟨S1x128x256, .f32⟩
  | .local _ .vmem, ⟨8, _⟩ => ⟨S1x128x256, .f32⟩
  | .local _ .vmem, ⟨9, _⟩ => ⟨S1x128x256, .f32⟩
  | .local _ .vmem, ⟨10, _⟩ => ⟨S1x128x1, .f32⟩
  | .local _ .vmem, ⟨11, _⟩ => ⟨S1x128x1, .f32⟩
  | .local _ .vmem, ⟨12, _⟩ => ⟨S128x256, .f32⟩
  | .local _ .vmem, ⟨13, _⟩ => ⟨S128x256, .f32⟩
  | .local _ .vmem, ⟨14, _⟩ => ⟨S128x1, .f32⟩
  | .local _ .vmem, ⟨15, _⟩ => ⟨S2048x128, .bf16⟩
  | .local _ .vmem, ⟨16, _⟩ => ⟨S2048x128, .bf16⟩
  | .local _ .vmem, ⟨17, _⟩ => ⟨S1x1x2048, .i32⟩
  | .local _ .vmem, ⟨18, _⟩ => ⟨S1x1x2048, .i32⟩
  | .local _ .vmem, ⟨19, _⟩ => ⟨S128x512, .f32⟩
  | .local _ .vmem, ⟨20, _⟩ => ⟨S128x256, .bf16⟩
  | .local _ .vmem, ⟨21, _⟩ => ⟨S256, .f32⟩
  | .local _ .vmem, ⟨22, _⟩ => ⟨S256x64, .bf16⟩
  | .local _ .vmem, ⟨23, _⟩ => ⟨S64, .f32⟩
  | .local _ .vmem, ⟨24, _⟩ => ⟨S2048x64, .bf16⟩
  | .local _ .vmem, ⟨25, _⟩ => ⟨S2048x64, .bf16⟩
  | .local _ .vmem, ⟨26, _⟩ => ⟨S1x128x64, .f32⟩
  | .local _ .vmem, ⟨27, _⟩ => ⟨S1x128x64, .f32⟩
  | .local _ .vmem, ⟨28, _⟩ => ⟨S1x128x64, .f32⟩
  | .local _ .vmem, ⟨29, _⟩ => ⟨S1x128x64, .f32⟩
  | .local _ .vmem, ⟨30, _⟩ => ⟨S128x64, .f32⟩
  | .local _ .vmem, ⟨31, _⟩ => ⟨S128x64, .f32⟩
  | .local _ .vmem, ⟨32, _⟩ => ⟨S2048x64, .bf16⟩
  | .local _ .vmem, ⟨33, _⟩ => ⟨S2048x64, .bf16⟩
  | .local _ .vmem, ⟨34, _⟩ => ⟨S1x1x2048, .i32⟩
  | .local _ .vmem, ⟨35, _⟩ => ⟨S1x1x2048, .i32⟩
  | .local _ .vmem, ⟨36, _⟩ => ⟨S128x128, .f32⟩
  | .local _ .vmem, ⟨37, _⟩ => ⟨S64x1, .bf16⟩
  | .local _ .vmem, ⟨38, _⟩ => ⟨S1, .f32⟩
  | .local _ .vmem, ⟨39, _⟩ => ⟨S1x1x2048, .f32⟩
  | .local _ .vmem, ⟨40, _⟩ => ⟨S1x1x2048, .f32⟩
  | _, _ => ⟨S50000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | _, _ => false

abbrev semScoped : Fin 0 → Bool
  | ⟨_, h⟩ => absurd h (Nat.not_lt_zero _)

abbrev dmaSemScoped : Fin 36 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | _ => false

abbrev sig : RefSig :=
  ofTc nBuf bufTy 0 36 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_c : Ref sig .tc := ⟨.hbm, 14, rfl⟩
abbrev main_v5 : Ref sig .tc := ⟨.hbm, 15, rfl⟩
abbrev main_v6 : Ref sig .tc := ⟨.hbm, 16, rfl⟩
abbrev main_c_0 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_c_1 : Ref sig .tc := ⟨.hbm, 23, rfl⟩
abbrev main_v12 : Ref sig .tc := ⟨.hbm, 24, rfl⟩
abbrev main_v13 : Ref sig .tc := ⟨.hbm, 25, rfl⟩
abbrev main_c_2 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_c_3 : Ref sig .tc := ⟨.hbm, 33, rfl⟩
abbrev main_v20 : Ref sig .tc := ⟨.hbm, 34, rfl⟩
abbrev main_v21 : Ref sig .tc := ⟨.hbm, 35, rfl⟩
abbrev main_c_4 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_cst : Ref sig .tc := ⟨.hbm, 42, rfl⟩
abbrev main_call0_v0 : Ref sig .tc := ⟨.hbm, 43, rfl⟩
abbrev main_v27 : Ref sig .tc := ⟨.hbm, 44, rfl⟩
abbrev main_c_5 : Ref sig .tc := ⟨.hbm, 45, rfl⟩
abbrev main_call1_v0 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33_0 : Ref sig .tc := ⟨.hbm, 52, rfl⟩
abbrev main_v33_1 : Ref sig .tc := ⟨.hbm, 53, rfl⟩
abbrev main_v33_2 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_cst_6 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_cst_7 : Ref sig .tc := ⟨.hbm, 79, rfl⟩
abbrev main_v57 : Ref sig .tc := ⟨.hbm, 80, rfl⟩
abbrev main_v58 : Ref sig .tc := ⟨.hbm, 81, rfl⟩
abbrev main_cst_8 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_v64_0 : Ref sig .tc := ⟨.hbm, 88, rfl⟩
abbrev main_v64_1 : Ref sig .tc := ⟨.hbm, 89, rfl⟩
abbrev main_v64_2 : Ref sig .tc := ⟨.hbm, 90, rfl⟩
abbrev main_v65 : Ref sig .tc := ⟨.hbm, 91, rfl⟩
abbrev main_v66 : Ref sig .tc := ⟨.hbm, 92, rfl⟩
abbrev main_v67 : Ref sig .tc := ⟨.hbm, 93, rfl⟩
abbrev main_v68 : Ref sig .tc := ⟨.hbm, 94, rfl⟩
abbrev main_v69 : Ref sig .tc := ⟨.hbm, 95, rfl⟩
abbrev main_v70 : Ref sig .tc := ⟨.hbm, 96, rfl⟩
abbrev main_v71 : Ref sig .tc := ⟨.hbm, 97, rfl⟩
abbrev main_v72 : Ref sig .tc := ⟨.hbm, 98, rfl⟩
abbrev main_v73 : Ref sig .tc := ⟨.hbm, 99, rfl⟩
abbrev main_v74 : Ref sig .tc := ⟨.hbm, 100, rfl⟩
abbrev main_v75 : Ref sig .tc := ⟨.hbm, 101, rfl⟩
abbrev main_v76 : Ref sig .tc := ⟨.hbm, 102, rfl⟩
abbrev main_v77 : Ref sig .tc := ⟨.hbm, 103, rfl⟩
abbrev main_v78 : Ref sig .tc := ⟨.hbm, 104, rfl⟩
abbrev main_v79 : Ref sig .tc := ⟨.hbm, 105, rfl⟩
abbrev main_v80 : Ref sig .tc := ⟨.hbm, 106, rfl⟩
abbrev main_cst_9 : Ref sig .tc := ⟨.hbm, 107, rfl⟩
abbrev main_v81 : Ref sig .tc := ⟨.hbm, 108, rfl⟩
abbrev main_v82 : Ref sig .tc := ⟨.hbm, 109, rfl⟩
abbrev main_cst_10 : Ref sig .tc := ⟨.hbm, 110, rfl⟩
abbrev main_v83 : Ref sig .tc := ⟨.hbm, 111, rfl⟩
abbrev main_v84 : Ref sig .tc := ⟨.hbm, 112, rfl⟩
abbrev main_v85 : Ref sig .tc := ⟨.hbm, 113, rfl⟩
abbrev main_v86 : Ref sig .tc := ⟨.hbm, 114, rfl⟩
abbrev main_v87 : Ref sig .tc := ⟨.hbm, 115, rfl⟩
abbrev main_v88 : Ref sig .tc := ⟨.hbm, 116, rfl⟩
abbrev main_v89 : Ref sig .tc := ⟨.hbm, 117, rfl⟩
abbrev main_v90 : Ref sig .tc := ⟨.hbm, 118, rfl⟩
abbrev main_v91 : Ref sig .tc := ⟨.hbm, 119, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_scratch0 : Ref sig .tc := ⟨.vmem, 12, rfl⟩
abbrev cc0_scratch1 : Ref sig .tc := ⟨.vmem, 13, rfl⟩
abbrev cc0_scratch2 : Ref sig .tc := ⟨.vmem, 14, rfl⟩
abbrev cc1_stg0_0 : Ref sig .tc := ⟨.vmem, 15, rfl⟩
abbrev cc1_stg0_1 : Ref sig .tc := ⟨.vmem, 16, rfl⟩
abbrev cc1_stg1_0 : Ref sig .tc := ⟨.vmem, 17, rfl⟩
abbrev cc1_stg1_1 : Ref sig .tc := ⟨.vmem, 18, rfl⟩
abbrev cc1_stg2_0 : Ref sig .tc := ⟨.vmem, 19, rfl⟩
abbrev cc1_stg3_0 : Ref sig .tc := ⟨.vmem, 20, rfl⟩
abbrev cc1_stg4_0 : Ref sig .tc := ⟨.vmem, 21, rfl⟩
abbrev cc1_stg5_0 : Ref sig .tc := ⟨.vmem, 22, rfl⟩
abbrev cc1_stg6_0 : Ref sig .tc := ⟨.vmem, 23, rfl⟩
abbrev cc1_stg7_0 : Ref sig .tc := ⟨.vmem, 24, rfl⟩
abbrev cc1_stg7_1 : Ref sig .tc := ⟨.vmem, 25, rfl⟩
abbrev cc1_stg8_0 : Ref sig .tc := ⟨.vmem, 26, rfl⟩
abbrev cc1_stg8_1 : Ref sig .tc := ⟨.vmem, 27, rfl⟩
abbrev cc1_stg9_0 : Ref sig .tc := ⟨.vmem, 28, rfl⟩
abbrev cc1_stg9_1 : Ref sig .tc := ⟨.vmem, 29, rfl⟩
abbrev cc1_scratch0 : Ref sig .tc := ⟨.vmem, 30, rfl⟩
abbrev cc1_scratch1 : Ref sig .tc := ⟨.vmem, 31, rfl⟩
abbrev cc2_stg0_0 : Ref sig .tc := ⟨.vmem, 32, rfl⟩
abbrev cc2_stg0_1 : Ref sig .tc := ⟨.vmem, 33, rfl⟩
abbrev cc2_stg1_0 : Ref sig .tc := ⟨.vmem, 34, rfl⟩
abbrev cc2_stg1_1 : Ref sig .tc := ⟨.vmem, 35, rfl⟩
abbrev cc2_stg2_0 : Ref sig .tc := ⟨.vmem, 36, rfl⟩
abbrev cc2_stg3_0 : Ref sig .tc := ⟨.vmem, 37, rfl⟩
abbrev cc2_stg4_0 : Ref sig .tc := ⟨.vmem, 38, rfl⟩
abbrev cc2_stg5_0 : Ref sig .tc := ⟨.vmem, 39, rfl⟩
abbrev cc2_stg5_1 : Ref sig .tc := ⟨.vmem, 40, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc1_sem0_0 : DmaSem sig := 12
abbrev cc1_sem0_1 : DmaSem sig := 13
abbrev cc1_sem1_0 : DmaSem sig := 14
abbrev cc1_sem1_1 : DmaSem sig := 15
abbrev cc1_sem2_0 : DmaSem sig := 16
abbrev cc1_sem3_0 : DmaSem sig := 17
abbrev cc1_sem4_0 : DmaSem sig := 18
abbrev cc1_sem5_0 : DmaSem sig := 19
abbrev cc1_sem6_0 : DmaSem sig := 20
abbrev cc1_sem7_0 : DmaSem sig := 21
abbrev cc1_sem7_1 : DmaSem sig := 22
abbrev cc1_sem8_0 : DmaSem sig := 23
abbrev cc1_sem8_1 : DmaSem sig := 24
abbrev cc1_sem9_0 : DmaSem sig := 25
abbrev cc1_sem9_1 : DmaSem sig := 26
abbrev cc2_sem0_0 : DmaSem sig := 27
abbrev cc2_sem0_1 : DmaSem sig := 28
abbrev cc2_sem1_0 : DmaSem sig := 29
abbrev cc2_sem1_1 : DmaSem sig := 30
abbrev cc2_sem2_0 : DmaSem sig := 31
abbrev cc2_sem3_0 : DmaSem sig := 32
abbrev cc2_sem4_0 : DmaSem sig := 33
abbrev cc2_sem5_0 : DmaSem sig := 34
abbrev cc2_sem5_1 : DmaSem sig := 35

abbrev nD : Nat := 1
abbrev τ : Topo := Topo.v7x

variable {F : FTy → Type} [FloatOps F]

abbrev grid0 : Pipeline.Grid := ⟨2, ![2, 196], ![false, false]⟩

def k0_cond2 (i : grid0.Coords) : BitVec 1 :=
  let arg1 : BitVec 32 := BitVec.ofNat 32 (i 1).val
  let c195_i32 : BitVec 32 := 195#32
  let v52 : BitVec 1 := Scalar.cmpi .eq arg1 c195_i32
  let v53 : BitVec 32 := Scalar.extui v52
  let c0_i32_25 : BitVec 32 := 0#32
  let v54 : BitVec 1 := Scalar.cmpi .ne v53 c0_i32_25
  v54

def cc0_transform_0 (i : grid0.Coords) : Fin 2 → Nat :=
  let arg0 : BitVec 32 := BitVec.ofNat 32 (i 0).val
  let arg1 : BitVec 32 := BitVec.ofNat 32 (i 1).val
  let c196_i32 : BitVec 32 := 196#32
  let v0 : BitVec 32 := Scalar.muli arg0 c196_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 3 → Nat :=
  let arg0 : BitVec 32 := BitVec.ofNat 32 (i 0).val
  let arg1 : BitVec 32 := BitVec.ofNat 32 (i 1).val
  let c196_i32 : BitVec 32 := 196#32
  let v0 : BitVec 32 := Scalar.muli arg0 c196_i32
  let v1 : BitVec 32 := Scalar.addi v0 arg1
  let c0_i32 : BitVec 32 := 0#32
  let c0_i32_0 : BitVec 32 := 0#32
  let c0_i32_1 : BitVec 32 := 0#32
  ![v1.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S2048x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x2048 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S128x256 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1x128x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x128x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1x128x1 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev grid1 : Pipeline.Grid := ⟨2, ![2, 196], ![false, false]⟩

def k1_cond2 (i : grid1.Coords) : BitVec 1 :=
  let arg1 : BitVec 32 := BitVec.ofNat 32 (i 1).val
  let c195_i32 : BitVec 32 := 195#32
  let v67 : BitVec 1 := Scalar.cmpi .eq arg1 c195_i32
  let v68 : BitVec 32 := Scalar.extui v67
  let c0_i32_29 : BitVec 32 := 0#32
  let v69 : BitVec 1 := Scalar.cmpi .ne v68 c0_i32_29
  v69

def cc1_transform_0 (i : grid1.Coords) : Fin 2 → Nat :=
  let arg0 : BitVec 32 := BitVec.ofNat 32 (i 0).val
  let arg1 : BitVec 32 := BitVec.ofNat 32 (i 1).val
  let c196_i32 : BitVec 32 := 196#32
  let v0 : BitVec 32 := Scalar.muli arg0 c196_i32
  let v1 : BitVec 32 := Scalar.addi v0 arg1
  let c0_i32 : BitVec 32 := 0#32
  let c0_i32_0 : BitVec 32 := 0#32
  ![v1.toNat, c0_i32.toNat]

def cc1_transform_1 (i : grid1.Coords) : Fin 3 → Nat :=
  let arg0 : BitVec 32 := BitVec.ofNat 32 (i 0).val
  let arg1 : BitVec 32 := BitVec.ofNat 32 (i 1).val
  let c196_i32 : BitVec 32 := 196#32
  let v0 : BitVec 32 := Scalar.muli arg0 c196_i32
  let v1 : BitVec 32 := Scalar.addi v0 arg1
  let c0_i32 : BitVec 32 := 0#32
  let c0_i32_0 : BitVec 32 := 0#32
  let c0_i32_1 : BitVec 32 := 0#32
  ![v1.toNat, c0_i32.toNat, c0_i32_0.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc1_transform_5 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc1_transform_7 (i : grid1.Coords) : Fin 2 → Nat :=
  let arg0 : BitVec 32 := BitVec.ofNat 32 (i 0).val
  let arg1 : BitVec 32 := BitVec.ofNat 32 (i 1).val
  let c196_i32 : BitVec 32 := 196#32
  let v0 : BitVec 32 := Scalar.muli arg0 c196_i32
  let v1 : BitVec 32 := Scalar.addi v0 arg1
  let c0_i32 : BitVec 32 := 0#32
  let c0_i32_0 : BitVec 32 := 0#32
  ![v1.toNat, c0_i32.toNat]

def cc1_transform_8 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_9 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage1_0 : Fin 2 → Memref sig .tc .vmem S2048x128 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S1x1x2048 .i32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true]

abbrev stage1_2 : Fin 1 → Memref sig .tc .vmem S128x512 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false, false]

abbrev stage1_3 : Fin 1 → Memref sig .tc .vmem S128x256 .bf16 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false, false]

abbrev stage1_4 : Fin 1 → Memref sig .tc .vmem S256 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false, false]

abbrev stage1_5 : Fin 1 → Memref sig .tc .vmem S256x64 .bf16 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false, false]

abbrev stage1_6 : Fin 1 → Memref sig .tc .vmem S64 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false, false]

abbrev stage1_7 : Fin 2 → Memref sig .tc .vmem S2048x64 .bf16 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true, true]

abbrev stage1_8 : Fin 2 → Memref sig .tc .vmem S1x128x64 .f32 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true, false]

abbrev stage1_9 : Fin 2 → Memref sig .tc .vmem S1x128x64 .f32 := fun | 0 => Memref.whole cc1_stg9_0 | 1 => Memref.whole cc1_stg9_1 | ⟨_ + 2, h⟩ => absurd h (Nat.not_lt.2 (Nat.le_add_left _ _))
abbrev sem1_9 : Fin 2 → DmaSem sig := fun | 0 => cc1_sem9_0 | 1 => cc1_sem9_1 | ⟨_ + 2, h⟩ => absurd h (Nat.not_lt.2 (Nat.le_add_left _ _))
abbrev reads1_9 : Fin grid1.rank → Bool := ![true, false]

abbrev grid2 : Pipeline.Grid := ⟨1, ![392], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_5 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage2_0 : Fin 2 → Memref sig .tc .vmem S2048x64 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S1x1x2048 .i32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S128x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S64x1 .bf16 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S1x1x2048 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bitsLt_bf16_f32 : FTy.bits .bf16 < FTy.bits .f32
  bcast_S_S800000 : S_.BroadcastsInDim S800000 (![] : Fin 0 → Fin S800000.rank)
  bcast_S800000_S800000x1_0 : S800000.BroadcastsInDim S800000x1 (![0] : Fin 1 → Fin S800000x1.rank)
  concatenates_S800000x64_S800000x64_S800000x128_d1 : Shape.Concatenates [S800000x64, S800000x64] S800000x128 1
  pads_S800000x128_S802816x128_028160_000 : S800000x128.Pads (![0, 0] : Fin 2 → Nat) ![2816, 0] ![0, 0] S802816x128
  h_S_ : 0 < S_.numel
  pads_S800000_S802816_028160 : S800000.Pads (![0] : Fin 1 → Nat) ![2816] ![0] S802816
  shapeCasts_S802816_S392x1x2048 : S802816.ShapeCasts S392x1x2048
  inb_S128x256_S128x256_0_0 : ∀ a, (![0, 0] : Fin 2 → Nat) a + S128x256.size a ≤ S128x256.size a
  h_S128x256 : 0 < S128x256.numel
  shapeCasts_S128x256_S128x256 : S128x256.ShapeCasts S128x256
  inb_S128x1_S128x1_0_0 : ∀ a, (![0, 0] : Fin 2 → Nat) a + S128x1.size a ≤ S128x1.size a
  h_S128x1 : 0 < S128x1.numel
  shapeCasts_S128x1_S128x1 : S128x1.ShapeCasts S128x1
  inb_S2048x128_S2048x128_0_0 : ∀ a, (![0, 0] : Fin 2 → Nat) a + S2048x128.size a ≤ S2048x128.size a
  h_S2048x128 : 0 < S2048x128.numel
  shapeCasts_S2048x128_S2048x128 : S2048x128.ShapeCasts S2048x128
  inb_S256_S256_0 : ∀ a, (![0] : Fin 1 → Nat) a + S256.size a ≤ S256.size a
  h_S256 : 0 < S256.numel
  shapeCasts_S256_S1x256 : S256.ShapeCasts S1x256
  broadcasts_S1x256_S2048x256 : S1x256.Broadcasts S2048x256
  inb_S1x1x2048_S1x1x2048_0_0_0 : ∀ a, (![0, 0, 0] : Fin 3 → Nat) a + S1x1x2048.size a ≤ S1x1x2048.size a
  h_S1x1x2048 : 0 < S1x1x2048.numel
  shapeCasts_S1x1x2048_S1x2048 : S1x1x2048.ShapeCasts S1x2048
  iota_S128x2048_d0_w32 : S128x2048.Iotas .tc 32 [0]
  broadcasts_S1x2048_S128x2048 : S1x2048.Broadcasts S128x2048
  natLt_1_32 : 1 < 32
  reduces_S128x2048_S128 : S128x2048.Reduces [1] S128
  shapeCasts_S128_S128x1 : S128.ShapeCasts S128x1
  inb_S1x128x256_S1x128x256_0_0_0 : ∀ a, (![0, 0, 0] : Fin 3 → Nat) a + S1x128x256.size a ≤ S1x128x256.size a
  h_S1x128x256 : 0 < S1x128x256.numel
  shapeCasts_S1x128x256_S128x256 : S1x128x256.ShapeCasts S128x256
  shapeCasts_S128x256_S1x128x256 : S128x256.ShapeCasts S1x128x256
  inb_S1x128x1_S1x128x1_0_0_0 : ∀ a, (![0, 0, 0] : Fin 3 → Nat) a + S1x128x1.size a ≤ S1x128x1.size a
  h_S1x128x1 : 0 < S1x128x1.numel
  shapeCasts_S1x128x1_S128x1 : S1x128x1.ShapeCasts S128x1
  shapeCasts_S128x1_S1x128x1 : S128x1.ShapeCasts S1x128x1
  slices_S2x128x256_S1x128x256_0_0_0 : S2x128x256.Slices ![0, 0, 0] S1x128x256
  slices_S2x128x256_S1x128x256_1_0_0 : S2x128x256.Slices ![1, 0, 0] S1x128x256
  slices_S2x128x1_S1x128x1_0_0_0 : S2x128x1.Slices ![0, 0, 0] S1x128x1
  slices_S2x128x1_S1x128x1_1_0_0 : S2x128x1.Slices ![1, 0, 0] S1x128x1
  bcast_S_S128x1 : S_.BroadcastsInDim S128x1 (![] : Fin 0 → Fin S128x1.rank)
  bcast_S128x1_S128x256_0_1 : S128x1.BroadcastsInDim S128x256 (![0, 1] : Fin 2 → Fin S128x256.rank)
  bcast_S_S128x256 : S_.BroadcastsInDim S128x256 (![] : Fin 0 → Fin S128x256.rank)
  concatenates_S128x256_S128x256_S128x512_d1 : Shape.Concatenates [S128x256, S128x256] S128x512 1
  inb_S128x64_S128x64_0_0 : ∀ a, (![0, 0] : Fin 2 → Nat) a + S128x64.size a ≤ S128x64.size a
  h_S128x64 : 0 < S128x64.numel
  shapeCasts_S128x64_S128x64 : S128x64.ShapeCasts S128x64
  transposes_S1x2048_p1_0_S2048x1 : S1x2048.Transposes [1, 0] S2048x1
  iota_S2048x128_d1_w32 : S2048x128.Iotas .tc 32 [1]
  broadcasts_S2048x1_S2048x128 : S2048x1.Broadcasts S2048x128
  inb_S128x512_S128x512_0_0 : ∀ a, (![0, 0] : Fin 2 → Nat) a + S128x512.size a ≤ S128x512.size a
  h_S128x512 : 0 < S128x512.numel
  shapeCasts_S128x512_S128x512 : S128x512.ShapeCasts S128x512
  slices_S2048x512_o0_0_S2048x256 : S2048x512.Slices ![0, 0] S2048x256
  slices_S2048x512_o0_256_S2048x256 : S2048x512.Slices ![0, 256] S2048x256
  inb_S256x64_S256x64_0_0 : ∀ a, (![0, 0] : Fin 2 → Nat) a + S256x64.size a ≤ S256x64.size a
  h_S256x64 : 0 < S256x64.numel
  shapeCasts_S256x64_S256x64 : S256x64.ShapeCasts S256x64
  inb_S64_S64_0 : ∀ a, (![0] : Fin 1 → Nat) a + S64.size a ≤ S64.size a
  h_S64 : 0 < S64.numel
  shapeCasts_S64_S1x64 : S64.ShapeCasts S1x64
  broadcasts_S1x64_S2048x64 : S1x64.Broadcasts S2048x64
  inb_S2048x64_S2048x64_0_0 : ∀ a, (![0, 0] : Fin 2 → Nat) a + S2048x64.size a ≤ S2048x64.size a
  h_S2048x64 : 0 < S2048x64.numel
  packedbf16_S2048x64_S2048x64_0_0 : (Rect.unit (s := S2048x64) ![0, 0] S2048x64.size inb_S2048x64_S2048x64_0_0).PackedRows (EltTy.packing .bf16)
  inb_S1x128x64_S1x128x64_0_0_0 : ∀ a, (![0, 0, 0] : Fin 3 → Nat) a + S1x128x64.size a ≤ S1x128x64.size a
  h_S1x128x64 : 0 < S1x128x64.numel
  shapeCasts_S1x128x64_S128x64 : S1x128x64.ShapeCasts S128x64
  shapeCasts_S128x64_S1x128x64 : S128x64.ShapeCasts S1x128x64
  slices_S2x128x64_S1x128x64_0_0_0 : S2x128x64.Slices ![0, 0, 0] S1x128x64
  slices_S2x128x64_S1x128x64_1_0_0 : S2x128x64.Slices ![1, 0, 0] S1x128x64
  bcast_S128x1_S128x64_0_1 : S128x1.BroadcastsInDim S128x64 (![0, 1] : Fin 2 → Fin S128x64.rank)
  bcast_S_S128x64 : S_.BroadcastsInDim S128x64 (![] : Fin 0 → Fin S128x64.rank)
  concatenates_S128x64_S128x64_S128x128_d1 : Shape.Concatenates [S128x64, S128x64] S128x128 1
  shapeCasts_S2048x64_S2048x64 : S2048x64.ShapeCasts S2048x64
  inb_S128x128_S128x128_0_0 : ∀ a, (![0, 0] : Fin 2 → Nat) a + S128x128.size a ≤ S128x128.size a
  h_S128x128 : 0 < S128x128.numel
  shapeCasts_S128x128_S128x128 : S128x128.ShapeCasts S128x128
  slices_S2048x128_o0_0_S2048x64 : S2048x128.Slices ![0, 0] S2048x64
  slices_S2048x128_o0_64_S2048x64 : S2048x128.Slices ![0, 64] S2048x64
  inb_S64x1_S64x1_0_0 : ∀ a, (![0, 0] : Fin 2 → Nat) a + S64x1.size a ≤ S64x1.size a
  h_S64x1 : 0 < S64x1.numel
  shapeCasts_S64x1_S64x1 : S64x1.ShapeCasts S64x1
  inb_S1_S1_0 : ∀ a, (![0] : Fin 1 → Nat) a + S1.size a ≤ S1.size a
  h_S1 : 0 < S1.numel
  shapeCasts_S1_S1x1 : S1.ShapeCasts S1x1
  broadcasts_S1x1_S2048x1 : S1x1.Broadcasts S2048x1
  transposes_S2048x1_p1_0_S1x2048 : S2048x1.Transposes [1, 0] S1x2048
  shapeCasts_S1x2048_S1x1x2048 : S1x2048.ShapeCasts S1x1x2048
  shapeCasts_S392x1x2048_S802816 : S392x1x2048.ShapeCasts S802816
  slices_S802816_S800000_0 : S802816.Slices ![0] S800000
  shapeCasts_S800000_S800000x1 : S800000.ShapeCasts S800000x1
  gather_S50000x64_S800000x1_S800000x64_1_0_n_n_0_1_164_wf : GatherDims.WF S50000x64 S800000x1 S800000x64 [1] [0] [] [0] [] 1 ![1, 64]
  gather_S50000_S800000x1_S800000_n_0_n_n_0_1_1_wf : GatherDims.WF S50000 S800000x1 S800000 [] [0] [] [0] [] 1 ![1]
  dot_S2048x128_S128x256_S2048x256_1_0_0_1_n_n_wf : DotDims.WF S2048x128 S128x256 S2048x256 [1] [0] [0] [1] [] []
  dot_S128x2048_S2048x256_S128x256_1_0_0_1_n_n_wf : DotDims.WF S128x2048 S2048x256 S128x256 [1] [0] [0] [1] [] []
  dot_S2048x128_S128x512_S2048x512_1_0_0_1_n_n_wf : DotDims.WF S2048x128 S128x512 S2048x512 [1] [0] [0] [1] [] []
  dot_S2048x256_S256x64_S2048x64_1_0_0_1_n_n_wf : DotDims.WF S2048x256 S256x64 S2048x64 [1] [0] [0] [1] [] []
  dot_S128x2048_S2048x64_S128x64_1_0_0_1_n_n_wf : DotDims.WF S128x2048 S2048x64 S128x64 [1] [0] [0] [1] [] []
  dot_S2048x128_S128x128_S2048x128_1_0_0_1_n_n_wf : DotDims.WF S2048x128 S128x128 S2048x128 [1] [0] [0] [1] [] []
  dot_S2048x64_S64x1_S2048x1_1_0_0_1_n_n_wf : DotDims.WF S2048x64 S64x1 S2048x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x128.size a ≤ S802816x128.size a
  hwx0_0 : ∀ i : grid0.Coords, EltTy.bits .bf16 = 32 ∨ (Rect.block (s := S802816x128) S2048x128.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1x2048.size a ≤ S392x1x2048.size a
  hwx0_1 : ∀ i : grid0.Coords, EltTy.bits .i32 = 32 ∨ (Rect.block (s := S392x1x2048) S1x1x2048.size (cc0_transform_1 i) (hinb0_1 i)).WholeWords (EltTy.packing .i32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x256.size a ≤ S128x256.size a
  hwx0_2 : ∀ i : grid0.Coords, EltTy.bits .bf16 = 32 ∨ (Rect.block (s := S128x256) S128x256.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S256.size a ≤ S256.size a
  hwx0_3 : ∀ i : grid0.Coords, EltTy.bits .f32 = 32 ∨ (Rect.block (s := S256) S256.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x128x256.size a ≤ S2x128x256.size a
  hwx0_4 : ∀ i : grid0.Coords, EltTy.bits .f32 = 32 ∨ (Rect.block (s := S2x128x256) S1x128x256.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x128x256.size a ≤ S2x128x256.size a
  hwx0_5 : ∀ i : grid0.Coords, EltTy.bits .f32 = 32 ∨ (Rect.block (s := S2x128x256) S1x128x256.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1x128x1.size a ≤ S2x128x1.size a
  hwx0_6 : ∀ i : grid0.Coords, EltTy.bits .f32 = 32 ∨ (Rect.block (s := S2x128x1) S1x128x1.size (cc0_transform_6 i) (hinb0_6 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2048x128.size a ≤ S802816x128.size a
  hwx1_0 : ∀ i : grid1.Coords, EltTy.bits .bf16 = 32 ∨ (Rect.block (s := S802816x128) S2048x128.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x1x2048.size a ≤ S392x1x2048.size a
  hwx1_1 : ∀ i : grid1.Coords, EltTy.bits .i32 = 32 ∨ (Rect.block (s := S392x1x2048) S1x1x2048.size (cc1_transform_1 i) (hinb1_1 i)).WholeWords (EltTy.packing .i32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x512.size a ≤ S128x512.size a
  hwx1_2 : ∀ i : grid1.Coords, EltTy.bits .f32 = 32 ∨ (Rect.block (s := S128x512) S128x512.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x256.size a ≤ S128x256.size a
  hwx1_3 : ∀ i : grid1.Coords, EltTy.bits .bf16 = 32 ∨ (Rect.block (s := S128x256) S128x256.size (cc1_transform_3 i) (hinb1_3 i)).WholeWords (EltTy.packing .bf16)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S256.size a ≤ S256.size a
  hwx1_4 : ∀ i : grid1.Coords, EltTy.bits .f32 = 32 ∨ (Rect.block (s := S256) S256.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S256x64.size a ≤ S256x64.size a
  hwx1_5 : ∀ i : grid1.Coords, EltTy.bits .bf16 = 32 ∨ (Rect.block (s := S256x64) S256x64.size (cc1_transform_5 i) (hinb1_5 i)).WholeWords (EltTy.packing .bf16)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S64.size a ≤ S64.size a
  hwx1_6 : ∀ i : grid1.Coords, EltTy.bits .f32 = 32 ∨ (Rect.block (s := S64) S64.size (cc1_transform_6 i) (hinb1_6 i)).WholeWords (EltTy.packing .f32)
  hstage1_7 : ∀ j, (stage1_7 j).IsWhole
  nbuf1_7 : grid1.bufCount reads1_7 false = 2
  hreads1_7 : ∀ i i' : grid1.Coords, (∀ a, reads1_7 a = true → i a = i' a) → cc1_transform_7 i = cc1_transform_7 i'
  hinb1_7 : ∀ (i : grid1.Coords) a, (cc1_transform_7 i a + 1) * S2048x64.size a ≤ S802816x64.size a
  hwx1_7 : ∀ i : grid1.Coords, EltTy.bits .bf16 = 32 ∨ (Rect.block (s := S802816x64) S2048x64.size (cc1_transform_7 i) (hinb1_7 i)).WholeWords (EltTy.packing .bf16)
  hstage1_8 : ∀ j, (stage1_8 j).IsWhole
  nbuf1_8 : grid1.bufCount reads1_8 false = 2
  hreads1_8 : ∀ i i' : grid1.Coords, (∀ a, reads1_8 a = true → i a = i' a) → cc1_transform_8 i = cc1_transform_8 i'
  hinb1_8 : ∀ (i : grid1.Coords) a, (cc1_transform_8 i a + 1) * S1x128x64.size a ≤ S2x128x64.size a
  hwx1_8 : ∀ i : grid1.Coords, EltTy.bits .f32 = 32 ∨ (Rect.block (s := S2x128x64) S1x128x64.size (cc1_transform_8 i) (hinb1_8 i)).WholeWords (EltTy.packing .f32)
  hstage1_9 : ∀ j, (stage1_9 j).IsWhole
  nbuf1_9 : grid1.bufCount reads1_9 false = 2
  hreads1_9 : ∀ i i' : grid1.Coords, (∀ a, reads1_9 a = true → i a = i' a) → cc1_transform_9 i = cc1_transform_9 i'
  hinb1_9 : ∀ (i : grid1.Coords) a, (cc1_transform_9 i a + 1) * S1x128x64.size a ≤ S2x128x64.size a
  hwx1_9 : ∀ i : grid1.Coords, EltTy.bits .f32 = 32 ∨ (Rect.block (s := S2x128x64) S1x128x64.size (cc1_transform_9 i) (hinb1_9 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2048x64.size a ≤ S802816x64.size a
  hwx2_0 : ∀ i : grid2.Coords, EltTy.bits .bf16 = 32 ∨ (Rect.block (s := S802816x64) S2048x64.size (cc2_transform_0 i) (hinb2_0 i)).WholeWords (EltTy.packing .bf16)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S1x1x2048.size a ≤ S392x1x2048.size a
  hwx2_1 : ∀ i : grid2.Coords, EltTy.bits .i32 = 32 ∨ (Rect.block (s := S392x1x2048) S1x1x2048.size (cc2_transform_1 i) (hinb2_1 i)).WholeWords (EltTy.packing .i32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S128x128.size a ≤ S128x128.size a
  hwx2_2 : ∀ i : grid2.Coords, EltTy.bits .f32 = 32 ∨ (Rect.block (s := S128x128) S128x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S64x1.size a ≤ S64x1.size a
  hwx2_3 : ∀ i : grid2.Coords, EltTy.bits .bf16 = 32 ∨ (Rect.block (s := S64x1) S64x1.size (cc2_transform_3 i) (hinb2_3 i)).WholeWords (EltTy.packing .bf16)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1.size a ≤ S1.size a
  hwx2_4 : ∀ i : grid2.Coords, EltTy.bits .f32 = 32 ∨ (Rect.block (s := S1) S1.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S1x1x2048.size a ≤ S392x1x2048.size a
  hwx2_5 : ∀ i : grid2.Coords, EltTy.bits .f32 = 32 ∨ (Rect.block (s := S392x1x2048) S1x1x2048.size (cc2_transform_5 i) (hinb2_5 i)).WholeWords (EltTy.packing .f32)

variable [Facts₀]

def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def gather_S50000_S800000x1_S800000_n_0_n_n_0_1_1 : GatherDims S50000 S800000x1 S800000 where
  offsetDims := []
  collapsedSliceDims := [0]
  operandBatchingDims := []
  startIndicesBatchingDims := []
  startIndexMap := [0]
  indexVectorDim := 1
  sliceSizes := ![1]
  wf := gather_S50000_S800000x1_S800000_n_0_n_n_0_1_1_wf
def dot_S2048x128_S128x256_S2048x256_1_0_0_1_n_n : DotDims S2048x128 S128x256 S2048x256 where
  lhsContracting := [1]
  rhsContracting := [0]
  lhsNonContracting := [0]
  rhsNonContracting := [1]
  lhsBatch := []
  rhsBatch := []
  wf := dot_S2048x128_S128x256_S2048x256_1_0_0_1_n_n_wf
def dot_S128x2048_S2048x256_S128x256_1_0_0_1_n_n : DotDims S128x2048 S2048x256 S128x256 where
  lhsContracting := [1]
  rhsContracting := [0]
  lhsNonContracting := [0]
  rhsNonContracting := [1]
  lhsBatch := []
  rhsBatch := []
  wf := dot_S128x2048_S2048x256_S128x256_1_0_0_1_n_n_wf
def dot_S2048x128_S128x512_S2048x512_1_0_0_1_n_n : DotDims S2048x128 S128x512 S2048x512 where
  lhsContracting := [1]
  rhsContracting := [0]
  lhsNonContracting := [0]
  rhsNonContracting := [1]
  lhsBatch := []
  rhsBatch := []
  wf := dot_S2048x128_S128x512_S2048x512_1_0_0_1_n_n_wf
def dot_S2048x256_S256x64_S2048x64_1_0_0_1_n_n : DotDims S2048x256 S256x64 S2048x64 where
  lhsContracting := [1]
  rhsContracting := [0]
  lhsNonContracting := [0]
  rhsNonContracting := [1]
  lhsBatch := []
  rhsBatch := []
  wf := dot_S2048x256_S256x64_S2048x64_1_0_0_1_n_n_wf
def dot_S128x2048_S2048x64_S128x64_1_0_0_1_n_n : DotDims S128x2048 S2048x64 S128x64 where
  lhsContracting := [1]
  rhsContracting := [0]
  lhsNonContracting := [0]
  rhsNonContracting := [1]
  lhsBatch := []
  rhsBatch := []
  wf := dot_S128x2048_S2048x64_S128x64_1_0_0_1_n_n_wf
def dot_S2048x128_S128x128_S2048x128_1_0_0_1_n_n : DotDims S2048x128 S128x128 S2048x128 where
  lhsContracting := [1]
  rhsContracting := [0]
  lhsNonContracting := [0]
  rhsNonContracting := [1]
  lhsBatch := []
  rhsBatch := []
  wf := dot_S2048x128_S128x128_S2048x128_1_0_0_1_n_n_wf
def dot_S2048x64_S64x1_S2048x1_1_0_0_1_n_n : DotDims S2048x64 S64x1 S2048x1 where
  lhsContracting := [1]
  rhsContracting := [0]
  lhsNonContracting := [0]
  rhsNonContracting := [1]
  lhsBatch := []
  rhsBatch := []
  wf := dot_S2048x64_S64x1_S2048x1_1_0_0_1_n_n_wf

abbrev win0_0 : Pipeline.Window sig grid0 :=
  Pipeline.Window.ofSpec (Memref.whole main_v27) S2048x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v29) S1x1x2048.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v30) S128x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg4) S256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v33_0) S1x128x256.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v33_1) S1x128x256.size cc0_transform_5 reads0_5 true false 2 stage0_5 sem0_5
    hrank0 hreads0_5 hinb0_5 nbuf0_5 (Memref.isWhole_whole _) hwx0_5 hstage0_5

abbrev win0_6 : Pipeline.Window sig grid0 :=
  Pipeline.Window.ofSpec (Memref.whole main_v33_2) S1x128x1.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev idle0 : Fin 7 → grid0.Coords → Bool := fun | 0 => fun _ => false | 1 => fun _ => false | 2 => fun _ => false | 3 => fun _ => false | 4 => fun i => !(k0_cond2 i == 1#1) | 5 => fun i => !(k0_cond2 i == 1#1) | 6 => fun i => !(k0_cond2 i == 1#1) | ⟨_ + 7, h⟩ => absurd h (Nat.not_lt.2 (Nat.le_add_left _ _))

abbrev win1_0 : Pipeline.Window sig grid1 :=
  Pipeline.Window.ofSpec (Memref.whole main_v27) S2048x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v29) S1x1x2048.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v63) S128x512.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v30) S128x256.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg4) S256.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v31) S256x64.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_arg6) S64.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v64_0) S2048x64.size cc1_transform_7 reads1_7 true false 2 stage1_7 sem1_7
    hrank1 hreads1_7 hinb1_7 nbuf1_7 (Memref.isWhole_whole _) hwx1_7 hstage1_7

abbrev win1_8 : Pipeline.Window sig grid1 :=
  Pipeline.Window.ofSpec (Memref.whole main_v64_1) S1x128x64.size cc1_transform_8 reads1_8 true false 2 stage1_8 sem1_8
    hrank1 hreads1_8 hinb1_8 nbuf1_8 (Memref.isWhole_whole _) hwx1_8 hstage1_8

abbrev win1_9 : Pipeline.Window sig grid1 :=
  Pipeline.Window.ofSpec (Memref.whole main_v64_2) S1x128x64.size cc1_transform_9 reads1_9 true false 2 stage1_9 sem1_9
    hrank1 hreads1_9 hinb1_9 nbuf1_9 (Memref.isWhole_whole _) hwx1_9 hstage1_9

abbrev win1 : Fin 10 → Pipeline.Window sig grid1 := fun | 0 => win1_0 | 1 => win1_1 | 2 => win1_2 | 3 => win1_3 | 4 => win1_4 | 5 => win1_5 | 6 => win1_6 | 7 => win1_7 | 8 => win1_8 | 9 => win1_9 | ⟨_ + 10, h⟩ => absurd h (Nat.not_lt.2 (Nat.le_add_left _ _))
abbrev spec1 : Fin 10 → Pipeline.WinSpec sig grid1.rank := fun w => (win1 w).toWinSpec

abbrev idle1 : Fin 10 → grid1.Coords → Bool := fun | 0 => fun _ => false | 1 => fun _ => false | 2 => fun _ => false | 3 => fun _ => false | 4 => fun _ => false | 5 => fun _ => false | 6 => fun _ => false | 7 => fun _ => false | 8 => fun i => !(k1_cond2 i == 1#1) | 9 => fun i => !(k1_cond2 i == 1#1) | ⟨_ + 10, h⟩ => absurd h (Nat.not_lt.2 (Nat.le_add_left _ _))

abbrev win2_0 : Pipeline.Window sig grid2 :=
  Pipeline.Window.ofSpec (Memref.whole main_v64_0) S2048x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v29) S1x1x2048.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v87) S128x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v32) S64x1.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_arg8) S1.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v88) S1x1x2048.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

class Facts : Prop extends Facts₀ where

variable [Facts]
-- ==== ReferenceIdeal.lean ====
abbrev S50000x64 : Shape := ⟨2, ![50000, 64]⟩
abbrev S2x800000 : Shape := ⟨2, ![2, 800000]⟩
abbrev S50000 : Shape := ⟨1, ![50000]⟩
abbrev S128x256 : Shape := ⟨2, ![128, 256]⟩
abbrev S256 : Shape := ⟨1, ![256]⟩
abbrev S256x64 : Shape := ⟨2, ![256, 64]⟩
abbrev S64 : Shape := ⟨1, ![64]⟩
abbrev S64x1 : Shape := ⟨2, ![64, 1]⟩
abbrev S1 : Shape := ⟨1, ![1]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S800000x64 : Shape := ⟨2, ![800000, 64]⟩
abbrev S800000x128 : Shape := ⟨2, ![800000, 128]⟩
abbrev S800000x256 : Shape := ⟨2, ![800000, 256]⟩
abbrev S1x256 : Shape := ⟨2, ![1, 256]⟩
abbrev S128x1 : Shape := ⟨2, ![128, 1]⟩
abbrev S1x64 : Shape := ⟨2, ![1, 64]⟩
abbrev S128x64 : Shape := ⟨2, ![128, 64]⟩
abbrev S1x1 : Shape := ⟨2, ![1, 1]⟩

abbrev nBuf : Space → Nat
  | .hbm => 151
  | .vmem => 0
  | .smem => 0
  | _ => 0

abbrev hbmTy0_0 (i : Nat) : BufTy := match i % 128 with
  | 0 => ⟨S50000x64, .f32⟩
  | 1 => ⟨S2x800000, .i32⟩
  | 2 => ⟨S50000, .i32⟩
  | 3 => ⟨S128x256, .f32⟩
  | 4 => ⟨S256, .f32⟩
  | 5 => ⟨S256x64, .f32⟩
  | 6 => ⟨S64, .f32⟩
  | 7 => ⟨S64x1, .f32⟩
  | 8 => ⟨S1, .f32⟩
  | 9 => ⟨S1x800000, .i32⟩
  | 10 => ⟨S800000, .i32⟩
  | 11 => ⟨S1x800000, .i32⟩
  | 12 => ⟨S800000, .i32⟩
  | 13 => ⟨S_, .i32⟩
  | 14 => ⟨S800000, .i32⟩
  | 15 => ⟨S800000, .i1⟩
  | 16 => ⟨S_, .i32⟩
  | 17 => ⟨S800000, .i32⟩
  | 18 => ⟨S800000, .i32⟩
  | 19 => ⟨S800000, .i32⟩
  | 20 => ⟨S800000x1, .i32⟩
  | 21 => ⟨S800000x64, .f32⟩
  | 22 => ⟨S_, .i32⟩
  | 23 => ⟨S800000, .i32⟩
  | 24 => ⟨S800000, .i1⟩
  | 25 => ⟨S_, .i32⟩
  | 26 => ⟨S800000, .i32⟩
  | 27 => ⟨S800000, .i32⟩
  | 28 => ⟨S800000, .i32⟩
  | 29 => ⟨S800000x1, .i32⟩
  | 30 => ⟨S800000x64, .f32⟩
  | 31 => ⟨S800000x128, .f32⟩
  | 32 => ⟨S_, .i32⟩
  | 33 => ⟨S800000, .i32⟩
  | 34 => ⟨S800000, .i1⟩
  | 35 => ⟨S_, .i32⟩
  | 36 => ⟨S800000, .i32⟩
  | 37 => ⟨S800000, .i32⟩
  | 38 => ⟨S800000, .i32⟩
  | 39 => ⟨S800000x1, .i32⟩
  | 40 => ⟨S800000, .i32⟩
  | 41 => ⟨S800000x256, .f32⟩
  | 42 => ⟨S1x256, .f32⟩
  | 43 => ⟨S800000x256, .f32⟩
  | 44 => ⟨S800000x256, .f32⟩
  | 45 => ⟨S_, .f32⟩
  | 46 => ⟨S800000x1, .f32⟩
  | 47 => ⟨S_, .f32⟩
  | 48 => ⟨S128x1, .f32⟩
  | 49 => ⟨S800000x1, .i32⟩
  | 50 => ⟨S128x1, .f32⟩
  | 51 => ⟨S_, .f32⟩
  | 52 => ⟨S128x1, .f32⟩
  | 53 => ⟨S128x1, .f32⟩
  | 54 => ⟨S_, .f32⟩
  | 55 => ⟨S128x256, .f32⟩
  | 56 => ⟨S800000x1, .i32⟩
  | 57 => ⟨S128x256, .f32⟩
  | 58 => ⟨S128x256, .f32⟩
  | 59 => ⟨S128x256, .f32⟩
  | 60 => ⟨S_, .i32⟩
  | 61 => ⟨S800000, .i32⟩
  | 62 => ⟨S800000, .i1⟩
  | 63 => ⟨S_, .i32⟩
  | 64 => ⟨S800000, .i32⟩
  | 65 => ⟨S800000, .i32⟩
  | 66 => ⟨S800000, .i32⟩
  | 67 => ⟨S800000x1, .i32⟩
  | 68 => ⟨S800000x256, .f32⟩
  | 69 => ⟨S800000x256, .f32⟩
  | 70 => ⟨S800000x256, .f32⟩
  | 71 => ⟨S_, .f32⟩
  | 72 => ⟨S128x256, .f32⟩
  | 73 => ⟨S800000x1, .i32⟩
  | 74 => ⟨S128x256, .f32⟩
  | 75 => ⟨S128x256, .f32⟩
  | 76 => ⟨S128x256, .f32⟩
  | 77 => ⟨S_, .i32⟩
  | 78 => ⟨S800000, .i32⟩
  | 79 => ⟨S800000, .i1⟩
  | 80 => ⟨S_, .i32⟩
  | 81 => ⟨S800000, .i32⟩
  | 82 => ⟨S800000, .i32⟩
  | 83 => ⟨S800000, .i32⟩
  | 84 => ⟨S800000x1, .i32⟩
  | 85 => ⟨S800000x256, .f32⟩
  | 86 => ⟨S_, .f32⟩
  | 87 => ⟨S800000x256, .f32⟩
  | 88 => ⟨S800000x256, .f32⟩
  | 89 => ⟨S800000x256, .f32⟩
  | 90 => ⟨S800000x256, .f32⟩
  | 91 => ⟨S_, .f32⟩
  | 92 => ⟨S800000x256, .f32⟩
  | 93 => ⟨S800000x256, .f32⟩
  | 94 => ⟨S800000x64, .f32⟩
  | 95 => ⟨S1x64, .f32⟩
  | 96 => ⟨S800000x64, .f32⟩
  | 97 => ⟨S800000x64, .f32⟩
  | 98 => ⟨S_, .f32⟩
  | 99 => ⟨S800000x1, .f32⟩
  | 100 => ⟨S_, .f32⟩
  | 101 => ⟨S128x1, .f32⟩
  | 102 => ⟨S800000x1, .i32⟩
  | 103 => ⟨S128x1, .f32⟩
  | 104 => ⟨S_, .f32⟩
  | 105 => ⟨S128x1, .f32⟩
  | 106 => ⟨S128x1, .f32⟩
  | 107 => ⟨S_, .f32⟩
  | 108 => ⟨S128x64, .f32⟩
  | 109 => ⟨S800000x1, .i32⟩
  | 110 => ⟨S128x64, .f32⟩
  | 111 => ⟨S128x64, .f32⟩
  | 112 => ⟨S128x64, .f32⟩
  | 113 => ⟨S_, .i32⟩
  | 114 => ⟨S800000, .i32⟩
  | 115 => ⟨S800000, .i1⟩
  | 116 => ⟨S_, .i32⟩
  | 117 => ⟨S800000, .i32⟩
  | 118 => ⟨S800000, .i32⟩
  | 119 => ⟨S800000, .i32⟩
  | 120 => ⟨S800000x1, .i32⟩
  | 121 => ⟨S800000x64, .f32⟩
  | 122 => ⟨S800000x64, .f32⟩
  | 123 => ⟨S800000x64, .f32⟩
  | 124 => ⟨S_, .f32⟩
  | 125 => ⟨S128x64, .f32⟩
  | 126 => ⟨S800000x1, .i32⟩
  | 127 => ⟨S128x64, .f32⟩
  | _ => ⟨S50000x64, .f32⟩

abbrev hbmTy0_1 (i : Nat) : BufTy := match i % 128 with
  | 0 => ⟨S128x64, .f32⟩
  | 1 => ⟨S128x64, .f32⟩
  | 2 => ⟨S_, .i32⟩
  | 3 => ⟨S800000, .i32⟩
  | 4 => ⟨S800000, .i1⟩
  | 5 => ⟨S_, .i32⟩
  | 6 => ⟨S800000, .i32⟩
  | 7 => ⟨S800000, .i32⟩
  | 8 => ⟨S800000, .i32⟩
  | 9 => ⟨S800000x1, .i32⟩
  | 10 => ⟨S800000x64, .f32⟩
  | 11 => ⟨S_, .f32⟩
  | 12 => ⟨S800000x64, .f32⟩
  | 13 => ⟨S800000x64, .f32⟩
  | 14 => ⟨S800000x64, .f32⟩
  | 15 => ⟨S800000x64, .f32⟩
  | 16 => ⟨S_, .f32⟩
  | 17 => ⟨S800000x64, .f32⟩
  | 18 => ⟨S800000x64, .f32⟩
  | 19 => ⟨S800000x1, .f32⟩
  | 20 => ⟨S1x1, .f32⟩
  | 21 => ⟨S800000x1, .f32⟩
  | 22 => ⟨S800000x1, .f32⟩
  | _ => ⟨S50000x64, .f32⟩

abbrev hbmTy (i : Nat) : BufTy := match i / 128 with
  | 0 => hbmTy0_0 i
  | 1 => hbmTy0_1 i
  | _ => ⟨S50000x64, .f32⟩

abbrev bufTy : (tb : Table) → Fin (tcTables nBuf tb) → BufTy
  | .hbm, ⟨i, _⟩ => hbmTy i
  | _, _ => ⟨S50000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_c : Ref sig .tc := ⟨.hbm, 13, rfl⟩
abbrev main_v4 : Ref sig .tc := ⟨.hbm, 14, rfl⟩
abbrev main_v5 : Ref sig .tc := ⟨.hbm, 15, rfl⟩
abbrev main_c_0 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_c_1 : Ref sig .tc := ⟨.hbm, 22, rfl⟩
abbrev main_v11 : Ref sig .tc := ⟨.hbm, 23, rfl⟩
abbrev main_v12 : Ref sig .tc := ⟨.hbm, 24, rfl⟩
abbrev main_c_2 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_c_3 : Ref sig .tc := ⟨.hbm, 32, rfl⟩
abbrev main_v19 : Ref sig .tc := ⟨.hbm, 33, rfl⟩
abbrev main_v20 : Ref sig .tc := ⟨.hbm, 34, rfl⟩
abbrev main_c_4 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_cst : Ref sig .tc := ⟨.hbm, 45, rfl⟩
abbrev main_v30 : Ref sig .tc := ⟨.hbm, 46, rfl⟩
abbrev main_cst_5 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_cst_6 : Ref sig .tc := ⟨.hbm, 51, rfl⟩
abbrev main_v34 : Ref sig .tc := ⟨.hbm, 52, rfl⟩
abbrev main_v35 : Ref sig .tc := ⟨.hbm, 53, rfl⟩
abbrev main_cst_7 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_c_8 : Ref sig .tc := ⟨.hbm, 60, rfl⟩
abbrev main_v41 : Ref sig .tc := ⟨.hbm, 61, rfl⟩
abbrev main_v42 : Ref sig .tc := ⟨.hbm, 62, rfl⟩
abbrev main_c_9 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_cst_10 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_c_11 : Ref sig .tc := ⟨.hbm, 77, rfl⟩
abbrev main_v55 : Ref sig .tc := ⟨.hbm, 78, rfl⟩
abbrev main_v56 : Ref sig .tc := ⟨.hbm, 79, rfl⟩
abbrev main_c_12 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_cst_13 : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩
abbrev main_v65 : Ref sig .tc := ⟨.hbm, 90, rfl⟩
abbrev main_cst_14 : Ref sig .tc := ⟨.hbm, 91, rfl⟩
abbrev main_v66 : Ref sig .tc := ⟨.hbm, 92, rfl⟩
abbrev main_v67 : Ref sig .tc := ⟨.hbm, 93, rfl⟩
abbrev main_v68 : Ref sig .tc := ⟨.hbm, 94, rfl⟩
abbrev main_v69 : Ref sig .tc := ⟨.hbm, 95, rfl⟩
abbrev main_v70 : Ref sig .tc := ⟨.hbm, 96, rfl⟩
abbrev main_v71 : Ref sig .tc := ⟨.hbm, 97, rfl⟩
abbrev main_cst_15 : Ref sig .tc := ⟨.hbm, 98, rfl⟩
abbrev main_v72 : Ref sig .tc := ⟨.hbm, 99, rfl⟩
abbrev main_cst_16 : Ref sig .tc := ⟨.hbm, 100, rfl⟩
abbrev main_v73 : Ref sig .tc := ⟨.hbm, 101, rfl⟩
abbrev main_v74 : Ref sig .tc := ⟨.hbm, 102, rfl⟩
abbrev main_v75 : Ref sig .tc := ⟨.hbm, 103, rfl⟩
abbrev main_cst_17 : Ref sig .tc := ⟨.hbm, 104, rfl⟩
abbrev main_v76 : Ref sig .tc := ⟨.hbm, 105, rfl⟩
abbrev main_v77 : Ref sig .tc := ⟨.hbm, 106, rfl⟩
abbrev main_cst_18 : Ref sig .tc := ⟨.hbm, 107, rfl⟩
abbrev main_v78 : Ref sig .tc := ⟨.hbm, 108, rfl⟩
abbrev main_v79 : Ref sig .tc := ⟨.hbm, 109, rfl⟩
abbrev main_v80 : Ref sig .tc := ⟨.hbm, 110, rfl⟩
abbrev main_v81 : Ref sig .tc := ⟨.hbm, 111, rfl⟩
abbrev main_v82 : Ref sig .tc := ⟨.hbm, 112, rfl⟩
abbrev main_c_19 : Ref sig .tc := ⟨.hbm, 113, rfl⟩
abbrev main_v83 : Ref sig .tc := ⟨.hbm, 114, rfl⟩
abbrev main_v84 : Ref sig .tc := ⟨.hbm, 115, rfl⟩
abbrev main_c_20 : Ref sig .tc := ⟨.hbm, 116, rfl⟩
abbrev main_v85 : Ref sig .tc := ⟨.hbm, 117, rfl⟩
abbrev main_v86 : Ref sig .tc := ⟨.hbm, 118, rfl⟩
abbrev main_v87 : Ref sig .tc := ⟨.hbm, 119, rfl⟩
abbrev main_v88 : Ref sig .tc := ⟨.hbm, 120, rfl⟩
abbrev main_v89 : Ref sig .tc := ⟨.hbm, 121, rfl⟩
abbrev main_v90 : Ref sig .tc := ⟨.hbm, 122, rfl⟩
abbrev main_v91 : Ref sig .tc := ⟨.hbm, 123, rfl⟩
abbrev main_cst_21 : Ref sig .tc := ⟨.hbm, 124, rfl⟩
abbrev main_v92 : Ref sig .tc := ⟨.hbm, 125, rfl⟩
abbrev main_v93 : Ref sig .tc := ⟨.hbm, 126, rfl⟩
abbrev main_v94 : Ref sig .tc := ⟨.hbm, 127, rfl⟩
abbrev main_v95 : Ref sig .tc := ⟨.hbm, 128, rfl⟩
abbrev main_v96 : Ref sig .tc := ⟨.hbm, 129, rfl⟩
abbrev main_c_22 : Ref sig .tc := ⟨.hbm, 130, rfl⟩
abbrev main_v97 : Ref sig .tc := ⟨.hbm, 131, rfl⟩
abbrev main_v98 : Ref sig .tc := ⟨.hbm, 132, rfl⟩
abbrev main_c_23 : Ref sig .tc := ⟨.hbm, 133, rfl⟩
abbrev main_v99 : Ref sig .tc := ⟨.hbm, 134, rfl⟩
abbrev main_v100 : Ref sig .tc := ⟨.hbm, 135, rfl⟩
abbrev main_v101 : Ref sig .tc := ⟨.hbm, 136, rfl⟩
abbrev main_v102 : Ref sig .tc := ⟨.hbm, 137, rfl⟩
abbrev main_v103 : Ref sig .tc := ⟨.hbm, 138, rfl⟩
abbrev main_cst_24 : Ref sig .tc := ⟨.hbm, 139, rfl⟩
abbrev main_v104 : Ref sig .tc := ⟨.hbm, 140, rfl⟩
abbrev main_v105 : Ref sig .tc := ⟨.hbm, 141, rfl⟩
abbrev main_v106 : Ref sig .tc := ⟨.hbm, 142, rfl⟩
abbrev main_v107 : Ref sig .tc := ⟨.hbm, 143, rfl⟩
abbrev main_cst_25 : Ref sig .tc := ⟨.hbm, 144, rfl⟩
abbrev main_v108 : Ref sig .tc := ⟨.hbm, 145, rfl⟩
abbrev main_v109 : Ref sig .tc := ⟨.hbm, 146, rfl⟩
abbrev main_v110 : Ref sig .tc := ⟨.hbm, 147, rfl⟩
abbrev main_v111 : Ref sig .tc := ⟨.hbm, 148, rfl⟩
abbrev main_v112 : Ref sig .tc := ⟨.hbm, 149, rfl⟩
abbrev main_v113 : Ref sig .tc := ⟨.hbm, 150, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  concatenates_S800000x64_S800000x64_S800000x128_d1 : Shape.Concatenates [S800000x64, S800000x64] S800000x128 1
  bcast_S256_S1x256_1 : S256.BroadcastsInDim S1x256 (![1] : Fin 1 → Fin S1x256.rank)
  bcast_S1x256_S800000x256_0_1 : S1x256.BroadcastsInDim S800000x256 (![0, 1] : Fin 2 → Fin S800000x256.rank)
  bcast_S_S800000x1 : S_.BroadcastsInDim S800000x1 (![] : Fin 0 → Fin S800000x1.rank)
  bcast_S_S128x1 : S_.BroadcastsInDim S128x1 (![] : Fin 0 → Fin S128x1.rank)
  bcast_S_S128x256 : S_.BroadcastsInDim S128x256 (![] : Fin 0 → Fin S128x256.rank)
  bcast_S128x1_S128x256_0_1 : S128x1.BroadcastsInDim S128x256 (![0, 1] : Fin 2 → Fin S128x256.rank)
  bcast_S_S800000x256 : S_.BroadcastsInDim S800000x256 (![] : Fin 0 → Fin S800000x256.rank)
  bcast_S64_S1x64_1 : S64.BroadcastsInDim S1x64 (![1] : Fin 1 → Fin S1x64.rank)
  bcast_S1x64_S800000x64_0_1 : S1x64.BroadcastsInDim S800000x64 (![0, 1] : Fin 2 → Fin S800000x64.rank)
  bcast_S_S128x64 : S_.BroadcastsInDim S128x64 (![] : Fin 0 → Fin S128x64.rank)
  bcast_S128x1_S128x64_0_1 : S128x1.BroadcastsInDim S128x64 (![0, 1] : Fin 2 → Fin S128x64.rank)
  bcast_S_S800000x64 : S_.BroadcastsInDim S800000x64 (![] : Fin 0 → Fin S800000x64.rank)
  bcast_S1_S1x1_1 : S1.BroadcastsInDim S1x1 (![1] : Fin 1 → Fin S1x1.rank)
  bcast_S1x1_S800000x1_0_1 : S1x1.BroadcastsInDim S800000x1 (![0, 1] : Fin 2 → Fin S800000x1.rank)
  gather_S50000x64_S800000x1_S800000x64_1_0_n_n_0_1_164_wf : GatherDims.WF S50000x64 S800000x1 S800000x64 [1] [0] [] [0] [] 1 ![1, 64]
  gather_S50000_S800000x1_S800000_n_0_n_n_0_1_1_wf : GatherDims.WF S50000 S800000x1 S800000 [] [0] [] [0] [] 1 ![1]
  dot_S800000x128_S128x256_S800000x256_1_0_0_1_n_n_wf : DotDims.WF S800000x128 S128x256 S800000x256 [1] [0] [0] [1] [] []
  scatter_S128x1_S800000x1_S800000x1_1_0_0_1_wf : ScatterDims.WF S128x1 S800000x1 S800000x1 [1] [0] [0] 1
  scatter_S128x256_S800000x1_S800000x256_1_0_0_1_wf : ScatterDims.WF S128x256 S800000x1 S800000x256 [1] [0] [0] 1
  gather_S128x256_S800000x1_S800000x256_1_0_n_n_0_1_1256_wf : GatherDims.WF S128x256 S800000x1 S800000x256 [1] [0] [] [0] [] 1 ![1, 256]
  dot_S800000x256_S256x64_S800000x64_1_0_0_1_n_n_wf : DotDims.WF S800000x256 S256x64 S800000x64 [1] [0] [0] [1] [] []
  scatter_S128x64_S800000x1_S800000x64_1_0_0_1_wf : ScatterDims.WF S128x64 S800000x1 S800000x64 [1] [0] [0] 1
  gather_S128x64_S800000x1_S800000x64_1_0_n_n_0_1_164_wf : GatherDims.WF S128x64 S800000x1 S800000x64 [1] [0] [] [0] [] 1 ![1, 64]
  dot_S800000x64_S64x1_S800000x1_1_0_0_1_n_n_wf : DotDims.WF S800000x64 S64x1 S800000x1 [1] [0] [0] [1] [] []

variable [Facts₀]

def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def gather_S50000_S800000x1_S800000_n_0_n_n_0_1_1 : GatherDims S50000 S800000x1 S800000 where
  offsetDims := []
  collapsedSliceDims := [0]
  operandBatchingDims := []
  startIndicesBatchingDims := []
  startIndexMap := [0]
  indexVectorDim := 1
  sliceSizes := ![1]
  wf := gather_S50000_S800000x1_S800000_n_0_n_n_0_1_1_wf
def dot_S800000x128_S128x256_S800000x256_1_0_0_1_n_n : DotDims S800000x128 S128x256 S800000x256 where
  lhsContracting := [1]
  rhsContracting := [0]
  lhsNonContracting := [0]
  rhsNonContracting := [1]
  lhsBatch := []
  rhsBatch := []
  wf := dot_S800000x128_S128x256_S800000x256_1_0_0_1_n_n_wf
def scatter_S128x1_S800000x1_S800000x1_1_0_0_1 : ScatterDims S128x1 S800000x1 S800000x1 where
  updateWindowDims := [1]
  insertedWindowDims := [0]
  scatterDimsToOperandDims := [0]
  indexVectorDim := 1
  wf := scatter_S128x1_S800000x1_S800000x1_1_0_0_1_wf
def scatter_S128x256_S800000x1_S800000x256_1_0_0_1 : ScatterDims S128x256 S800000x1 S800000x256 where
  updateWindowDims := [1]
  insertedWindowDims := [0]
  scatterDimsToOperandDims := [0]
  indexVectorDim := 1
  wf := scatter_S128x256_S800000x1_S800000x256_1_0_0_1_wf
def gather_S128x256_S800000x1_S800000x256_1_0_n_n_0_1_1256 : GatherDims S128x256 S800000x1 S800000x256 where
  offsetDims := [1]
  collapsedSliceDims := [0]
  operandBatchingDims := []
  startIndicesBatchingDims := []
  startIndexMap := [0]
  indexVectorDim := 1
  sliceSizes := ![1, 256]
  wf := gather_S128x256_S800000x1_S800000x256_1_0_n_n_0_1_1256_wf
def dot_S800000x256_S256x64_S800000x64_1_0_0_1_n_n : DotDims S800000x256 S256x64 S800000x64 where
  lhsContracting := [1]
  rhsContracting := [0]
  lhsNonContracting := [0]
  rhsNonContracting := [1]
  lhsBatch := []
  rhsBatch := []
  wf := dot_S800000x256_S256x64_S800000x64_1_0_0_1_n_n_wf
def scatter_S128x64_S800000x1_S800000x64_1_0_0_1 : ScatterDims S128x64 S800000x1 S800000x64 where
  updateWindowDims := [1]
  insertedWindowDims := [0]
  scatterDimsToOperandDims := [0]
  indexVectorDim := 1
  wf := scatter_S128x64_S800000x1_S800000x64_1_0_0_1_wf
def gather_S128x64_S800000x1_S800000x64_1_0_n_n_0_1_164 : GatherDims S128x64 S800000x1 S800000x64 where
  offsetDims := [1]
  collapsedSliceDims := [0]
  operandBatchingDims := []
  startIndicesBatchingDims := []
  startIndexMap := [0]
  indexVectorDim := 1
  sliceSizes := ![1, 64]
  wf := gather_S128x64_S800000x1_S800000x64_1_0_n_n_0_1_164_wf
def dot_S800000x64_S64x1_S800000x1_1_0_0_1_n_n : DotDims S800000x64 S64x1 S800000x1 where
  lhsContracting := [1]
  rhsContracting := [0]
  lhsNonContracting := [0]
  rhsNonContracting := [1]
  lhsBatch := []
  rhsBatch := []
  wf := dot_S800000x64_S64x1_S800000x1_1_0_0_1_n_n_wf

class Facts : Prop extends Facts₀ where

variable [Facts]
-- ==== Proof.LibWhole.lean ====
import Idealize.ShloMosaic.Lib.Pipeline.FrameBody
import Idealize.ShloMosaic.Lib.Pipeline.Value

noncomputable section

namespace Cert.Whole

open Idealize.ShloMosaic
open Idealize.SL Idealize.SL.RA Idealize.SL.BI
open scoped Idealize.SL.BI
open Idealize.SL.BI.BIBase Idealize.SL.BI.Laws Idealize.SL.ProofMode Idealize.SL.Sem

variable {nD : Nat} {τ : Topo} {sig : RefSig} {Val : EltTy → Type} [∀ e, Nonempty (Val e)]
variable {Ix : Type} [DecidableEq Ix] {Name : Type} [DecidableEq Name] {U : Type} [URA U] {Lvl : Type}

theorem off0 {r : Nat} {off sz : Fin r → Nat} (inb : ∀ a, off a + sz a ≤ sz a) : off = fun _ => 0 :=
  funext fun a => by have := inb a; omega

-- Reading through a whole view is a bijection, so the contents are the ones that read `X`.
theorem owns_unread (c : Thread nD τ) {sp : Space} {S : Shape} {e : EltTy} {m : Memref sig c.2.kind sp S e} (h : m.IsWhole) (q : PosShare TreeShare) (X : S.Idx → Val e) :
    (owns c m q X : sProp (MT nD τ sig Ix Val Name U Lvl)) = (m.view.loc c ↦[m.view.set]{q} h.unread X) := by
  have h₁ : (owns c m q X : sProp (MT nD τ sig Ix Val Name U Lvl)) ⊢ (m.view.loc c ↦[m.view.set]{q} h.unread X) := by
    unfold owns; iintro ⟨%f, %hf, H⟩; obtain rfl := h.eq_unread hf; iexact H
  have h₂ : (m.view.loc c ↦[m.view.set]{q} h.unread X : sProp (MT nD τ sig Ix Val Name U Lvl)) ⊢ owns c m q X := by
    unfold owns; iintro H; iexists _; isplitr; · ipureintro; exact h.read_unread X
    iexact H
  exact BI.equiv_iff.mp ⟨h₁, h₂⟩

variable {κ : Kind} {sp : Space} {r : Nat} {sz off : Fin r → Nat} {e : EltTy} {m : Memref sig κ sp ⟨r, sz⟩ e} (inb : ∀ a, off a + sz a ≤ sz a)

-- The rectangle at offset zero of the full size is every index: a load through it reads all, a store through it, last, decides all.
theorem ld_whole (X : Shape.Idx ⟨r, sz⟩ → Val e) : View.ld X (Rect.unit (s := ⟨r, sz⟩) off sz inb) = X :=
  View.ld_unit_zero (off0 inb) inb X

theorem canon_whole (w : Shape.Idx ⟨r, sz⟩ → Val e) (L : List (View.Piece Val ⟨r, sz⟩ e)) :
    View.canon ((⟨Rect.unit (s := ⟨r, sz⟩) off sz inb, w⟩ : View.Piece Val ⟨r, sz⟩ e) :: L) = w :=
  View.canon_cons_unit_zero (off0 inb) inb w L

theorem load_whole (h : m.IsWhole) (X : Shape.Idx ⟨r, sz⟩ → Val e) :
    View.readAt Val m.view (Rect.unit (s := ⟨r, sz⟩) off sz inb).toLoadRect (h.unread X) = X := by
  rw [View.readAt_eq_ld, h.read_unread]; exact ld_whole inb X

theorem readCov_whole (w : Shape.Idx ⟨r, sz⟩ → Val e) :
    m.view.readCov [(⟨Rect.unit (s := ⟨r, sz⟩) off sz inb, w⟩ : View.Piece Val ⟨r, sz⟩ e)] (Rect.unit (s := ⟨r, sz⟩) off sz inb).toLoadRect = w :=
  View.readCov_unit_zero _ (off0 inb) inb w

theorem store_whole (h : m.IsWhole) (f : m.view.ty.Contents Val) (w : Shape.Idx ⟨r, sz⟩ → Val e) (L : List (View.Piece Val ⟨r, sz⟩ e)) :
    m.view.writes Val f (⟨Rect.unit (s := ⟨r, sz⟩) off sz inb, w⟩ :: L) = h.unread w :=
  h.eq_unread ((View.read_writes_eq_canon _ _ _ fun y => ⟨_, List.mem_cons.mpr (.inl rfl), View.mem_set_unit_zero (off0 inb) inb y⟩).trans
    (canon_whole inb w L))

section Leaves

open Idealize.ShloMosaic.Pipeline (Dat Cfg)
open Idealize.ShloMosaic.TcCoe

variable {Λ₀ : Idealize.SL.Sem.Labels} {cfg : Cfg sig Λ₀} {c : Dev nD} (dat : Dat τ Val Ix Name U Lvl cfg c)

-- An output written only where `C` holds, and idle elsewhere, is left as found there.
theorem leaves_out (w : Fin cfg.W) (t : Fin cfg.N) (C : Prop) [Decidable C] (hi : cfg.idle w (cfg.grid.coords t) = !decide C)
    (hf : (cfg.win w).flush t = true → C) (d X) (hX : dat.after w t = X) :
    (owns c ((cfg.win w).stage (cfg.slots t w)) fullShare (if C then X else dat.before w t d) : sProp (MT nD τ sig Ix Val Name U Lvl)) ⊢ dat.leavesExact w t := by
  unfold Dat.leavesExact
  by_cases h : C
  · rw [if_pos h, hi, decide_eq_true h, Bool.not_true, hX]
  · rw [if_neg h, hi, decide_eq_false h, Bool.not_false, Bool.eq_false_iff.mpr (mt hf h)]
    iintro H; iexists d; iexact H

end Leaves

end Cert.Whole

end
-- ==== Proof.K0Frame.lean ====
import proofs.«413591_j8993661518313_3_alg».proof.Proof.Gen.KernelIdeal.Launch
import proofs.«413591_j8993661518313_3_alg».proof.Proof.Gen.KernelIdeal.Skeleton
import proofs.«413591_j8993661518313_3_alg».proof.Proof.Gen.KernelIdeal.Points
import proofs.«413591_j8993661518313_3_alg».proof.Proof.LibWhole
import Idealize.ShloMosaic.Lib.Pipeline.FrameBody
import Idealize.ShloMosaic.Lib.Pipeline.Value
import Idealize.ShloMosaic.Lib.Ring
import Idealize.ShloMosaic.Lib.Tactic

set_option maxRecDepth 16384

noncomputable section

namespace Cert.KernelIdeal.Hand

open Cert.KernelIdeal Cert.KernelIdeal.Gen Cert.Whole
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

abbrev cond0_0 (i : grid0.Coords) : Prop := (Scalar.cmpi .ne (Scalar.extui (Scalar.cmpi .eq (BitVec.ofNat 32 (i 1).val) 0#32)) 0#32) = 1#1
theorem hcond0_0 : ∀ t : Fin cfg0.N, cond0_0 (grid0.coords t) ↔ t.val % 196 = 0 :=
  (by decide +kernel : ∀ t : Fin grid0.N, cond0_0 (grid0.coords t) ↔ t.val % 196 = 0)

abbrev cond0_1 (i : grid0.Coords) : Prop := k0_cond2 i = 1#1
theorem hcond0_1 : ∀ t : Fin cfg0.N, cond0_1 (grid0.coords t) ↔ t.val % 196 = 195 :=
  (by decide +kernel : ∀ t : Fin grid0.N, cond0_1 (grid0.coords t) ↔ t.val % 196 = 195)

abbrev Acc0 (F : FTy → Type) [FloatOps F] : Type := Vec F S128x256 .f32 × Vec F S128x256 .f32 × Vec F S128x1 .f32

def zero0 : Acc0 F := (k0_pay7, k0_pay8, k0_pay9)

def step0 (x0 : Vec F S2048x128 .bf16) (x1 : Vec F S1x1x2048 .i32) (x2 : Vec F S128x256 .bf16) (x3 : Vec F S256 .f32) (s : Acc0 F) : Acc0 F :=
  (k0_pay1 (k0_pay15 x0 x2 x3 x1 s.1), k0_pay2 (k0_pay13 x0 x2 x3 x1) s.2.1, k0_pay3 (k0_pay14 x1) s.2.2)

def next0 (i : grid0.Coords) (x0 : Vec F S2048x128 .bf16) (x1 : Vec F S1x1x2048 .i32) (x2 : Vec F S128x256 .bf16) (x3 : Vec F S256 .f32) (s : Acc0 F) : Acc0 F :=
  step0 x0 x1 x2 x3 (if cond0_0 i then zero0 else s)

theorem run0 (c : Dev nD) (E : Set ℕ) (i : grid0.Coords) (arg2 : Memref sig .tc .vmem S2048x128 .bf16) (harg2 : arg2.IsWhole) (arg3 : Memref sig .tc .vmem S1x1x2048 .i32) (harg3 : arg3.IsWhole) (arg4 : Memref sig .tc .vmem S128x256 .bf16) (harg4 : arg4.IsWhole) (arg5 : Memref sig .tc .vmem S256 .f32) (harg5 : arg5.IsWhole) (arg6 : Memref sig .tc .vmem S1x128x256 .f32) (harg6 : arg6.IsWhole) (arg7 : Memref sig .tc .vmem S1x128x256 .f32) (harg7 : arg7.IsWhole) (arg8 : Memref sig .tc .vmem S1x128x1 .f32) (harg8 : arg8.IsWhole) (arg9 : Memref sig .tc .vmem S128x256 .f32) (harg9 : arg9.IsWhole) (arg10 : Memref sig .tc .vmem S128x256 .f32) (harg10 : arg10.IsWhole) (arg11 : Memref sig .tc .vmem S128x1 .f32) (harg11 : arg11.IsWhole)
    (hne : cond0_0 i → ¬cond0_1 i) (x0 : Vec F S2048x128 .bf16) (x1 : Vec F S1x1x2048 .i32) (x2 : Vec F S128x256 .bf16) (x3 : Vec F S256 .f32) (s : Acc0 F)
    (xi4 : Vec F S1x128x256 .f32) (xi5 : Vec F S1x128x256 .f32) (xi6 : Vec F S1x128x1 .f32) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3
        ∗ owns (c : Thread nD τ) arg6 fullShare xi4 ∗ owns (c : Thread nD τ) arg7 fullShare xi5 ∗ owns (c : Thread nD τ) arg8 fullShare xi6
        ∗ owns (c : Thread nD τ) arg9 fullShare s.1 ∗ owns (c : Thread nD τ) arg10 fullShare s.2.1 ∗ owns (c : Thread nD τ) arg11 fullShare s.2.2
        ∗ (iprop(owns (c : Thread nD τ) arg2 fullShare x0 ∗ owns (c : Thread nD τ) arg3 fullShare x1 ∗ owns (c : Thread nD τ) arg4 fullShare x2 ∗ owns (c : Thread nD τ) arg5 fullShare x3
            ∗ owns (c : Thread nD τ) arg6 fullShare (if cond0_1 i then k0_pay4 (next0 i x0 x1 x2 x3 s).1 else xi4)
            ∗ owns (c : Thread nD τ) arg7 fullShare (if cond0_1 i then k0_pay5 (next0 i x0 x1 x2 x3 s).2.1 else xi5)
            ∗ owns (c : Thread nD τ) arg8 fullShare (if cond0_1 i then k0_pay6 (next0 i x0 x1 x2 x3 s).2.2 else xi6)
            ∗ owns (c : Thread nD τ) arg9 fullShare (next0 i x0 x1 x2 x3 s).1 ∗ owns (c : Thread nD τ) arg10 fullShare (next0 i x0 x1 x2 x3 s).2.1 ∗ owns (c : Thread nD τ) arg11 fullShare (next0 i x0 x1 x2 x3 s).2.2) -∗ K ⟨⟩))
      ⊢ wp frame (wpE (defs₀ (F := F)) Variants.none c none) E (cc0_stats1_kernel i arg2 harg2 arg3 harg3 arg4 harg4 arg5 harg5 arg6 harg6 arg7 harg7 arg8 harg8 arg9 harg9 arg10 harg10 arg11 harg11) K := by
  by_cases hc0 : cond0_0 i <;> by_cases hc1 : cond0_1 i
  · exact absurd hc1 (hne hc0)
  all_goals
    simp (disch := assumption) only [next0, step0, zero0, if_pos, if_neg, owns_unread]
    simp only [cc0_stats1_kernel_eq_skeleton]; unfold cc0_stats1_kernel_skel
    simp only [k0_part1_eq_skeleton]; unfold k0_part1_skel
    iintro ⟨H2, H3, H4, H5, H6, H7, H8, H9, H10, H11, Hk⟩
    sl_exec (disch := first | exact hc0 | exact hc1)
    sl_step
    iapply Hk
    sl_unfold_words
    simp (disch := assumption) only [store_whole, load_whole, readCov_whole]
    iframe

def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

def acc0 (c : Dev nD) : (n : ℕ) → n < cfg0.N → Acc0 F
  | 0, hn => step0 (iblk0 V c 0 ⟨0, hn⟩) (iblk0 V c 1 ⟨0, hn⟩) (iblk0 V c 2 ⟨0, hn⟩) (iblk0 V c 3 ⟨0, hn⟩) zero0
  | n + 1, hn => step0 (iblk0 V c 0 ⟨n + 1, hn⟩) (iblk0 V c 1 ⟨n + 1, hn⟩) (iblk0 V c 2 ⟨n + 1, hn⟩) (iblk0 V c 3 ⟨n + 1, hn⟩)
      (if (n + 1) % 196 = 0 then zero0 else acc0 c n (Nat.lt_of_succ_lt hn))

theorem acc0_first (c : Dev nD) (t : Fin cfg0.N) (h : t.val % 196 = 0) :
    acc0 V c t.val t.isLt = step0 (iblk0 V c 0 t) (iblk0 V c 1 t) (iblk0 V c 2 t) (iblk0 V c 3 t) zero0 := by
  obtain ⟨n, hn⟩ := t
  cases n with
  | zero => rfl
  | succ n => exact congrArg _ (if_pos h)

theorem acc0_next (c : Dev nD) (t : Fin cfg0.N) (h : ¬t.val % 196 = 0) :
    acc0 V c t.val t.isLt = step0 (iblk0 V c 0 t) (iblk0 V c 1 t) (iblk0 V c 2 t) (iblk0 V c 3 t)
      (acc0 V c (t.val - 1) (Nat.lt_of_le_of_lt (Nat.sub_le _ _) t.isLt)) := by
  obtain ⟨n, hn⟩ := t
  cases n with
  | zero => exact absurd (Nat.zero_mod _) h
  | succ n => exact congrArg _ (if_neg h)

abbrev scM0_0 : Memref sig .tc .vmem S128x256 .f32 := Memref.whole cc0_scratch0
abbrev scM0_1 : Memref sig .tc .vmem S128x256 .f32 := Memref.whole cc0_scratch1
abbrev scM0_2 : Memref sig .tc .vmem S128x1 .f32 := Memref.whole cc0_scratch2

abbrev rest0 (c : Dev nD) : sProp 𝕄 :=
  Pipeline.scopedRestBut (Ix := Unit) (Name := ℕ) (U := UR sig nD τ) (Lvl := ℕ) (Val := Elt F) spec0 c [cc0_scratch0, cc0_scratch1, cc0_scratch2]

theorem PhiA0_eq (c : Dev nD) :
    (Pipeline.ΦA spec0 c : sProp 𝕄)
      = iprop(iprop(iprop((∃ d, owns (c : Thread nD τ) scM0_0 fullShare d) ∗ (∃ d, owns (c : Thread nD τ) scM0_1 fullShare d) ∗ (∃ d, owns (c : Thread nD τ) scM0_2 fullShare d))
          ∗ rest0 c) ∗ (∃ r, prngReg c r)) := by
  unfold Pipeline.ΦA; rw [scopedRest0_split]; simp only [scM0_0, scM0_1, scM0_2, owns_whole]; try rfl

abbrev inv0 (c : Dev nD) (s : Acc0 F) : sProp 𝕄 :=
  iprop(iprop(iprop(owns (c : Thread nD τ) scM0_0 fullShare s.1 ∗ owns (c : Thread nD τ) scM0_1 fullShare s.2.1 ∗ owns (c : Thread nD τ) scM0_2 fullShare s.2.2)
      ∗ rest0 c) ∗ (∃ r, prngReg c r))

def PhiS0 (c : Dev nD) : (n : ℕ) → n ≤ cfg0.N → sProp 𝕄
  | 0, _ => Pipeline.ΦA spec0 c
  | n + 1, hn => inv0 c (acc0 V c n hn)

theorem PhiS0_open (c : Dev nD) (n : ℕ) (h : n ≤ cfg0.N) :
    PhiS0 V c n h ⊢ iprop(∃ s : Acc0 F, ⌜∀ hn : n ≠ 0, s = acc0 V c (n - 1) (by omega)⌝ ∗ inv0 c s) := by
  cases n with
  | zero =>
    unfold inv0
    rw [show PhiS0 V c 0 h = Pipeline.ΦA spec0 c from rfl, PhiA0_eq]
    iintro ⟨⟨⟨⟨%d0, HS0⟩, ⟨%d1, HS1⟩, ⟨%d2, HS2⟩⟩, Hr⟩, Hg⟩
    iexists (d0, d1, d2); isplitr; · ipureintro; exact fun hn => absurd rfl hn
    iframe
  | succ n =>
    show inv0 c (acc0 V c n h) ⊢ _
    iintro H; iexists (acc0 V c n h); isplitr; · ipureintro; exact fun _ => rfl
    iexact H

theorem acc0_step (c : Dev nD) (t : Fin cfg0.N) (s : Acc0 F) (hs : ∀ hn : t.val ≠ 0, s = acc0 V c (t.val - 1) (by omega)) :
    acc0 V c t.val t.isLt = next0 (grid0.coords t) (iblk0 V c 0 t) (iblk0 V c 1 t) (iblk0 V c 2 t) (iblk0 V c 3 t) s := by
  unfold next0
  by_cases h : t.val % 196 = 0
  · rw [if_pos ((hcond0_0 t).mpr h)]; exact acc0_first V c t h
  · rw [if_neg fun hc => h ((hcond0_0 t).mp hc), hs fun e => h (by rw [e])]; exact acc0_next V c t h

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => k0_pay4 (acc0 V c t.val t.isLt).1
    | ⟨5, _⟩ => k0_pay5 (acc0 V c t.val t.isLt).2.1
    | ⟨6, _⟩ => k0_pay6 (acc0 V c t.val t.isLt).2.2
  Φ t := PhiS0 V c t.val (Nat.le_of_lt_succ t.isLt)
  q _ := fullShare
  owed _ := 0

theorem A_eq0 (c : Dev nD) (w : Fin cfg0.W) : (dat0 V c).A w = V c (Pipeline.arrRef spec0 w) := by
  dsimp only [dat0]

theorem after0_4 (c : Dev nD) (t : Fin cfg0.N) : (dat0 V c).after 4 t = k0_pay4 (acc0 V c t.val t.isLt).1 := by dsimp only [dat0]
theorem after0_5 (c : Dev nD) (t : Fin cfg0.N) : (dat0 V c).after 5 t = k0_pay5 (acc0 V c t.val t.isLt).2.1 := by dsimp only [dat0]
theorem after0_6 (c : Dev nD) (t : Fin cfg0.N) : (dat0 V c).after 6 t = k0_pay6 (acc0 V c t.val t.isLt).2.2 := by dsimp only [dat0]

-- The inputs are left as found, so each holds its block at every point.
theorem before0 (c : Dev nD) (t : Fin cfg0.N) :
    (∀ d, (dat0 V c).before 0 t d = iblk0 V c 0 t) ∧ (∀ d, (dat0 V c).before 1 t d = iblk0 V c 1 t) ∧ (∀ d, (dat0 V c).before 2 t d = iblk0 V c 2 t)
      ∧ (∀ d, (dat0 V c).before 3 t d = iblk0 V c 3 t) := by
  refine ⟨?_, ?_, ?_, ?_⟩ <;>
    exact fun d => ((dat0 V c).before_in_eq_fetched _ rfl (fun _ => rfl) (fun _ _ _ => rfl) (fun _ => rfl) t d).trans rfl

-- At any point the invariant hands the accumulators over and takes them back one step on.
theorem sound_body0 (c : Dev nD) (t : Fin cfg0.N) :
    iprop(PhiS0 V c t.val (Nat.le_of_lt t.isLt) ∗ (dat0 V c).owesAt () t.castSucc
        ∗ bigSep Finset.univ fun w : Fin cfg0.W => iprop(∃ d, owns (c : Thread nD τ) ((cfg0.win w).stage (cfg0.slots t w)) fullShare ((dat0 V c).before w t d)))
      ⊢ wp frame (wpE (defs₀ (F := F)) Variants.none c none) Set.univ (bodyAt0 t) fun _ =>
        iprop(PhiS0 V c (t.val + 1) t.isLt ∗ (dat0 V c).owesAt () t.castSucc ∗ bigSep Finset.univ fun w : Fin cfg0.W => (dat0 V c).leavesExact w t) := by
  obtain ⟨b0, b1, b2, b3⟩ := before0 V c t
  rw [bigSep_W0, bigSep_W0]
  simp only [b0, b1, b2, b3]
  rw [show (dat0 V c).leavesExact 0 t = owns (c : Thread nD τ) (st0_0 t) fullShare (iblk0 V c 0 t) from rfl, show (dat0 V c).leavesExact 1 t = owns (c : Thread nD τ) (st0_1 t) fullShare (iblk0 V c 1 t) from rfl,
    show (dat0 V c).leavesExact 2 t = owns (c : Thread nD τ) (st0_2 t) fullShare (iblk0 V c 2 t) from rfl, show (dat0 V c).leavesExact 3 t = owns (c : Thread nD τ) (st0_3 t) fullShare (iblk0 V c 3 t) from rfl,
    show PhiS0 V c (t.val + 1) t.isLt = inv0 c (acc0 V c t.val t.isLt) from rfl]
  iintro ⟨HΦ, Ho, ⟨%d0, H0⟩, ⟨%d1, H1⟩, ⟨%d2, H2⟩, ⟨%d3, H3⟩, ⟨%d4, H4⟩, ⟨%d5, H5⟩, ⟨%d6, H6⟩⟩
  ihave HΦ' := (PhiS0_open V c _ _) $$ HΦ
  icases HΦ' with ⟨%s, %hs, ⟨⟨HS0, HS1, HS2⟩, Hr⟩, Hg⟩
  have hs' := acc0_step V c t s hs
  iapply (run0 c Set.univ (grid0.coords t) _ _ _ _ _ _ _ _ _ _ _ _ _ _ _ _ _ _ _ _
    (fun a b => by have := (hcond0_0 t).mp a; have := (hcond0_1 t).mp b; omega)
    (iblk0 V c 0 t) (iblk0 V c 1 t) (iblk0 V c 2 t) (iblk0 V c 3 t) s _ _ _ _)
  iframe H0 H1 H2 H3 H4 H5 H6 HS0 HS1 HS2
  iintro ⟨H0, H1, H2, H3, H4, H5, H6, HS0, HS1, HS2⟩
  ihave H4 := (leaves_out (dat0 V c) 4 t (cond0_1 (grid0.coords t)) rfl (fun h => (hcond0_1 t).mpr ((flush0_4 t).mp h)) d4 _ ((after0_4 V c t).trans (by rw [hs']))) $$ H4
  ihave H5 := (leaves_out (dat0 V c) 5 t (cond0_1 (grid0.coords t)) rfl (fun h => (hcond0_1 t).mpr ((flush0_5 t).mp h)) d5 _ ((after0_5 V c t).trans (by rw [hs']))) $$ H5
  ihave H6 := (leaves_out (dat0 V c) 6 t (cond0_1 (grid0.coords t)) rfl (fun h => (hcond0_1 t).mpr ((flush0_6 t).mp h)) d6 _ ((after0_6 V c t).trans (by rw [hs']))) $$ H6
  rw [hs']; unfold inv0
  iframe

theorem body_obligation0 (c : Dev nD) : BodyObligation (dat0 (F := F) V c) (defs₀ (F := F)) Variants.none () Set.univ := fun t =>
  sound_body0 V c t

theorem hin0 (c : Dev nD) : Pipeline.ΦA spec0 c ⊢ (dat0 V c).Φ 0 := .rfl

theorem hout0 (c : Dev nD) : (dat0 V c).Φ (Fin.last cfg0.N) ⊢ Pipeline.ΦA spec0 c := by
  rw [show (dat0 V c).Φ (Fin.last cfg0.N) = PhiS0 V c cfg0.N (Nat.le_refl _) from rfl, PhiA0_eq]
  iintro H
  ihave H' := (PhiS0_open V c _ _) $$ H
  icases H' with ⟨%s, -, ⟨⟨HS0, HS1, HS2⟩, Hr⟩, Hg⟩
  iframe Hr Hg
  isplitl [HS0]; · iexists _; iexact HS0
  isplitl [HS1]; · iexists _; iexact HS1
  iexists _; iexact HS2

end Cert.KernelIdeal.Hand

end
-- ==== Proof.K1Frame.lean ====
import proofs.«413591_j8993661518313_3_alg».proof.Proof.Gen.KernelIdeal.Launch
import proofs.«413591_j8993661518313_3_alg».proof.Proof.Gen.KernelIdeal.Skeleton
import proofs.«413591_j8993661518313_3_alg».proof.Proof.Gen.KernelIdeal.Points
import proofs.«413591_j8993661518313_3_alg».proof.Proof.LibWhole
import Idealize.ShloMosaic.Lib.Pipeline.FrameBody
import Idealize.ShloMosaic.Lib.Pipeline.Value
import Idealize.ShloMosaic.Lib.Ring
import Idealize.ShloMosaic.Lib.Tactic

set_option maxRecDepth 16384

noncomputable section

namespace Cert.KernelIdeal.Hand

open Cert.KernelIdeal Cert.KernelIdeal.Gen Cert.Whole
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

def lin2Tile1 (x0 : Vec F S2048x128 .bf16) (x1 : Vec F S1x1x2048 .i32) (x2 : Vec F S128x512 .f32) (x3 : Vec F S128x256 .bf16)
    (x4 : Vec F S256 .f32) (x5 : Vec F S256x64 .bf16) (x6 : Vec F S64 .f32) : Vec F S2048x64 .bf16 :=
  k1_pay2 (k1_pay11 x0 x3 x4 x1 x2) (k1_pay12 x5) x6

def sumStep1 (x0 : Vec F S2048x128 .bf16) (x1 : Vec F S1x1x2048 .i32) (x2 : Vec F S128x512 .f32) (x3 : Vec F S128x256 .bf16)
    (x4 : Vec F S256 .f32) (x5 : Vec F S256x64 .bf16) (x6 : Vec F S64 .f32) (acc : Vec F S128x64 .f32) : Vec F S128x64 .f32 :=
  k1_pay3 (k1_pay10 x1) (k1_pay11 x0 x3 x4 x1 x2) (k1_pay12 x5) x6 acc

def sumsqStep1 (x0 : Vec F S2048x128 .bf16) (x1 : Vec F S1x1x2048 .i32) (x2 : Vec F S128x512 .f32) (x3 : Vec F S128x256 .bf16)
    (x4 : Vec F S256 .f32) (x5 : Vec F S256x64 .bf16) (x6 : Vec F S64 .f32) (acc : Vec F S128x64 .f32) : Vec F S128x64 .f32 :=
  k1_pay4 (k1_pay10 x1) (k1_pay11 x0 x3 x4 x1 x2) (k1_pay12 x5) x6 acc

def lin2At1 (c : Dev nD) (t : Fin cfg1.N) : Vec F S2048x64 .bf16 :=
  lin2Tile1 (iblk1 V c 0 t) (iblk1 V c 1 t) (iblk1 V c 2 t) (iblk1 V c 3 t) (iblk1 V c 4 t) (iblk1 V c 5 t) (iblk1 V c 6 t)

def accStep1 (c : Dev nD) (t : Fin cfg1.N) (p : Vec F S128x64 .f32 × Vec F S128x64 .f32) : Vec F S128x64 .f32 × Vec F S128x64 .f32 :=
  (sumStep1 (iblk1 V c 0 t) (iblk1 V c 1 t) (iblk1 V c 2 t) (iblk1 V c 3 t) (iblk1 V c 4 t) (iblk1 V c 5 t) (iblk1 V c 6 t) p.1,
   sumsqStep1 (iblk1 V c 0 t) (iblk1 V c 1 t) (iblk1 V c 2 t) (iblk1 V c 3 t) (iblk1 V c 4 t) (iblk1 V c 5 t) (iblk1 V c 6 t) p.2)

def accZero1 : Vec F S128x64 .f32 × Vec F S128x64 .f32 := (k1_pay7 (F := F), k1_pay8 (F := F))

-- The running sums after point `n`: a half's first tile starts from zero, every other adds onto the tile before.
def accAt1 (c : Dev nD) : (n : ℕ) → n < cfg1.N → Vec F S128x64 .f32 × Vec F S128x64 .f32
  | 0, hn => accStep1 V c ⟨0, hn⟩ accZero1
  | n + 1, hn => accStep1 V c ⟨n + 1, hn⟩ (if (n + 1) % 196 = 0 then accZero1 else accAt1 c n (Nat.lt_of_succ_lt hn))

theorem accAt1_first (c : Dev nD) (t : Fin cfg1.N) (h : t.val % 196 = 0) :
    accAt1 V c t.val t.isLt = accStep1 V c t accZero1 := by
  obtain ⟨_ | n, hn⟩ := t
  · rfl
  · show accStep1 V c _ (if (n + 1) % 196 = 0 then _ else _) = _; rw [if_pos h]

theorem accAt1_next (c : Dev nD) (t : Fin cfg1.N) (h : ¬t.val % 196 = 0) :
    accAt1 V c t.val t.isLt = accStep1 V c t (accAt1 V c (t.val - 1) (Nat.lt_of_le_of_lt (Nat.sub_le _ _) t.isLt)) := by
  obtain ⟨_ | n, hn⟩ := t
  · exact absurd (Nat.zero_mod _) h
  · show accStep1 V c _ (if (n + 1) % 196 = 0 then _ else _) = _; rw [if_neg h]; rfl

abbrev cond1_1 (i : grid1.Coords) : Prop := (Scalar.cmpi .ne (Scalar.extui (Scalar.cmpi .eq (BitVec.ofNat 32 (i 1).val) 0#32)) 0#32) = 1#1
abbrev cond1_2 (i : grid1.Coords) : Prop := k1_cond2 i = 1#1

-- One triple for every tile: the two conditions only choose what the sums are added onto (zero at a half's first tile) and whether the sum outputs take them (at its last).
theorem sound_kernel1 (c : Dev nD) (i : grid1.Coords) (E : Set ℕ) (arg2 : Memref sig .tc .vmem S2048x128 .bf16) (harg2 : arg2.IsWhole) (arg3 : Memref sig .tc .vmem S1x1x2048 .i32) (harg3 : arg3.IsWhole) (arg4 : Memref sig .tc .vmem S128x512 .f32) (harg4 : arg4.IsWhole) (arg5 : Memref sig .tc .vmem S128x256 .bf16) (harg5 : arg5.IsWhole) (arg6 : Memref sig .tc .vmem S256 .f32) (harg6 : arg6.IsWhole) (arg7 : Memref sig .tc .vmem S256x64 .bf16) (harg7 : arg7.IsWhole) (arg8 : Memref sig .tc .vmem S64 .f32) (harg8 : arg8.IsWhole) (arg9 : Memref sig .tc .vmem S2048x64 .bf16) (harg9 : arg9.IsWhole) (arg10 : Memref sig .tc .vmem S1x128x64 .f32) (harg10 : arg10.IsWhole) (arg11 : Memref sig .tc .vmem S1x128x64 .f32) (harg11 : arg11.IsWhole) (arg12 : Memref sig .tc .vmem S128x64 .f32) (harg12 : arg12.IsWhole) (arg13 : Memref sig .tc .vmem S128x64 .f32) (harg13 : arg13.IsWhole)
    (h12 : cond1_1 i → ¬cond1_2 i) (x0 : Vec F S2048x128 .bf16) (x1 : Vec F S1x1x2048 .i32) (x2 : Vec F S128x512 .f32) (x3 : Vec F S128x256 .bf16) (x4 : Vec F S256 .f32) (x5 : Vec F S256x64 .bf16) (x6 : Vec F S64 .f32) (y : Vec F S2048x64 .bf16) (o0 o1 : Vec F S1x128x64 .f32)
    (s a : Vec F S128x64 .f32 × Vec F S128x64 .f32) (ha : a = if cond1_1 i then accZero1 else s) (K : PUnit → sProp 𝕄) :
    iprop(owns c.tc arg2 fullShare x0 ∗ owns c.tc arg3 fullShare x1 ∗ owns c.tc arg4 fullShare x2 ∗ owns c.tc arg5 fullShare x3 ∗ owns c.tc arg6 fullShare x4 ∗ owns c.tc arg7 fullShare x5 ∗ owns c.tc arg8 fullShare x6
        ∗ owns c.tc arg9 fullShare y ∗ owns c.tc arg10 fullShare o0 ∗ owns c.tc arg11 fullShare o1 ∗ owns c.tc arg12 fullShare s.1 ∗ owns c.tc arg13 fullShare s.2
        ∗ (iprop(owns c.tc arg2 fullShare x0 ∗ owns c.tc arg3 fullShare x1 ∗ owns c.tc arg4 fullShare x2 ∗ owns c.tc arg5 fullShare x3 ∗ owns c.tc arg6 fullShare x4 ∗ owns c.tc arg7 fullShare x5 ∗ owns c.tc arg8 fullShare x6
            ∗ owns c.tc arg9 fullShare (lin2Tile1 x0 x1 x2 x3 x4 x5 x6)
            ∗ owns c.tc arg10 fullShare (if cond1_2 i then k1_pay5 (sumStep1 x0 x1 x2 x3 x4 x5 x6 a.1) else o0)
            ∗ owns c.tc arg11 fullShare (if cond1_2 i then k1_pay6 (sumsqStep1 x0 x1 x2 x3 x4 x5 x6 a.2) else o1)
            ∗ owns c.tc arg12 fullShare (sumStep1 x0 x1 x2 x3 x4 x5 x6 a.1) ∗ owns c.tc arg13 fullShare (sumsqStep1 x0 x1 x2 x3 x4 x5 x6 a.2)) -∗ K ⟨⟩))
      ⊢ wp frame (wpE (defs₀ (F := F)) Variants.none c none) E (cc1_layer1to2_kernel i arg2 harg2 arg3 harg3 arg4 harg4 arg5 harg5 arg6 harg6 arg7 harg7 arg8 harg8 arg9 harg9 arg10 harg10 arg11 harg11 arg12 harg12 arg13 harg13) K := by
  subst ha
  by_cases hc1 : cond1_1 i <;> by_cases hc2 : cond1_2 i
  · exact absurd hc2 (h12 hc1)
  all_goals
    simp (disch := assumption) only [if_pos, if_neg, accZero1, owns_unread]
    simp only [cc1_layer1to2_kernel_eq_skeleton]; unfold cc1_layer1to2_kernel_skel
    simp only [k1_part1_eq_skeleton]
    iintro ⟨H0, H1, H2, H3, H4, H5, H6, H7, H8, H9, HS0, HS1, Hk⟩
    sl_exec (disch := first | exact hc1 | exact hc2)
    sl_step
    iapply Hk
    sl_unfold_words
    simp (disch := assumption) only [store_whole, load_whole, readCov_whole, lin2Tile1, sumStep1, sumsqStep1]
    iframe

theorem hcond1_1 : ∀ t : Fin cfg1.N, cond1_1 (grid1.coords t) ↔ t.val % 196 = 0 := by decide +kernel
theorem hcond1_2 : ∀ t : Fin cfg1.N, cond1_2 (grid1.coords t) ↔ t.val % 196 = 195 := by decide +kernel

abbrev scM1_0 : Memref sig .tc .vmem S128x64 .f32 := Memref.whole cc1_scratch0
abbrev scM1_1 : Memref sig .tc .vmem S128x64 .f32 := Memref.whole cc1_scratch1

abbrev rest1 (c : Dev nD) : sProp 𝕄 :=
  Pipeline.scopedRestBut (Ix := Unit) (Name := ℕ) (U := UR sig nD τ) (Lvl := ℕ) (Val := Elt F) spec1 c [cc1_scratch0, cc1_scratch1]

theorem PhiA1_eq (c : Dev nD) :
    (Pipeline.ΦA spec1 c : sProp 𝕄)
      = iprop(iprop(iprop((∃ d, owns c.tc scM1_0 fullShare d) ∗ (∃ d, owns c.tc scM1_1 fullShare d)) ∗ rest1 (F := F) c) ∗ (∃ r, prngReg c r)) := by
  unfold Pipeline.ΦA; rw [scopedRest1_split]; simp only [scM1_0, scM1_1, rest1, owns_whole]; try rfl

-- Before point `n` the accumulators hold the running sums point `n - 1` left; before the first point, anything.
def PhiS1 (c : Dev nD) : (n : ℕ) → n ≤ cfg1.N → sProp 𝕄
  | 0, _ => Pipeline.ΦA spec1 c
  | n + 1, hn => iprop(iprop(iprop(owns c.tc scM1_0 fullShare (accAt1 V c n hn).1 ∗ owns c.tc scM1_1 fullShare (accAt1 V c n hn).2) ∗ rest1 (F := F) c) ∗ (∃ r, prngReg c r))

-- So before point `t` they hold a pair from which this tile's step gives the running sums at `t`.
theorem PhiS1_step (c : Dev nD) (t : Fin cfg1.N) :
    PhiS1 V c t.val (Nat.le_of_lt t.isLt) ⊢ iprop(∃ s, ⌜accAt1 V c t.val t.isLt = accStep1 V c t (if cond1_1 (grid1.coords t) then accZero1 else s)⌝
      ∗ iprop(iprop(owns c.tc scM1_0 fullShare s.1 ∗ owns c.tc scM1_1 fullShare s.2) ∗ rest1 (F := F) c) ∗ (∃ r, prngReg c r)) := by
  obtain ⟨n, hn⟩ := t
  cases n with
  | zero =>
    rw [show PhiS1 V c (0 : ℕ) _ = Pipeline.ΦA spec1 c from rfl, PhiA1_eq]
    iintro ⟨⟨⟨⟨%d0, HS0⟩, ⟨%d1, HS1⟩⟩, Hrest⟩, Hg⟩
    iexists (d0, d1); isplitr
    · ipureintro; rw [if_pos ((hcond1_1 ⟨0, hn⟩).mpr rfl)]; rfl
    iframe
  | succ n =>
    iintro H; iexists accAt1 V c n (Nat.lt_of_succ_lt hn); isplitr
    · ipureintro; rw [if_congr (hcond1_1 ⟨n + 1, hn⟩) rfl rfl]; rfl
    simp only [PhiS1]; iexact H

theorem PhiS1_forget (c : Dev nD) : ∀ n h, PhiS1 V c n h ⊢ Pipeline.ΦA spec1 c
  | 0, _ => Entails.refl _
  | n + 1, h => by
    rw [PhiA1_eq]; simp only [PhiS1]
    iintro ⟨⟨⟨HS0, HS1⟩, Hrest⟩, Hg⟩
    iframe Hrest Hg
    isplitl [HS0] <;> iexists _ <;> iassumption

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => iblk1 V c 6 t
    | ⟨7, _⟩ => lin2At1 V c t
    | ⟨8, _⟩ => k1_pay5 (accAt1 V c t.val t.isLt).1
    | ⟨9, _⟩ => k1_pay6 (accAt1 V c t.val t.isLt).2
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem after1_7 (c : Dev nD) (t : Fin cfg1.N) : (dat1 V c).after 7 t = lin2At1 V c t := by dsimp only [dat1]
theorem after1_8 (c : Dev nD) (t : Fin cfg1.N) : (dat1 V c).after 8 t = k1_pay5 (accAt1 V c t.val t.isLt).1 := by dsimp only [dat1]
theorem after1_9 (c : Dev nD) (t : Fin cfg1.N) : (dat1 V c).after 9 t = k1_pay6 (accAt1 V c t.val t.isLt).2 := by dsimp only [dat1]

-- The inputs are left as found, so each holds its block at every point.
theorem before1 (c : Dev nD) (t : Fin cfg1.N) :
    (∀ d, (dat1 V c).before 0 t d = iblk1 V c 0 t) ∧ (∀ d, (dat1 V c).before 1 t d = iblk1 V c 1 t) ∧ (∀ d, (dat1 V c).before 2 t d = iblk1 V c 2 t)
      ∧ (∀ d, (dat1 V c).before 3 t d = iblk1 V c 3 t) ∧ (∀ d, (dat1 V c).before 4 t d = iblk1 V c 4 t) ∧ (∀ d, (dat1 V c).before 5 t d = iblk1 V c 5 t)
      ∧ (∀ d, (dat1 V c).before 6 t d = iblk1 V c 6 t) := by
  refine ⟨?_, ?_, ?_, ?_, ?_, ?_, ?_⟩ <;>
    exact fun d => ((dat1 V c).before_in_eq_fetched _ rfl (fun _ => rfl) (fun _ _ _ => rfl) (fun _ => rfl) t d).trans rfl

theorem sound_body1 (c : Dev nD) (t : Fin cfg1.N) :
    iprop(PhiS1 V c t.val (Nat.le_of_lt t.isLt) ∗ (dat1 V c).owesAt () t.castSucc
        ∗ bigSep Finset.univ fun w : Fin cfg1.W => iprop(∃ d, owns c.tc ((cfg1.win w).stage (cfg1.slots t w)) fullShare ((dat1 V c).before w t d)))
      ⊢ wp frame (wpE (defs₀ (F := F)) Variants.none c none) Set.univ (bodyAt1 t) fun _ =>
        iprop(PhiS1 V c (t.val + 1) t.isLt ∗ (dat1 V c).owesAt () t.castSucc ∗ bigSep Finset.univ fun w : Fin cfg1.W => (dat1 V c).leavesExact w t) := by
  obtain ⟨b0, b1, b2, b3, b4, b5, b6⟩ := before1 V c t
  rw [bigSep_W1, bigSep_W1]
  simp only [b0, b1, b2, b3, b4, b5, b6]
  rw [show (dat1 V c).leavesExact 0 t = owns c.tc (st1_0 t) fullShare (iblk1 V c 0 t) from rfl, show (dat1 V c).leavesExact 1 t = owns c.tc (st1_1 t) fullShare (iblk1 V c 1 t) from rfl,
    show (dat1 V c).leavesExact 2 t = owns c.tc (st1_2 t) fullShare (iblk1 V c 2 t) from rfl, show (dat1 V c).leavesExact 3 t = owns c.tc (st1_3 t) fullShare (iblk1 V c 3 t) from rfl,
    show (dat1 V c).leavesExact 4 t = owns c.tc (st1_4 t) fullShare (iblk1 V c 4 t) from rfl, show (dat1 V c).leavesExact 5 t = owns c.tc (st1_5 t) fullShare (iblk1 V c 5 t) from rfl,
    show (dat1 V c).leavesExact 6 t = owns c.tc (st1_6 t) fullShare (iblk1 V c 6 t) from rfl, show (dat1 V c).leavesExact 7 t = owns c.tc (st1_7 t) fullShare (lin2At1 V c t) from rfl]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  ihave HΦ' := (PhiS1_step V c t) $$ HΦ
  icases HΦ' with ⟨%s, %hs, ⟨⟨HS0, HS1⟩, Hrest⟩, Hg⟩
  iapply (sound_kernel1 c (grid1.coords t) Set.univ _ _ _ _ _ _ _ _ _ _ _ _ _ _ _ _ _ _ _ _ _ _ _ _
    (fun h1 h2 => by have := (hcond1_1 t).mp h1; have := (hcond1_2 t).mp h2; omega)
    (iblk1 V c 0 t) (iblk1 V c 1 t) (iblk1 V c 2 t) (iblk1 V c 3 t) (iblk1 V c 4 t) (iblk1 V c 5 t) (iblk1 V c 6 t) _ _ _ s _ rfl _)
  iframe H0 H1 H2 H3 H4 H5 H6 H7 H8 H9 HS0 HS1
  iintro ⟨H0, H1, H2, H3, H4, H5, H6, H7, H8, H9, HS0, HS1⟩
  ihave H8 := (leaves_out (dat1 V c) 8 t (cond1_2 (grid1.coords t)) rfl (fun h => (hcond1_2 t).mpr ((flush1_8 t).mp h)) d8 _ ((after1_8 V c t).trans (by rw [hs]; rfl))) $$ H8
  ihave H9 := (leaves_out (dat1 V c) 9 t (cond1_2 (grid1.coords t)) rfl (fun h => (hcond1_2 t).mpr ((flush1_9 t).mp h)) d9 _ ((after1_9 V c t).trans (by rw [hs]; rfl))) $$ H9
  simp only [PhiS1]
  rw [hs]
  unfold lin2At1 accStep1
  iframe

theorem body_obligation1 (c : Dev nD) : BodyObligation (dat1 (F := F) V c) (defs₀ (F := F)) Variants.none () Set.univ := fun t =>
  sound_body1 V c t

theorem hin1 (c : Dev nD) : Pipeline.ΦA spec1 c ⊢ (dat1 V c).Φ 0 := Entails.refl _

theorem hout1 (c : Dev nD) : (dat1 V c).Φ (Fin.last cfg1.N) ⊢ Pipeline.ΦA spec1 c := PhiS1_forget V c cfg1.N (Nat.le_refl _)

end Cert.KernelIdeal.Hand

end
-- ==== Proof.K2Frame.lean ====
import proofs.«413591_j8993661518313_3_alg».proof.Proof.Gen.KernelIdeal.Launch
import proofs.«413591_j8993661518313_3_alg».proof.Proof.Gen.KernelIdeal.Skeleton
import proofs.«413591_j8993661518313_3_alg».proof.Proof.Gen.KernelIdeal.Points
import proofs.«413591_j8993661518313_3_alg».proof.Proof.LibWhole
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen Cert.Whole

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

abbrev rLin : Rect S2048x64 := Rect.unit (s := S2048x64) ![0, 0] S2048x64.size inb_S2048x64_S2048x64_0_0

abbrev rRow : Rect S1x1x2048 := Rect.unit (s := S1x1x2048) ![0, 0, 0] S1x1x2048.size inb_S1x1x2048_S1x1x2048_0_0_0

abbrev rTab : Rect S128x128 := Rect.unit (s := S128x128) ![0, 0] S128x128.size inb_S128x128_S128x128_0_0

abbrev rW3 : Rect S64x1 := Rect.unit (s := S64x1) ![0, 0] S64x1.size inb_S64x1_S64x1_0_0

abbrev rB3 : Rect S1 := Rect.unit (s := S1) ![0] S1.size inb_S1_S1_0

def out2_5 (x0 : Vec F S2048x64 .bf16) (x1 : Vec F S1x1x2048 .i32) (x2 : Vec F S128x128 .f32) (x3 : Vec F S64x1 .bf16) (x4 : Vec F S1 .f32) : Vec F S1x1x2048 .f32 :=
  View.canon [⟨rRow, k2_pay1 (View.ld x0 rLin) (View.ld x1 rRow) (View.ld x2 rTab) (View.ld x3 rW3) (View.ld x4 rB3)⟩]

theorem sound_kernel2 (c : Dev nD) (E : Set ℕ) (i : grid2.Coords)
    (arg1 : Memref sig .tc .vmem S2048x64 .bf16) (harg1 : arg1.IsWhole) (arg2 : Memref sig .tc .vmem S1x1x2048 .i32) (harg2 : arg2.IsWhole)
    (arg3 : Memref sig .tc .vmem S128x128 .f32) (harg3 : arg3.IsWhole) (arg4 : Memref sig .tc .vmem S64x1 .bf16) (harg4 : arg4.IsWhole)
    (arg5 : Memref sig .tc .vmem S1 .f32) (harg5 : arg5.IsWhole) (arg6 : Memref sig .tc .vmem S1x1x2048 .f32) (harg6 : arg6.IsWhole)
    (x0 : Vec F S2048x64 .bf16) (x1 : Vec F S1x1x2048 .i32) (x2 : Vec F S128x128 .f32) (x3 : Vec F S64x1 .bf16) (x4 : Vec F S1 .f32) (y : Vec F S1x1x2048 .f32)
    (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare y
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (out2_5 x0 x1 x2 x3 x4)) -∗ K ⟨⟩))
      ⊢ wp frame (wpE (defs₀ (F := F)) Variants.none c none) E
          (cc2_finalize_kernel i arg1 harg1 arg2 harg2 arg3 harg3 arg4 harg4 arg5 harg5 arg6 harg6) K := by
  simp (disch := assumption) only [owns_unread, out2_5, canon_whole, ld_whole]
  simp only [cc2_finalize_kernel_eq_skeleton]; unfold cc2_finalize_kernel_skel
  iintro ⟨H0, H1, H2, H3, H4, H5, Hk⟩
  sl_exec
  sl_step
  iapply Hk
  simp (disch := assumption) only [store_whole, load_whole]
  iframe

def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => out2_5 (iblk2 V c 0 t) (iblk2 V c 1 t) (iblk2 V c 2 t) (iblk2 V c 3 t) (iblk2 V c 4 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_5 (c : Dev nD) (t : Fin cfg2.N) :
    (dat2 V c).after 5 t = out2_5 (iblk2 V c 0 t) (iblk2 V c 1 t) (iblk2 V c 2 t) (iblk2 V c 3 t) (iblk2 V c 4 t) := by dsimp only [dat2]

-- The inputs are left as found, so each holds its block at every point.
theorem before2 (c : Dev nD) (t : Fin cfg2.N) :
    (∀ d, (dat2 V c).before 0 t d = iblk2 V c 0 t) ∧ (∀ d, (dat2 V c).before 1 t d = iblk2 V c 1 t) ∧ (∀ d, (dat2 V c).before 2 t d = iblk2 V c 2 t)
      ∧ (∀ d, (dat2 V c).before 3 t d = iblk2 V c 3 t) ∧ (∀ d, (dat2 V c).before 4 t d = iblk2 V c 4 t) := by
  refine ⟨?_, ?_, ?_, ?_, ?_⟩ <;>
    exact fun d => ((dat2 V c).before_in_eq_fetched _ rfl (fun _ => rfl) (fun _ _ _ => rfl) (fun _ => rfl) t d).trans rfl

theorem sound_body2 (c : Dev nD) (t : Fin cfg2.N) :
    iprop(Pipeline.ΦA spec2 c ∗ (dat2 V c).owesAt () t.castSucc
        ∗ bigSep Finset.univ fun w : Fin cfg2.W => iprop(∃ d, owns (c : Thread nD τ) ((cfg2.win w).stage (cfg2.slots t w)) fullShare ((dat2 V c).before w t d)))
      ⊢ wp frame (wpE (defs₀ (F := F)) Variants.none c none) Set.univ (bodyAt2 t) fun _ =>
        iprop(Pipeline.ΦA spec2 c ∗ (dat2 V c).owesAt () t.castSucc
          ∗ bigSep Finset.univ fun w : Fin cfg2.W => owns (c : Thread nD τ) ((cfg2.win w).stage (cfg2.slots t w)) fullShare ((dat2 V c).after w t)) := by
  obtain ⟨b0, b1, b2, b3, b4⟩ := before2 V c t
  rw [bigSep_W2, bigSep_W2]
  simp only [b0, b1, b2, b3, b4]
  rw [show (dat2 V c).after 0 t = iblk2 V c 0 t from rfl, show (dat2 V c).after 1 t = iblk2 V c 1 t from rfl, show (dat2 V c).after 2 t = iblk2 V c 2 t from rfl,
    show (dat2 V c).after 3 t = iblk2 V c 3 t from rfl, show (dat2 V c).after 4 t = iblk2 V c 4 t from rfl, after2_5]
  iintro ⟨HΦ, Ho, ⟨%d0, H0⟩, ⟨%d1, H1⟩, ⟨%d2, H2⟩, ⟨%d3, H3⟩, ⟨%d4, H4⟩, ⟨%d5, H5⟩⟩
  iapply (sound_kernel2 c Set.univ (grid2.coords t) _ _ _ _ _ _ _ _ _ _ _ _
    (iblk2 V c 0 t) (iblk2 V c 1 t) (iblk2 V c 2 t) (iblk2 V c 3 t) (iblk2 V c 4 t) _ _)
  iframe H0 H1 H2 H3 H4 H5
  iintro ⟨H0, H1, H2, H3, H4, H5⟩
  iframe

theorem body_obligation2 (c : Dev nD) : BodyObligation (dat2 (F := F) V c) (defs₀ (F := F)) Variants.none () Set.univ := fun t =>
  sound_body2 V c t

theorem hin2 (c : Dev nD) : Pipeline.ΦA spec2 c ⊢ (dat2 V c).Φ 0 := .rfl

theorem hout2 (c : Dev nD) : (dat2 V c).Φ (Fin.last cfg2.N) ⊢ Pipeline.ΦA spec2 c := .rfl

end Cert.KernelIdeal.Hand

end
-- ==== Proof.Launch.lean ====
import proofs.«413591_j8993661518313_3_alg».proof.Proof.K0Frame
import proofs.«413591_j8993661518313_3_alg».proof.Proof.K1Frame
import proofs.«413591_j8993661518313_3_alg».proof.Proof.K2Frame
import proofs.«413591_j8993661518313_3_alg».proof.Proof.Gen.KernelIdeal.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ)

abbrev W0 : Dev nD → Valuation τ sig (Elt F) := fun c b => m (c, b)
abbrev W1 : Dev nD → Valuation τ sig (Elt F) := fun c => StableHlo.after hostOps0 (W0 m c)
abbrev W2 : Dev nD → Valuation τ sig (Elt F) := fun c => StableHlo.after hostOps0_1 (W1 m c)
abbrev W3 : Dev nD → Valuation τ sig (Elt F) := fun c => StableHlo.after hostOps0_2 (W2 m c)
abbrev W4 : Dev nD → Valuation τ sig (Elt F) := fun c => StableHlo.after hostOps0_3 (W3 m c)
abbrev W5 : Dev nD → Valuation τ sig (Elt F) := fun c => StableHlo.after hostOps0_4 (W4 m c)
abbrev V5 : (c : Dev nD) → (b : Ref sig .tc) → Buf (Elt F) ((c : Thread nD τ).loc b) := fun c b => W5 m c b
def W6 (c : Dev nD) : Valuation τ sig (Elt F) :=
  Pipeline.withArrays spec0 c (W5 m c) fun w => (dat0 (V5 m) c).arrAt w cfg0.N
theorem W6_arr (c : Dev nD) (w : Fin cfg0.W) :
    W6 m c (Proc.devRef .tc (Pipeline.arrRef spec0 w)) = (dat0 (V5 m) c).arrAt w cfg0.N :=
  Pipeline.withArrays_arr spec0 launch0.win.arr_inj c _ _ w
theorem W6_of_ne (c : Dev nD) (b : Ref sig .tc) (hb : ∀ w, Pipeline.arrRef spec0 w ≠ b) :
    W6 m c (Proc.devRef .tc b) = W5 m c (Proc.devRef .tc b) :=
  Pipeline.withArrays_of_ne spec0 c _ _ b hb
abbrev W7 : Dev nD → Valuation τ sig (Elt F) := fun c => StableHlo.after hostOps1 (W6 m c)
abbrev V7 : (c : Dev nD) → (b : Ref sig .tc) → Buf (Elt F) ((c : Thread nD τ).loc b) := fun c b => W7 m c b
def W8 (c : Dev nD) : Valuation τ sig (Elt F) :=
  Pipeline.withArrays spec1 c (W7 m c) fun w => (dat1 (V7 m) c).arrAt w cfg1.N
theorem W8_arr (c : Dev nD) (w : Fin cfg1.W) :
    W8 m c (Proc.devRef .tc (Pipeline.arrRef spec1 w)) = (dat1 (V7 m) c).arrAt w cfg1.N :=
  Pipeline.withArrays_arr spec1 launch1.win.arr_inj c _ _ w
theorem W8_of_ne (c : Dev nD) (b : Ref sig .tc) (hb : ∀ w, Pipeline.arrRef spec1 w ≠ b) :
    W8 m c (Proc.devRef .tc b) = W7 m c (Proc.devRef .tc b) :=
  Pipeline.withArrays_of_ne spec1 c _ _ b hb
abbrev W9 : Dev nD → Valuation τ sig (Elt F) := fun c => StableHlo.after hostOps2 (W8 m c)
abbrev V9 : (c : Dev nD) → (b : Ref sig .tc) → Buf (Elt F) ((c : Thread nD τ).loc b) := fun c b => W9 m c b
def W10 (c : Dev nD) : Valuation τ sig (Elt F) :=
  Pipeline.withArrays spec2 c (W9 m c) fun w => (dat2 (V9 m) c).arrAt w cfg2.N
theorem W10_arr (c : Dev nD) (w : Fin cfg2.W) :
    W10 m c (Proc.devRef .tc (Pipeline.arrRef spec2 w)) = (dat2 (V9 m) c).arrAt w cfg2.N :=
  Pipeline.withArrays_arr spec2 launch2.win.arr_inj c _ _ w
abbrev W11 : Dev nD → Valuation τ sig (Elt F) := fun c => StableHlo.after hostOps3 (W10 m c)

/-- A region leaves as entered every buffer that is none of its output arrays: an input array ends as it began. -/
theorem withArrays_keep {cfg : Pipeline.Cfg sig Λ₀} (hinj : Function.Injective (Pipeline.arrRef cfg.spec)) (c : Dev nD)
    (W : Valuation τ sig (Elt F)) (d : Dat τ (Elt F) Unit ℕ (UR sig nD τ) ℕ cfg c)
    (hA : ∀ w, d.A w = W (Proc.devRef .tc (Pipeline.arrRef cfg.spec w))) (b : Ref sig .tc)
    (h : ∀ w, Pipeline.arrRef cfg.spec w = b → (cfg.win w).isOut = false) :
    Pipeline.withArrays cfg.spec c W (fun w => d.arrAt w cfg.N) (Proc.devRef .tc b) = W (Proc.devRef .tc b) := by
  by_cases hb : ∃ w, Pipeline.arrRef cfg.spec w = b
  · obtain ⟨w, rfl⟩ := hb
    exact (Pipeline.withArrays_arr _ hinj c _ _ w).trans ((d.arrAt_in w (h w rfl) _).trans (hA w))
  · exact Pipeline.withArrays_of_ne _ c _ _ b fun w e => hb ⟨w, e⟩

abbrev mainArgs : List (Ref sig .tc) :=
  [main_arg0, main_arg1, main_arg2, main_arg3, main_arg4, main_arg5, main_arg6, main_arg7, main_arg8]

/-- Nothing in the program writes an argument. -/
theorem mainArgs_kept : ∀ b ∈ mainArgs, ¬ (Proc.devRef .tc b : DevRef τ sig).isScoped ∧ b ∉ hostOps0_W ∧ b ∉ hostOps0_1_W
    ∧ b ∉ hostOps0_2_W ∧ b ∉ hostOps0_3_W ∧ b ∉ hostOps0_4_W ∧ b ∉ hostOps1_W ∧ b ∉ hostOps2_W ∧ b ∉ hostOps3_W
    ∧ (∀ w, Pipeline.arrRef spec0 w = b → (cfg0.win w).isOut = false)
    ∧ (∀ w, Pipeline.arrRef spec1 w = b → (cfg1.win w).isOut = false)
    ∧ ∀ w, Pipeline.arrRef spec2 w = b → (cfg2.win w).isOut = false := by decide

/-- An argument ends at its launch contents: each stretch and each region in turn leaves it as it was. -/
theorem W11_arg (c : Dev nD) (b : Ref sig .tc) (hb : b ∈ mainArgs) : W11 m c (Proc.devRef .tc b) = m ((c : Thread nD τ).loc b) := by
  obtain ⟨-, a0, a1, a2, a3, a4, a5, a6, a7, h0, h1, h2⟩ := mainArgs_kept b hb
  exact (StableHlo.after_of_writes_sub hostOps3 _ hostOps3_writes a7).trans <|
    (withArrays_keep launch2.win.arr_inj c _ _ (A_eq2 (V9 m) c) b h2).trans <|
    (StableHlo.after_of_writes_sub hostOps2 _ hostOps2_writes a6).trans <|
    (withArrays_keep launch1.win.arr_inj c _ _ (A_eq1 (V7 m) c) b h1).trans <|
    (StableHlo.after_of_writes_sub hostOps1 _ hostOps1_writes a5).trans <|
    (withArrays_keep launch0.win.arr_inj c _ _ (A_eq0 (V5 m) c) b h0).trans <|
    (StableHlo.after_of_writes_sub hostOps0_4 _ hostOps0_4_writes a4).trans <|
    (StableHlo.after_of_writes_sub hostOps0_3 _ hostOps0_3_writes a3).trans <|
    (StableHlo.after_of_writes_sub hostOps0_2 _ hostOps0_2_writes a2).trans <|
    (StableHlo.after_of_writes_sub hostOps0_1 _ hostOps0_1_writes a1).trans <|
    StableHlo.after_of_writes_sub hostOps0 _ hostOps0_writes a0

abbrev adm : (p : Fin 3) → (pcfgs (F := F) p).Adm := fun p => (cfgs p).toPCfg_adm
abbrev 𝒱₀ : Variants := Variants.none
abbrev L : GSem nD τ sig → Finset Unit := fun _ => ∅
abbrev lv : GSem nD τ sig → Unit → ℕ := fun _ _ => 0
abbrev R (c : Dev nD) : sProp 𝕄 := iprop((∃ r, prngReg c r) ∗ ∃ W, owes (c : Thread nD τ) (0 : CellTallies nD τ sig Unit) W)

def pdats : (p : Fin 3) → (c : Dev nD) → Dat τ (Elt F) Unit ℕ (UR sig nD τ) ℕ (Pipeline.pin (pcfgs (F := F)) adm p) c
  | ⟨0, _⟩ => dat0 (V5 m)
  | ⟨1, _⟩ => dat1 (V7 m)
  | ⟨2, _⟩ => dat2 (V9 m)

set_option backward.isDefEq.respectTransparency.types false in
/-- A region as a segment: from the contents `Wi` to `Wi` with the region's arrays at their final contents. -/
def regionSeg (pd : (p : Fin 3) → (c : Dev nD) → Dat τ (Elt F) Unit ℕ (UR sig nD τ) ℕ (Pipeline.pin (pcfgs (F := F)) adm p) c)
    (p : Fin 3) (lf : Pipeline.LaunchFacts (nD := nD) (τ := τ) cfgs p) (Wi : Dev nD → Valuation τ sig (Elt F))
    (hq : ∀ c w, (pd p c).q w = fullShare) (hz : ∀ c t, (pd p c).owed t = 0) (hR : ∀ c t, (pd p c).recorded t = Set.univ)
    (hA : ∀ c w, (pd p c).A w = Wi c (Proc.devRef .tc (Pipeline.arrRef (cfgs p).spec w)))
    (hb : ∀ c, BodyObligation (pd p c) defs₀ Variants.none () Set.univ)
    (hi : ∀ c, Pipeline.ΦA (cfgs p).spec c ⊢ (pd p c).Φ 0)
    (ho : ∀ c, (pd p c).Φ (Fin.last (cfgs p).N) ⊢ Pipeline.ΦA (cfgs p).spec c) :
    Pipeline.RegionSeg (pcfgs (F := F)) adm pd () defs₀ 𝒱₀ L lv p where
  win := lf.win.to₀
  block_pos := lf.block_pos
  stage_whole := lf.stage_whole
  K := PEmpty
  osem k := k.elim
  ho := Pipeline.OwnSemFacts.none _
  hbody c := (hb c).loose
  hwaits := Pipeline.hwaits_of_owed_zero _ _ _ _ L lv p hz
  pre c := iprop(StableHlo.held (c : Thread nD τ) (Pipeline.ucRefs τ sig) (Wi c) ∗ R c)
  post c := iprop(StableHlo.held (c : Thread nD τ) (Pipeline.ucRefs τ sig)
    (Pipeline.withArrays (cfgs p).spec c (Wi c) fun w => (pd p c).arrAt w (cfgs p).N) ∗ R c)
  X c := iprop(∃ r, prngReg c r)
  Y c := iprop(∃ r, prngReg c r)
  Z c := Pipeline.unscopedRest (Ix := Unit) (Name := ℕ) (U := UR sig nD τ) (Lvl := ℕ) (cfgs p).spec c fun b => Wi c b
  hentry c := by
    rw [Pipeline.ownSems0_none]
    have hsplit := Pipeline.arrays_of_unscopedBufs (p := p) (pcfgs (F := F)) adm pd lf.win lf.arr_whole c
      ((pd p c).share_full (hq c)) (fun b => Wi c b) (hA c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      rw [hz c 0]
      icases HO with ⟨%W, HO⟩; iexists W; isplitr; · ipureintro; exact fun _ _ => Or.inl (hR c 0 ▸ trivial)
      iexact HO
    isplitl [Hp]; · iexact Hp
    iexact Hrest
  hin c := by
    refine .trans ?_ (hi c)
    unfold Pipeline.ΦA
    iintro ⟨Hp, -, Hr⟩
    isplitl [Hr]; · iexact Hr
    iexact Hp
  hout c := by
    rw [Pipeline.ownSems0_none]
    refine (ho c).trans ?_
    unfold Pipeline.ΦA
    iintro ⟨Hr, Hp⟩
    isplitl [Hp]; · iexact Hp
    isplitr; · iempintro
    iexact Hr
  hexit c := by
    have hjoin := Pipeline.unscopedBufs_of_arrays (p := p) (pcfgs (F := F)) adm (Ix := Unit) (Name := ℕ) (U := UR sig nD τ) (Lvl := ℕ)
      lf.win lf.arr_whole c pd ((pd p c).share_full (hq c)) (fun b => Wi c b)
      (fun b => Pipeline.withArrays (cfgs p).spec c (Wi c) (fun w => (pd p c).arrAt w (cfgs p).N) b) ((pd p c).arrAt · (cfgs p).N)
      (fun w => (Pipeline.withArrays_arr _ lf.win.arr_inj c (Wi c) (fun w => (pd p c).arrAt w (cfgs p).N) w).symm)
      fun b hb => Pipeline.withArrays_of_ne _ c _ _ b fun w e => hb (Finset.mem_image.mpr ⟨w, Finset.mem_univ _, e⟩)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    rw [hz c (Fin.last _)]
    icases HO with ⟨%W, -, HO⟩; iexists W; iexact HO

abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W11 m c) ∗ ∃ r, prngReg c r)

set_option backward.isDefEq.respectTransparency.types false in
abbrev segs : List (Pipeline.Seg (pcfgs (F := F)) adm (pdats m) () defs₀ 𝒱₀ L lv) :=
  [ .host (hseg hostOps0 hostOps0_sub hostOps0_fresh (W0 m)),
    .host (hseg hostOps0_1 hostOps0_1_sub hostOps0_1_fresh (W1 m)),
    .host (hseg hostOps0_2 hostOps0_2_sub hostOps0_2_fresh (W2 m)),
    .host (hseg hostOps0_3 hostOps0_3_sub hostOps0_3_fresh (W3 m)),
    .host (hseg hostOps0_4 hostOps0_4_sub hostOps0_4_fresh (W4 m)),
    .region (regionSeg (pdats m) 0 launch0 (W5 m) (fun _ _ => rfl) (fun _ _ => rfl) (fun _ _ => rfl) (A_eq0 (V5 m))
      (body_obligation0 (V5 m)) (hin0 (V5 m)) (hout0 (V5 m))),
    .host (hseg hostOps1 hostOps1_sub hostOps1_fresh (W6 m)),
    .region (regionSeg (pdats m) 1 launch1 (W7 m) (fun _ _ => rfl) (fun _ _ => rfl) (fun _ _ => rfl) (A_eq1 (V7 m))
      (body_obligation1 (V7 m)) (hin1 (V7 m)) (hout1 (V7 m))),
    .host (hseg hostOps2 hostOps2_sub hostOps2_fresh (W8 m)),
    .region (regionSeg (pdats m) 2 launch2 (W9 m) (fun _ _ => rfl) (fun _ _ => rfl) (fun _ _ => rfl) (A_eq2 (V9 m))
      (body_obligation2 (V9 m)) (hin2 (V9 m)) (hout2 (V9 m))),
    .host (hseg hostOps3 hostOps3_sub hostOps3_fresh (W10 m)) ]

set_option backward.isDefEq.respectTransparency.types false in
theorem run_all (ρ : Dev nD → PrngReg) :
    θ_run defs (onTc (τ := τ) (main (F := F))) ⟨m, fun _ => 0, ρ⟩
      (fun r => ∀ c : Dev nD, ∀ b ∈ Pipeline.ucRefs τ sig, r.2.mem (((c : Thread nD τ)).1, b) = W11 m c b) :=
  Pipeline.θ_run_regions_kit (pcfgs (F := F)) adm (pdats m) () cellOf_inj emb₁ defs₀ 𝒱₀ L lv m ρ main (segs m)
    (fun c Q => by
      rewrite [main_chain c, Pipeline.Seg.run_eq_chain]
      exact .rfl)
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun _ => .rfl, fun _ => .rfl, fun _ => .rfl,
      fun _ => .rfl, fun _ => .rfl, fun _ => .rfl, fun _ => .rfl,
      fun _ => sep_assoc'⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W11 m c b)
    (hfin := fun c s' => by
      iintro ⟨⟨Hh, -⟩, HSI⟩
      unfold StableHlo.held
      imodintro
      iapply (pointsTo_read_all (Pipeline.ucRefs τ sig) (fun b => (((c : Thread nD τ)).1, b)) (W11 m c) s')
      isplitl [Hh] <;> iassumption)
    (hQ := fun s h c => h c)
theorem frame (ρ : Dev nD → PrngReg) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun r h c =>
    have f (b : Ref sig .tc) (hb : b ∈ mainArgs) : r.2.mem ((c.tc : Thread nD τ).loc b) = m ((c.tc : Thread nD τ).loc b) :=
      (h c _ (mem_uc b (mainArgs_kept b hb).1)).trans (W11_arg m c b hb)
    ⟨f main_arg0 (by decide), f main_arg1 (by decide), f main_arg2 (by decide), f main_arg3 (by decide), f main_arg4 (by decide),
     f main_arg5 (by decide), f main_arg6 (by decide), f main_arg7 (by decide), f main_arg8 (by decide)⟩)
    (run_all m ρ)

end Cert.KernelIdeal.Hand

end
-- ==== Proof.K0Frame_W.lean ====
import proofs.«413591_j8993661518313_3_alg».proof.Proof.Gen.Kernel.Launch
import proofs.«413591_j8993661518313_3_alg».proof.Proof.Gen.Kernel.Skeleton
import proofs.«413591_j8993661518313_3_alg».proof.Proof.Gen.Kernel.Points
import proofs.«413591_j8993661518313_3_alg».proof.Proof.LibWhole
import Idealize.ShloMosaic.Lib.Pipeline.FrameBody
import Idealize.ShloMosaic.Lib.Pipeline.Value
import Idealize.ShloMosaic.Lib.Ring
import Idealize.ShloMosaic.Lib.Tactic

set_option maxRecDepth 16384

noncomputable section

namespace Cert.Kernel.Hand

open Cert.Kernel Cert.Kernel.Gen Cert.Whole
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

abbrev cond0_0 (i : grid0.Coords) : Prop := (Scalar.cmpi .ne (Scalar.extui (Scalar.cmpi .eq (BitVec.ofNat 32 (i 1).val) 0#32)) 0#32) = 1#1
theorem hcond0_0 : ∀ t : Fin cfg0.N, cond0_0 (grid0.coords t) ↔ t.val % 196 = 0 :=
  (by decide +kernel : ∀ t : Fin grid0.N, cond0_0 (grid0.coords t) ↔ t.val % 196 = 0)

abbrev cond0_1 (i : grid0.Coords) : Prop := k0_cond2 i = 1#1
theorem hcond0_1 : ∀ t : Fin cfg0.N, cond0_1 (grid0.coords t) ↔ t.val % 196 = 195 :=
  (by decide +kernel : ∀ t : Fin grid0.N, cond0_1 (grid0.coords t) ↔ t.val % 196 = 195)

abbrev Acc0 (F : FTy → Type) [FloatOps F] : Type := Vec F S128x256 .f32 × Vec F S128x256 .f32 × Vec F S128x1 .f32

def zero0 : Acc0 F := (k0_pay7, k0_pay8, k0_pay9)

def step0 (x0 : Vec F S2048x128 .bf16) (x1 : Vec F S1x1x2048 .i32) (x2 : Vec F S128x256 .bf16) (x3 : Vec F S256 .f32) (s : Acc0 F) : Acc0 F :=
  (k0_pay1 (k0_pay15 x0 x2 x3 x1 s.1), k0_pay2 (k0_pay13 x0 x2 x3 x1) s.2.1, k0_pay3 (k0_pay14 x1) s.2.2)

def next0 (i : grid0.Coords) (x0 : Vec F S2048x128 .bf16) (x1 : Vec F S1x1x2048 .i32) (x2 : Vec F S128x256 .bf16) (x3 : Vec F S256 .f32) (s : Acc0 F) : Acc0 F :=
  step0 x0 x1 x2 x3 (if cond0_0 i then zero0 else s)

theorem run0 (c : Dev nD) (E : Set ℕ) (i : grid0.Coords) (arg2 : Memref sig .tc .vmem S2048x128 .bf16) (harg2 : arg2.IsWhole) (arg3 : Memref sig .tc .vmem S1x1x2048 .i32) (harg3 : arg3.IsWhole) (arg4 : Memref sig .tc .vmem S128x256 .bf16) (harg4 : arg4.IsWhole) (arg5 : Memref sig .tc .vmem S256 .f32) (harg5 : arg5.IsWhole) (arg6 : Memref sig .tc .vmem S1x128x256 .f32) (harg6 : arg6.IsWhole) (arg7 : Memref sig .tc .vmem S1x128x256 .f32) (harg7 : arg7.IsWhole) (arg8 : Memref sig .tc .vmem S1x128x1 .f32) (harg8 : arg8.IsWhole) (arg9 : Memref sig .tc .vmem S128x256 .f32) (harg9 : arg9.IsWhole) (arg10 : Memref sig .tc .vmem S128x256 .f32) (harg10 : arg10.IsWhole) (arg11 : Memref sig .tc .vmem S128x1 .f32) (harg11 : arg11.IsWhole)
    (hne : cond0_0 i → ¬cond0_1 i) (x0 : Vec F S2048x128 .bf16) (x1 : Vec F S1x1x2048 .i32) (x2 : Vec F S128x256 .bf16) (x3 : Vec F S256 .f32) (s : Acc0 F)
    (xi4 : Vec F S1x128x256 .f32) (xi5 : Vec F S1x128x256 .f32) (xi6 : Vec F S1x128x1 .f32) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3
        ∗ owns (c : Thread nD τ) arg6 fullShare xi4 ∗ owns (c : Thread nD τ) arg7 fullShare xi5 ∗ owns (c : Thread nD τ) arg8 fullShare xi6
        ∗ owns (c : Thread nD τ) arg9 fullShare s.1 ∗ owns (c : Thread nD τ) arg10 fullShare s.2.1 ∗ owns (c : Thread nD τ) arg11 fullShare s.2.2
        ∗ (iprop(owns (c : Thread nD τ) arg2 fullShare x0 ∗ owns (c : Thread nD τ) arg3 fullShare x1 ∗ owns (c : Thread nD τ) arg4 fullShare x2 ∗ owns (c : Thread nD τ) arg5 fullShare x3
            ∗ owns (c : Thread nD τ) arg6 fullShare (if cond0_1 i then k0_pay4 (next0 i x0 x1 x2 x3 s).1 else xi4)
            ∗ owns (c : Thread nD τ) arg7 fullShare (if cond0_1 i then k0_pay5 (next0 i x0 x1 x2 x3 s).2.1 else xi5)
            ∗ owns (c : Thread nD τ) arg8 fullShare (if cond0_1 i then k0_pay6 (next0 i x0 x1 x2 x3 s).2.2 else xi6)
            ∗ owns (c : Thread nD τ) arg9 fullShare (next0 i x0 x1 x2 x3 s).1 ∗ owns (c : Thread nD τ) arg10 fullShare (next0 i x0 x1 x2 x3 s).2.1 ∗ owns (c : Thread nD τ) arg11 fullShare (next0 i x0 x1 x2 x3 s).2.2) -∗ K ⟨⟩))
      ⊢ wp frame (wpE (defs₀ (F := F)) Variants.none c none) E (cc0_stats1_kernel i arg2 harg2 arg3 harg3 arg4 harg4 arg5 harg5 arg6 harg6 arg7 harg7 arg8 harg8 arg9 harg9 arg10 harg10 arg11 harg11) K := by
  by_cases hc0 : cond0_0 i <;> by_cases hc1 : cond0_1 i
  · exact absurd hc1 (hne hc0)
  all_goals
    simp (disch := assumption) only [next0, step0, zero0, if_pos, if_neg, owns_unread]
    simp only [cc0_stats1_kernel_eq_skeleton]; unfold cc0_stats1_kernel_skel
    simp only [k0_part1_eq_skeleton]; unfold k0_part1_skel
    iintro ⟨H2, H3, H4, H5, H6, H7, H8, H9, H10, H11, Hk⟩
    sl_exec (disch := first | exact hc0 | exact hc1)
    sl_step
    iapply Hk
    sl_unfold_words
    simp (disch := assumption) only [store_whole, load_whole, readCov_whole]
    iframe

def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

def acc0 (c : Dev nD) : (n : ℕ) → n < cfg0.N → Acc0 F
  | 0, hn => step0 (iblk0 V c 0 ⟨0, hn⟩) (iblk0 V c 1 ⟨0, hn⟩) (iblk0 V c 2 ⟨0, hn⟩) (iblk0 V c 3 ⟨0, hn⟩) zero0
  | n + 1, hn => step0 (iblk0 V c 0 ⟨n + 1, hn⟩) (iblk0 V c 1 ⟨n + 1, hn⟩) (iblk0 V c 2 ⟨n + 1, hn⟩) (iblk0 V c 3 ⟨n + 1, hn⟩)
      (if (n + 1) % 196 = 0 then zero0 else acc0 c n (Nat.lt_of_succ_lt hn))

theorem acc0_first (c : Dev nD) (t : Fin cfg0.N) (h : t.val % 196 = 0) :
    acc0 V c t.val t.isLt = step0 (iblk0 V c 0 t) (iblk0 V c 1 t) (iblk0 V c 2 t) (iblk0 V c 3 t) zero0 := by
  obtain ⟨n, hn⟩ := t
  cases n with
  | zero => rfl
  | succ n => exact congrArg _ (if_pos h)

theorem acc0_next (c : Dev nD) (t : Fin cfg0.N) (h : ¬t.val % 196 = 0) :
    acc0 V c t.val t.isLt = step0 (iblk0 V c 0 t) (iblk0 V c 1 t) (iblk0 V c 2 t) (iblk0 V c 3 t)
      (acc0 V c (t.val - 1) (Nat.lt_of_le_of_lt (Nat.sub_le _ _) t.isLt)) := by
  obtain ⟨n, hn⟩ := t
  cases n with
  | zero => exact absurd (Nat.zero_mod _) h
  | succ n => exact congrArg _ (if_neg h)

abbrev scM0_0 : Memref sig .tc .vmem S128x256 .f32 := Memref.whole cc0_scratch0
abbrev scM0_1 : Memref sig .tc .vmem S128x256 .f32 := Memref.whole cc0_scratch1
abbrev scM0_2 : Memref sig .tc .vmem S128x1 .f32 := Memref.whole cc0_scratch2

abbrev rest0 (c : Dev nD) : sProp 𝕄 :=
  Pipeline.scopedRestBut (Ix := Unit) (Name := ℕ) (U := UR sig nD τ) (Lvl := ℕ) (Val := Elt F) spec0 c [cc0_scratch0, cc0_scratch1, cc0_scratch2]

theorem PhiA0_eq (c : Dev nD) :
    (Pipeline.ΦA spec0 c : sProp 𝕄)
      = iprop(iprop(iprop((∃ d, owns (c : Thread nD τ) scM0_0 fullShare d) ∗ (∃ d, owns (c : Thread nD τ) scM0_1 fullShare d) ∗ (∃ d, owns (c : Thread nD τ) scM0_2 fullShare d))
          ∗ rest0 c) ∗ (∃ r, prngReg c r)) := by
  unfold Pipeline.ΦA; rw [scopedRest0_split]; simp only [scM0_0, scM0_1, scM0_2, owns_whole]; try rfl

abbrev inv0 (c : Dev nD) (s : Acc0 F) : sProp 𝕄 :=
  iprop(iprop(iprop(owns (c : Thread nD τ) scM0_0 fullShare s.1 ∗ owns (c : Thread nD τ) scM0_1 fullShare s.2.1 ∗ owns (c : Thread nD τ) scM0_2 fullShare s.2.2)
      ∗ rest0 c) ∗ (∃ r, prngReg c r))

def PhiS0 (c : Dev nD) : (n : ℕ) → n ≤ cfg0.N → sProp 𝕄
  | 0, _ => Pipeline.ΦA spec0 c
  | n + 1, hn => inv0 c (acc0 V c n hn)

theorem PhiS0_open (c : Dev nD) (n : ℕ) (h : n ≤ cfg0.N) :
    PhiS0 V c n h ⊢ iprop(∃ s : Acc0 F, ⌜∀ hn : n ≠ 0, s = acc0 V c (n - 1) (by omega)⌝ ∗ inv0 c s) := by
  cases n with
  | zero =>
    unfold inv0
    rw [show PhiS0 V c 0 h = Pipeline.ΦA spec0 c from rfl, PhiA0_eq]
    iintro ⟨⟨⟨⟨%d0, HS0⟩, ⟨%d1, HS1⟩, ⟨%d2, HS2⟩⟩, Hr⟩, Hg⟩
    iexists (d0, d1, d2); isplitr; · ipureintro; exact fun hn => absurd rfl hn
    iframe
  | succ n =>
    show inv0 c (acc0 V c n h) ⊢ _
    iintro H; iexists (acc0 V c n h); isplitr; · ipureintro; exact fun _ => rfl
    iexact H

theorem acc0_step (c : Dev nD) (t : Fin cfg0.N) (s : Acc0 F) (hs : ∀ hn : t.val ≠ 0, s = acc0 V c (t.val - 1) (by omega)) :
    acc0 V c t.val t.isLt = next0 (grid0.coords t) (iblk0 V c 0 t) (iblk0 V c 1 t) (iblk0 V c 2 t) (iblk0 V c 3 t) s := by
  unfold next0
  by_cases h : t.val % 196 = 0
  · rw [if_pos ((hcond0_0 t).mpr h)]; exact acc0_first V c t h
  · rw [if_neg fun hc => h ((hcond0_0 t).mp hc), hs fun e => h (by rw [e])]; exact acc0_next V c t h

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => k0_pay4 (acc0 V c t.val t.isLt).1
    | ⟨5, _⟩ => k0_pay5 (acc0 V c t.val t.isLt).2.1
    | ⟨6, _⟩ => k0_pay6 (acc0 V c t.val t.isLt).2.2
  Φ t := PhiS0 V c t.val (Nat.le_of_lt_succ t.isLt)
  q _ := fullShare
  owed _ := 0

theorem A_eq0 (c : Dev nD) (w : Fin cfg0.W) : (dat0 V c).A w = V c (Pipeline.arrRef spec0 w) := by
  dsimp only [dat0]

theorem after0_4 (c : Dev nD) (t : Fin cfg0.N) : (dat0 V c).after 4 t = k0_pay4 (acc0 V c t.val t.isLt).1 := by dsimp only [dat0]
theorem after0_5 (c : Dev nD) (t : Fin cfg0.N) : (dat0 V c).after 5 t = k0_pay5 (acc0 V c t.val t.isLt).2.1 := by dsimp only [dat0]
theorem after0_6 (c : Dev nD) (t : Fin cfg0.N) : (dat0 V c).after 6 t = k0_pay6 (acc0 V c t.val t.isLt).2.2 := by dsimp only [dat0]

-- The inputs are left as found, so each holds its block at every point.
theorem before0 (c : Dev nD) (t : Fin cfg0.N) :
    (∀ d, (dat0 V c).before 0 t d = iblk0 V c 0 t) ∧ (∀ d, (dat0 V c).before 1 t d = iblk0 V c 1 t) ∧ (∀ d, (dat0 V c).before 2 t d = iblk0 V c 2 t)
      ∧ (∀ d, (dat0 V c).before 3 t d = iblk0 V c 3 t) := by
  refine ⟨?_, ?_, ?_, ?_⟩ <;>
    exact fun d => ((dat0 V c).before_in_eq_fetched _ rfl (fun _ => rfl) (fun _ _ _ => rfl) (fun _ => rfl) t d).trans rfl

-- At any point the invariant hands the accumulators over and takes them back one step on.
theorem sound_body0 (c : Dev nD) (t : Fin cfg0.N) :
    iprop(PhiS0 V c t.val (Nat.le_of_lt t.isLt) ∗ (dat0 V c).owesAt () t.castSucc
        ∗ bigSep Finset.univ fun w : Fin cfg0.W => iprop(∃ d, owns (c : Thread nD τ) ((cfg0.win w).stage (cfg0.slots t w)) fullShare ((dat0 V c).before w t d)))
      ⊢ wp frame (wpE (defs₀ (F := F)) Variants.none c none) Set.univ (bodyAt0 t) fun _ =>
        iprop(PhiS0 V c (t.val + 1) t.isLt ∗ (dat0 V c).owesAt () t.castSucc ∗ bigSep Finset.univ fun w : Fin cfg0.W => (dat0 V c).leavesExact w t) := by
  obtain ⟨b0, b1, b2, b3⟩ := before0 V c t
  rw [bigSep_W0, bigSep_W0]
  simp only [b0, b1, b2, b3]
  rw [show (dat0 V c).leavesExact 0 t = owns (c : Thread nD τ) (st0_0 t) fullShare (iblk0 V c 0 t) from rfl, show (dat0 V c).leavesExact 1 t = owns (c : Thread nD τ) (st0_1 t) fullShare (iblk0 V c 1 t) from rfl,
    show (dat0 V c).leavesExact 2 t = owns (c : Thread nD τ) (st0_2 t) fullShare (iblk0 V c 2 t) from rfl, show (dat0 V c).leavesExact 3 t = owns (c : Thread nD τ) (st0_3 t) fullShare (iblk0 V c 3 t) from rfl,
    show PhiS0 V c (t.val + 1) t.isLt = inv0 c (acc0 V c t.val t.isLt) from rfl]
  iintro ⟨HΦ, Ho, ⟨%d0, H0⟩, ⟨%d1, H1⟩, ⟨%d2, H2⟩, ⟨%d3, H3⟩, ⟨%d4, H4⟩, ⟨%d5, H5⟩, ⟨%d6, H6⟩⟩
  ihave HΦ' := (PhiS0_open V c _ _) $$ HΦ
  icases HΦ' with ⟨%s, %hs, ⟨⟨HS0, HS1, HS2⟩, Hr⟩, Hg⟩
  have hs' := acc0_step V c t s hs
  iapply (run0 c Set.univ (grid0.coords t) _ _ _ _ _ _ _ _ _ _ _ _ _ _ _ _ _ _ _ _
    (fun a b => by have := (hcond0_0 t).mp a; have := (hcond0_1 t).mp b; omega)
    (iblk0 V c 0 t) (iblk0 V c 1 t) (iblk0 V c 2 t) (iblk0 V c 3 t) s _ _ _ _)
  iframe H0 H1 H2 H3 H4 H5 H6 HS0 HS1 HS2
  iintro ⟨H0, H1, H2, H3, H4, H5, H6, HS0, HS1, HS2⟩
  ihave H4 := (leaves_out (dat0 V c) 4 t (cond0_1 (grid0.coords t)) rfl (fun h => (hcond0_1 t).mpr ((flush0_4 t).mp h)) d4 _ ((after0_4 V c t).trans (by rw [hs']))) $$ H4
  ihave H5 := (leaves_out (dat0 V c) 5 t (cond0_1 (grid0.coords t)) rfl (fun h => (hcond0_1 t).mpr ((flush0_5 t).mp h)) d5 _ ((after0_5 V c t).trans (by rw [hs']))) $$ H5
  ihave H6 := (leaves_out (dat0 V c) 6 t (cond0_1 (grid0.coords t)) rfl (fun h => (hcond0_1 t).mpr ((flush0_6 t).mp h)) d6 _ ((after0_6 V c t).trans (by rw [hs']))) $$ H6
  rw [hs']; unfold inv0
  iframe

theorem body_obligation0 (c : Dev nD) : BodyObligation (dat0 (F := F) V c) (defs₀ (F := F)) Variants.none () Set.univ := fun t =>
  sound_body0 V c t

theorem hin0 (c : Dev nD) : Pipeline.ΦA spec0 c ⊢ (dat0 V c).Φ 0 := .rfl

theorem hout0 (c : Dev nD) : (dat0 V c).Φ (Fin.last cfg0.N) ⊢ Pipeline.ΦA spec0 c := by
  rw [show (dat0 V c).Φ (Fin.last cfg0.N) = PhiS0 V c cfg0.N (Nat.le_refl _) from rfl, PhiA0_eq]
  iintro H
  ihave H' := (PhiS0_open V c _ _) $$ H
  icases H' with ⟨%s, -, ⟨⟨HS0, HS1, HS2⟩, Hr⟩, Hg⟩
  iframe Hr Hg
  isplitl [HS0]; · iexists _; iexact HS0
  isplitl [HS1]; · iexists _; iexact HS1
  iexists _; iexact HS2

end Cert.Kernel.Hand

end
-- ==== Proof.K1Frame_W.lean ====
import proofs.«413591_j8993661518313_3_alg».proof.Proof.Gen.Kernel.Launch
import proofs.«413591_j8993661518313_3_alg».proof.Proof.Gen.Kernel.Skeleton
import proofs.«413591_j8993661518313_3_alg».proof.Proof.Gen.Kernel.Points
import proofs.«413591_j8993661518313_3_alg».proof.Proof.LibWhole
import Idealize.ShloMosaic.Lib.Pipeline.FrameBody
import Idealize.ShloMosaic.Lib.Pipeline.Value
import Idealize.ShloMosaic.Lib.Ring
import Idealize.ShloMosaic.Lib.Tactic

set_option maxRecDepth 16384

noncomputable section

namespace Cert.Kernel.Hand

open Cert.Kernel Cert.Kernel.Gen Cert.Whole
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

def lin2Tile1 (x0 : Vec F S2048x128 .bf16) (x1 : Vec F S1x1x2048 .i32) (x2 : Vec F S128x512 .f32) (x3 : Vec F S128x256 .bf16)
    (x4 : Vec F S256 .f32) (x5 : Vec F S256x64 .bf16) (x6 : Vec F S64 .f32) : Vec F S2048x64 .bf16 :=
  k1_pay1 (k1_pay10 x0 x3 x4 x1 x2) (k1_pay11 x5) x6

def sumStep1 (x0 : Vec F S2048x128 .bf16) (x1 : Vec F S1x1x2048 .i32) (x2 : Vec F S128x512 .f32) (x3 : Vec F S128x256 .bf16)
    (x4 : Vec F S256 .f32) (x5 : Vec F S256x64 .bf16) (x6 : Vec F S64 .f32) (acc : Vec F S128x64 .f32) : Vec F S128x64 .f32 :=
  k1_pay2 (k1_pay9 x1) (k1_pay10 x0 x3 x4 x1 x2) (k1_pay11 x5) x6 acc

def sumsqStep1 (x0 : Vec F S2048x128 .bf16) (x1 : Vec F S1x1x2048 .i32) (x2 : Vec F S128x512 .f32) (x3 : Vec F S128x256 .bf16)
    (x4 : Vec F S256 .f32) (x5 : Vec F S256x64 .bf16) (x6 : Vec F S64 .f32) (acc : Vec F S128x64 .f32) : Vec F S128x64 .f32 :=
  k1_pay3 (k1_pay9 x1) (k1_pay10 x0 x3 x4 x1 x2) (k1_pay11 x5) x6 acc

def lin2At1 (c : Dev nD) (t : Fin cfg1.N) : Vec F S2048x64 .bf16 :=
  lin2Tile1 (iblk1 V c 0 t) (iblk1 V c 1 t) (iblk1 V c 2 t) (iblk1 V c 3 t) (iblk1 V c 4 t) (iblk1 V c 5 t) (iblk1 V c 6 t)

def accStep1 (c : Dev nD) (t : Fin cfg1.N) (p : Vec F S128x64 .f32 × Vec F S128x64 .f32) : Vec F S128x64 .f32 × Vec F S128x64 .f32 :=
  (sumStep1 (iblk1 V c 0 t) (iblk1 V c 1 t) (iblk1 V c 2 t) (iblk1 V c 3 t) (iblk1 V c 4 t) (iblk1 V c 5 t) (iblk1 V c 6 t) p.1,
   sumsqStep1 (iblk1 V c 0 t) (iblk1 V c 1 t) (iblk1 V c 2 t) (iblk1 V c 3 t) (iblk1 V c 4 t) (iblk1 V c 5 t) (iblk1 V c 6 t) p.2)

def accZero1 : Vec F S128x64 .f32 × Vec F S128x64 .f32 := (k1_pay6 (F := F), k1_pay7 (F := F))

-- The running sums after point `n`: a half's first tile starts from zero, every other adds onto the tile before.
def accAt1 (c : Dev nD) : (n : ℕ) → n < cfg1.N → Vec F S128x64 .f32 × Vec F S128x64 .f32
  | 0, hn => accStep1 V c ⟨0, hn⟩ accZero1
  | n + 1, hn => accStep1 V c ⟨n + 1, hn⟩ (if (n + 1) % 196 = 0 then accZero1 else accAt1 c n (Nat.lt_of_succ_lt hn))

theorem accAt1_first (c : Dev nD) (t : Fin cfg1.N) (h : t.val % 196 = 0) :
    accAt1 V c t.val t.isLt = accStep1 V c t accZero1 := by
  obtain ⟨_ | n, hn⟩ := t
  · rfl
  · show accStep1 V c _ (if (n + 1) % 196 = 0 then _ else _) = _; rw [if_pos h]

theorem accAt1_next (c : Dev nD) (t : Fin cfg1.N) (h : ¬t.val % 196 = 0) :
    accAt1 V c t.val t.isLt = accStep1 V c t (accAt1 V c (t.val - 1) (Nat.lt_of_le_of_lt (Nat.sub_le _ _) t.isLt)) := by
  obtain ⟨_ | n, hn⟩ := t
  · exact absurd (Nat.zero_mod _) h
  · show accStep1 V c _ (if (n + 1) % 196 = 0 then _ else _) = _; rw [if_neg h]; rfl

abbrev cond1_1 (i : grid1.Coords) : Prop := (Scalar.cmpi .ne (Scalar.extui (Scalar.cmpi .eq (BitVec.ofNat 32 (i 1).val) 0#32)) 0#32) = 1#1
abbrev cond1_2 (i : grid1.Coords) : Prop := k1_cond2 i = 1#1

-- One triple for every tile: the two conditions only choose what the sums are added onto (zero at a half's first tile) and whether the sum outputs take them (at its last).
theorem sound_kernel1 (c : Dev nD) (i : grid1.Coords) (E : Set ℕ) (arg2 : Memref sig .tc .vmem S2048x128 .bf16) (harg2 : arg2.IsWhole) (arg3 : Memref sig .tc .vmem S1x1x2048 .i32) (harg3 : arg3.IsWhole) (arg4 : Memref sig .tc .vmem S128x512 .f32) (harg4 : arg4.IsWhole) (arg5 : Memref sig .tc .vmem S128x256 .bf16) (harg5 : arg5.IsWhole) (arg6 : Memref sig .tc .vmem S256 .f32) (harg6 : arg6.IsWhole) (arg7 : Memref sig .tc .vmem S256x64 .bf16) (harg7 : arg7.IsWhole) (arg8 : Memref sig .tc .vmem S64 .f32) (harg8 : arg8.IsWhole) (arg9 : Memref sig .tc .vmem S2048x64 .bf16) (harg9 : arg9.IsWhole) (arg10 : Memref sig .tc .vmem S1x128x64 .f32) (harg10 : arg10.IsWhole) (arg11 : Memref sig .tc .vmem S1x128x64 .f32) (harg11 : arg11.IsWhole) (arg12 : Memref sig .tc .vmem S128x64 .f32) (harg12 : arg12.IsWhole) (arg13 : Memref sig .tc .vmem S128x64 .f32) (harg13 : arg13.IsWhole)
    (h12 : cond1_1 i → ¬cond1_2 i) (x0 : Vec F S2048x128 .bf16) (x1 : Vec F S1x1x2048 .i32) (x2 : Vec F S128x512 .f32) (x3 : Vec F S128x256 .bf16) (x4 : Vec F S256 .f32) (x5 : Vec F S256x64 .bf16) (x6 : Vec F S64 .f32) (y : Vec F S2048x64 .bf16) (o0 o1 : Vec F S1x128x64 .f32)
    (s a : Vec F S128x64 .f32 × Vec F S128x64 .f32) (ha : a = if cond1_1 i then accZero1 else s) (K : PUnit → sProp 𝕄) :
    iprop(owns c.tc arg2 fullShare x0 ∗ owns c.tc arg3 fullShare x1 ∗ owns c.tc arg4 fullShare x2 ∗ owns c.tc arg5 fullShare x3 ∗ owns c.tc arg6 fullShare x4 ∗ owns c.tc arg7 fullShare x5 ∗ owns c.tc arg8 fullShare x6
        ∗ owns c.tc arg9 fullShare y ∗ owns c.tc arg10 fullShare o0 ∗ owns c.tc arg11 fullShare o1 ∗ owns c.tc arg12 fullShare s.1 ∗ owns c.tc arg13 fullShare s.2
        ∗ (iprop(owns c.tc arg2 fullShare x0 ∗ owns c.tc arg3 fullShare x1 ∗ owns c.tc arg4 fullShare x2 ∗ owns c.tc arg5 fullShare x3 ∗ owns c.tc arg6 fullShare x4 ∗ owns c.tc arg7 fullShare x5 ∗ owns c.tc arg8 fullShare x6
            ∗ owns c.tc arg9 fullShare (lin2Tile1 x0 x1 x2 x3 x4 x5 x6)
            ∗ owns c.tc arg10 fullShare (if cond1_2 i then k1_pay4 (sumStep1 x0 x1 x2 x3 x4 x5 x6 a.1) else o0)
            ∗ owns c.tc arg11 fullShare (if cond1_2 i then k1_pay5 (sumsqStep1 x0 x1 x2 x3 x4 x5 x6 a.2) else o1)
            ∗ owns c.tc arg12 fullShare (sumStep1 x0 x1 x2 x3 x4 x5 x6 a.1) ∗ owns c.tc arg13 fullShare (sumsqStep1 x0 x1 x2 x3 x4 x5 x6 a.2)) -∗ K ⟨⟩))
      ⊢ wp frame (wpE (defs₀ (F := F)) Variants.none c none) E (cc1_layer1to2_kernel i arg2 harg2 arg3 harg3 arg4 harg4 arg5 harg5 arg6 harg6 arg7 harg7 arg8 harg8 arg9 harg9 arg10 harg10 arg11 harg11 arg12 harg12 arg13 harg13) K := by
  subst ha
  by_cases hc1 : cond1_1 i <;> by_cases hc2 : cond1_2 i
  · exact absurd hc2 (h12 hc1)
  all_goals
    simp (disch := assumption) only [if_pos, if_neg, accZero1, owns_unread]
    simp only [cc1_layer1to2_kernel_eq_skeleton]; unfold cc1_layer1to2_kernel_skel
    simp only [k1_part1_eq_skeleton]
    iintro ⟨H0, H1, H2, H3, H4, H5, H6, H7, H8, H9, HS0, HS1, Hk⟩
    sl_exec (disch := first | exact hc1 | exact hc2)
    sl_step
    iapply Hk
    sl_unfold_words
    simp (disch := assumption) only [store_whole, load_whole, readCov_whole, lin2Tile1, sumStep1, sumsqStep1]
    iframe

theorem hcond1_1 : ∀ t : Fin cfg1.N, cond1_1 (grid1.coords t) ↔ t.val % 196 = 0 := by decide +kernel
theorem hcond1_2 : ∀ t : Fin cfg1.N, cond1_2 (grid1.coords t) ↔ t.val % 196 = 195 := by decide +kernel

abbrev scM1_0 : Memref sig .tc .vmem S128x64 .f32 := Memref.whole cc1_scratch0
abbrev scM1_1 : Memref sig .tc .vmem S128x64 .f32 := Memref.whole cc1_scratch1

abbrev rest1 (c : Dev nD) : sProp 𝕄 :=
  Pipeline.scopedRestBut (Ix := Unit) (Name := ℕ) (U := UR sig nD τ) (Lvl := ℕ) (Val := Elt F) spec1 c [cc1_scratch0, cc1_scratch1]

theorem PhiA1_eq (c : Dev nD) :
    (Pipeline.ΦA spec1 c : sProp 𝕄)
      = iprop(iprop(iprop((∃ d, owns c.tc scM1_0 fullShare d) ∗ (∃ d, owns c.tc scM1_1 fullShare d)) ∗ rest1 (F := F) c) ∗ (∃ r, prngReg c r)) := by
  unfold Pipeline.ΦA; rw [scopedRest1_split]; simp only [scM1_0, scM1_1, rest1, owns_whole]; try rfl

-- Before point `n` the accumulators hold the running sums point `n - 1` left; before the first point, anything.
def PhiS1 (c : Dev nD) : (n : ℕ) → n ≤ cfg1.N → sProp 𝕄
  | 0, _ => Pipeline.ΦA spec1 c
  | n + 1, hn => iprop(iprop(iprop(owns c.tc scM1_0 fullShare (accAt1 V c n hn).1 ∗ owns c.tc scM1_1 fullShare (accAt1 V c n hn).2) ∗ rest1 (F := F) c) ∗ (∃ r, prngReg c r))

-- So before point `t` they hold a pair from which this tile's step gives the running sums at `t`.
theorem PhiS1_step (c : Dev nD) (t : Fin cfg1.N) :
    PhiS1 V c t.val (Nat.le_of_lt t.isLt) ⊢ iprop(∃ s, ⌜accAt1 V c t.val t.isLt = accStep1 V c t (if cond1_1 (grid1.coords t) then accZero1 else s)⌝
      ∗ iprop(iprop(owns c.tc scM1_0 fullShare s.1 ∗ owns c.tc scM1_1 fullShare s.2) ∗ rest1 (F := F) c) ∗ (∃ r, prngReg c r)) := by
  obtain ⟨n, hn⟩ := t
  cases n with
  | zero =>
    rw [show PhiS1 V c (0 : ℕ) _ = Pipeline.ΦA spec1 c from rfl, PhiA1_eq]
    iintro ⟨⟨⟨⟨%d0, HS0⟩, ⟨%d1, HS1⟩⟩, Hrest⟩, Hg⟩
    iexists (d0, d1); isplitr
    · ipureintro; rw [if_pos ((hcond1_1 ⟨0, hn⟩).mpr rfl)]; rfl
    iframe
  | succ n =>
    iintro H; iexists accAt1 V c n (Nat.lt_of_succ_lt hn); isplitr
    · ipureintro; rw [if_congr (hcond1_1 ⟨n + 1, hn⟩) rfl rfl]; rfl
    simp only [PhiS1]; iexact H

theorem PhiS1_forget (c : Dev nD) : ∀ n h, PhiS1 V c n h ⊢ Pipeline.ΦA spec1 c
  | 0, _ => Entails.refl _
  | n + 1, h => by
    rw [PhiA1_eq]; simp only [PhiS1]
    iintro ⟨⟨⟨HS0, HS1⟩, Hrest⟩, Hg⟩
    iframe Hrest Hg
    isplitl [HS0] <;> iexists _ <;> iassumption

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => iblk1 V c 6 t
    | ⟨7, _⟩ => lin2At1 V c t
    | ⟨8, _⟩ => k1_pay4 (accAt1 V c t.val t.isLt).1
    | ⟨9, _⟩ => k1_pay5 (accAt1 V c t.val t.isLt).2
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem after1_7 (c : Dev nD) (t : Fin cfg1.N) : (dat1 V c).after 7 t = lin2At1 V c t := by dsimp only [dat1]
theorem after1_8 (c : Dev nD) (t : Fin cfg1.N) : (dat1 V c).after 8 t = k1_pay4 (accAt1 V c t.val t.isLt).1 := by dsimp only [dat1]
theorem after1_9 (c : Dev nD) (t : Fin cfg1.N) : (dat1 V c).after 9 t = k1_pay5 (accAt1 V c t.val t.isLt).2 := by dsimp only [dat1]

-- The inputs are left as found, so each holds its block at every point.
theorem before1 (c : Dev nD) (t : Fin cfg1.N) :
    (∀ d, (dat1 V c).before 0 t d = iblk1 V c 0 t) ∧ (∀ d, (dat1 V c).before 1 t d = iblk1 V c 1 t) ∧ (∀ d, (dat1 V c).before 2 t d = iblk1 V c 2 t)
      ∧ (∀ d, (dat1 V c).before 3 t d = iblk1 V c 3 t) ∧ (∀ d, (dat1 V c).before 4 t d = iblk1 V c 4 t) ∧ (∀ d, (dat1 V c).before 5 t d = iblk1 V c 5 t)
      ∧ (∀ d, (dat1 V c).before 6 t d = iblk1 V c 6 t) := by
  refine ⟨?_, ?_, ?_, ?_, ?_, ?_, ?_⟩ <;>
    exact fun d => ((dat1 V c).before_in_eq_fetched _ rfl (fun _ => rfl) (fun _ _ _ => rfl) (fun _ => rfl) t d).trans rfl

theorem sound_body1 (c : Dev nD) (t : Fin cfg1.N) :
    iprop(PhiS1 V c t.val (Nat.le_of_lt t.isLt) ∗ (dat1 V c).owesAt () t.castSucc
        ∗ bigSep Finset.univ fun w : Fin cfg1.W => iprop(∃ d, owns c.tc ((cfg1.win w).stage (cfg1.slots t w)) fullShare ((dat1 V c).before w t d)))
      ⊢ wp frame (wpE (defs₀ (F := F)) Variants.none c none) Set.univ (bodyAt1 t) fun _ =>
        iprop(PhiS1 V c (t.val + 1) t.isLt ∗ (dat1 V c).owesAt () t.castSucc ∗ bigSep Finset.univ fun w : Fin cfg1.W => (dat1 V c).leavesExact w t) := by
  obtain ⟨b0, b1, b2, b3, b4, b5, b6⟩ := before1 V c t
  rw [bigSep_W1, bigSep_W1]
  simp only [b0, b1, b2, b3, b4, b5, b6]
  rw [show (dat1 V c).leavesExact 0 t = owns c.tc (st1_0 t) fullShare (iblk1 V c 0 t) from rfl, show (dat1 V c).leavesExact 1 t = owns c.tc (st1_1 t) fullShare (iblk1 V c 1 t) from rfl,
    show (dat1 V c).leavesExact 2 t = owns c.tc (st1_2 t) fullShare (iblk1 V c 2 t) from rfl, show (dat1 V c).leavesExact 3 t = owns c.tc (st1_3 t) fullShare (iblk1 V c 3 t) from rfl,
    show (dat1 V c).leavesExact 4 t = owns c.tc (st1_4 t) fullShare (iblk1 V c 4 t) from rfl, show (dat1 V c).leavesExact 5 t = owns c.tc (st1_5 t) fullShare (iblk1 V c 5 t) from rfl,
    show (dat1 V c).leavesExact 6 t = owns c.tc (st1_6 t) fullShare (iblk1 V c 6 t) from rfl, show (dat1 V c).leavesExact 7 t = owns c.tc (st1_7 t) fullShare (lin2At1 V c t) from rfl]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  ihave HΦ' := (PhiS1_step V c t) $$ HΦ
  icases HΦ' with ⟨%s, %hs, ⟨⟨HS0, HS1⟩, Hrest⟩, Hg⟩
  iapply (sound_kernel1 c (grid1.coords t) Set.univ _ _ _ _ _ _ _ _ _ _ _ _ _ _ _ _ _ _ _ _ _ _ _ _
    (fun h1 h2 => by have := (hcond1_1 t).mp h1; have := (hcond1_2 t).mp h2; omega)
    (iblk1 V c 0 t) (iblk1 V c 1 t) (iblk1 V c 2 t) (iblk1 V c 3 t) (iblk1 V c 4 t) (iblk1 V c 5 t) (iblk1 V c 6 t) _ _ _ s _ rfl _)
  iframe H0 H1 H2 H3 H4 H5 H6 H7 H8 H9 HS0 HS1
  iintro ⟨H0, H1, H2, H3, H4, H5, H6, H7, H8, H9, HS0, HS1⟩
  ihave H8 := (leaves_out (dat1 V c) 8 t (cond1_2 (grid1.coords t)) rfl (fun h => (hcond1_2 t).mpr ((flush1_8 t).mp h)) d8 _ ((after1_8 V c t).trans (by rw [hs]; rfl))) $$ H8
  ihave H9 := (leaves_out (dat1 V c) 9 t (cond1_2 (grid1.coords t)) rfl (fun h => (hcond1_2 t).mpr ((flush1_9 t).mp h)) d9 _ ((after1_9 V c t).trans (by rw [hs]; rfl))) $$ H9
  simp only [PhiS1]
  rw [hs]
  unfold lin2At1 accStep1
  iframe

theorem body_obligation1 (c : Dev nD) : BodyObligation (dat1 (F := F) V c) (defs₀ (F := F)) Variants.none () Set.univ := fun t =>
  sound_body1 V c t

theorem hin1 (c : Dev nD) : Pipeline.ΦA spec1 c ⊢ (dat1 V c).Φ 0 := Entails.refl _

theorem hout1 (c : Dev nD) : (dat1 V c).Φ (Fin.last cfg1.N) ⊢ Pipeline.ΦA spec1 c := PhiS1_forget V c cfg1.N (Nat.le_refl _)

end Cert.Kernel.Hand

end
-- ==== Proof.K2Frame_W.lean ====
import proofs.«413591_j8993661518313_3_alg».proof.Proof.Gen.Kernel.Launch
import proofs.«413591_j8993661518313_3_alg».proof.Proof.Gen.Kernel.Skeleton
import proofs.«413591_j8993661518313_3_alg».proof.Proof.Gen.Kernel.Points
import proofs.«413591_j8993661518313_3_alg».proof.Proof.LibWhole
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen Cert.Whole

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

abbrev rLin : Rect S2048x64 := Rect.unit (s := S2048x64) ![0, 0] S2048x64.size inb_S2048x64_S2048x64_0_0

abbrev rRow : Rect S1x1x2048 := Rect.unit (s := S1x1x2048) ![0, 0, 0] S1x1x2048.size inb_S1x1x2048_S1x1x2048_0_0_0

abbrev rTab : Rect S128x128 := Rect.unit (s := S128x128) ![0, 0] S128x128.size inb_S128x128_S128x128_0_0

abbrev rW3 : Rect S64x1 := Rect.unit (s := S64x1) ![0, 0] S64x1.size inb_S64x1_S64x1_0_0

abbrev rB3 : Rect S1 := Rect.unit (s := S1) ![0] S1.size inb_S1_S1_0

def out2_5 (x0 : Vec F S2048x64 .bf16) (x1 : Vec F S1x1x2048 .i32) (x2 : Vec F S128x128 .f32) (x3 : Vec F S64x1 .bf16) (x4 : Vec F S1 .f32) : Vec F S1x1x2048 .f32 :=
  View.canon [⟨rRow, k2_pay1 (View.ld x0 rLin) (View.ld x1 rRow) (View.ld x2 rTab) (View.ld x3 rW3) (View.ld x4 rB3)⟩]

theorem sound_kernel2 (c : Dev nD) (E : Set ℕ) (i : grid2.Coords)
    (arg1 : Memref sig .tc .vmem S2048x64 .bf16) (harg1 : arg1.IsWhole) (arg2 : Memref sig .tc .vmem S1x1x2048 .i32) (harg2 : arg2.IsWhole)
    (arg3 : Memref sig .tc .vmem S128x128 .f32) (harg3 : arg3.IsWhole) (arg4 : Memref sig .tc .vmem S64x1 .bf16) (harg4 : arg4.IsWhole)
    (arg5 : Memref sig .tc .vmem S1 .f32) (harg5 : arg5.IsWhole) (arg6 : Memref sig .tc .vmem S1x1x2048 .f32) (harg6 : arg6.IsWhole)
    (x0 : Vec F S2048x64 .bf16) (x1 : Vec F S1x1x2048 .i32) (x2 : Vec F S128x128 .f32) (x3 : Vec F S64x1 .bf16) (x4 : Vec F S1 .f32) (y : Vec F S1x1x2048 .f32)
    (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare y
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (out2_5 x0 x1 x2 x3 x4)) -∗ K ⟨⟩))
      ⊢ wp frame (wpE (defs₀ (F := F)) Variants.none c none) E
          (cc2_finalize_kernel i arg1 harg1 arg2 harg2 arg3 harg3 arg4 harg4 arg5 harg5 arg6 harg6) K := by
  simp (disch := assumption) only [owns_unread, out2_5, canon_whole, ld_whole]
  simp only [cc2_finalize_kernel_eq_skeleton]; unfold cc2_finalize_kernel_skel
  iintro ⟨H0, H1, H2, H3, H4, H5, Hk⟩
  sl_exec
  sl_step
  iapply Hk
  simp (disch := assumption) only [store_whole, load_whole]
  iframe

def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => out2_5 (iblk2 V c 0 t) (iblk2 V c 1 t) (iblk2 V c 2 t) (iblk2 V c 3 t) (iblk2 V c 4 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_5 (c : Dev nD) (t : Fin cfg2.N) :
    (dat2 V c).after 5 t = out2_5 (iblk2 V c 0 t) (iblk2 V c 1 t) (iblk2 V c 2 t) (iblk2 V c 3 t) (iblk2 V c 4 t) := by dsimp only [dat2]

-- The inputs are left as found, so each holds its block at every point.
theorem before2 (c : Dev nD) (t : Fin cfg2.N) :
    (∀ d, (dat2 V c).before 0 t d = iblk2 V c 0 t) ∧ (∀ d, (dat2 V c).before 1 t d = iblk2 V c 1 t) ∧ (∀ d, (dat2 V c).before 2 t d = iblk2 V c 2 t)
      ∧ (∀ d, (dat2 V c).before 3 t d = iblk2 V c 3 t) ∧ (∀ d, (dat2 V c).before 4 t d = iblk2 V c 4 t) := by
  refine ⟨?_, ?_, ?_, ?_, ?_⟩ <;>
    exact fun d => ((dat2 V c).before_in_eq_fetched _ rfl (fun _ => rfl) (fun _ _ _ => rfl) (fun _ => rfl) t d).trans rfl

theorem sound_body2 (c : Dev nD) (t : Fin cfg2.N) :
    iprop(Pipeline.ΦA spec2 c ∗ (dat2 V c).owesAt () t.castSucc
        ∗ bigSep Finset.univ fun w : Fin cfg2.W => iprop(∃ d, owns (c : Thread nD τ) ((cfg2.win w).stage (cfg2.slots t w)) fullShare ((dat2 V c).before w t d)))
      ⊢ wp frame (wpE (defs₀ (F := F)) Variants.none c none) Set.univ (bodyAt2 t) fun _ =>
        iprop(Pipeline.ΦA spec2 c ∗ (dat2 V c).owesAt () t.castSucc
          ∗ bigSep Finset.univ fun w : Fin cfg2.W => owns (c : Thread nD τ) ((cfg2.win w).stage (cfg2.slots t w)) fullShare ((dat2 V c).after w t)) := by
  obtain ⟨b0, b1, b2, b3, b4⟩ := before2 V c t
  rw [bigSep_W2, bigSep_W2]
  simp only [b0, b1, b2, b3, b4]
  rw [show (dat2 V c).after 0 t = iblk2 V c 0 t from rfl, show (dat2 V c).after 1 t = iblk2 V c 1 t from rfl, show (dat2 V c).after 2 t = iblk2 V c 2 t from rfl,
    show (dat2 V c).after 3 t = iblk2 V c 3 t from rfl, show (dat2 V c).after 4 t = iblk2 V c 4 t from rfl, after2_5]
  iintro ⟨HΦ, Ho, ⟨%d0, H0⟩, ⟨%d1, H1⟩, ⟨%d2, H2⟩, ⟨%d3, H3⟩, ⟨%d4, H4⟩, ⟨%d5, H5⟩⟩
  iapply (sound_kernel2 c Set.univ (grid2.coords t) _ _ _ _ _ _ _ _ _ _ _ _
    (iblk2 V c 0 t) (iblk2 V c 1 t) (iblk2 V c 2 t) (iblk2 V c 3 t) (iblk2 V c 4 t) _ _)
  iframe H0 H1 H2 H3 H4 H5
  iintro ⟨H0, H1, H2, H3, H4, H5⟩
  iframe

theorem body_obligation2 (c : Dev nD) : BodyObligation (dat2 (F := F) V c) (defs₀ (F := F)) Variants.none () Set.univ := fun t =>
  sound_body2 V c t

theorem hin2 (c : Dev nD) : Pipeline.ΦA spec2 c ⊢ (dat2 V c).Φ 0 := .rfl

theorem hout2 (c : Dev nD) : (dat2 V c).Φ (Fin.last cfg2.N) ⊢ Pipeline.ΦA spec2 c := .rfl

end Cert.Kernel.Hand

end
-- ==== Proof.Launch_W.lean ====
import proofs.«413591_j8993661518313_3_alg».proof.Proof.K0Frame_W
import proofs.«413591_j8993661518313_3_alg».proof.Proof.K1Frame_W
import proofs.«413591_j8993661518313_3_alg».proof.Proof.K2Frame_W
import proofs.«413591_j8993661518313_3_alg».proof.Proof.Gen.Kernel.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ)

abbrev W0 : Dev nD → Valuation τ sig (Elt F) := fun c b => m (c, b)
abbrev W1 : Dev nD → Valuation τ sig (Elt F) := fun c => StableHlo.after hostOps0 (W0 m c)
abbrev W2 : Dev nD → Valuation τ sig (Elt F) := fun c => StableHlo.after hostOps0_1 (W1 m c)
abbrev W3 : Dev nD → Valuation τ sig (Elt F) := fun c => StableHlo.after hostOps0_2 (W2 m c)
abbrev W4 : Dev nD → Valuation τ sig (Elt F) := fun c => StableHlo.after hostOps0_3 (W3 m c)
abbrev W5 : Dev nD → Valuation τ sig (Elt F) := fun c => StableHlo.after hostOps0_4 (W4 m c)
abbrev V5 : (c : Dev nD) → (b : Ref sig .tc) → Buf (Elt F) ((c : Thread nD τ).loc b) := fun c b => W5 m c b
def W6 (c : Dev nD) : Valuation τ sig (Elt F) :=
  Pipeline.withArrays spec0 c (W5 m c) fun w => (dat0 (V5 m) c).arrAt w cfg0.N
theorem W6_arr (c : Dev nD) (w : Fin cfg0.W) :
    W6 m c (Proc.devRef .tc (Pipeline.arrRef spec0 w)) = (dat0 (V5 m) c).arrAt w cfg0.N :=
  Pipeline.withArrays_arr spec0 launch0.win.arr_inj c _ _ w
theorem W6_of_ne (c : Dev nD) (b : Ref sig .tc) (hb : ∀ w, Pipeline.arrRef spec0 w ≠ b) :
    W6 m c (Proc.devRef .tc b) = W5 m c (Proc.devRef .tc b) :=
  Pipeline.withArrays_of_ne spec0 c _ _ b hb
abbrev W7 : Dev nD → Valuation τ sig (Elt F) := fun c => StableHlo.after hostOps1 (W6 m c)
abbrev V7 : (c : Dev nD) → (b : Ref sig .tc) → Buf (Elt F) ((c : Thread nD τ).loc b) := fun c b => W7 m c b
def W8 (c : Dev nD) : Valuation τ sig (Elt F) :=
  Pipeline.withArrays spec1 c (W7 m c) fun w => (dat1 (V7 m) c).arrAt w cfg1.N
theorem W8_arr (c : Dev nD) (w : Fin cfg1.W) :
    W8 m c (Proc.devRef .tc (Pipeline.arrRef spec1 w)) = (dat1 (V7 m) c).arrAt w cfg1.N :=
  Pipeline.withArrays_arr spec1 launch1.win.arr_inj c _ _ w
theorem W8_of_ne (c : Dev nD) (b : Ref sig .tc) (hb : ∀ w, Pipeline.arrRef spec1 w ≠ b) :
    W8 m c (Proc.devRef .tc b) = W7 m c (Proc.devRef .tc b) :=
  Pipeline.withArrays_of_ne spec1 c _ _ b hb
abbrev W9 : Dev nD → Valuation τ sig (Elt F) := fun c => StableHlo.after hostOps2 (W8 m c)
abbrev V9 : (c : Dev nD) → (b : Ref sig .tc) → Buf (Elt F) ((c : Thread nD τ).loc b) := fun c b => W9 m c b
def W10 (c : Dev nD) : Valuation τ sig (Elt F) :=
  Pipeline.withArrays spec2 c (W9 m c) fun w => (dat2 (V9 m) c).arrAt w cfg2.N
theorem W10_arr (c : Dev nD) (w : Fin cfg2.W) :
    W10 m c (Proc.devRef .tc (Pipeline.arrRef spec2 w)) = (dat2 (V9 m) c).arrAt w cfg2.N :=
  Pipeline.withArrays_arr spec2 launch2.win.arr_inj c _ _ w
abbrev W11 : Dev nD → Valuation τ sig (Elt F) := fun c => StableHlo.after hostOps3 (W10 m c)

/-- A region leaves as entered every buffer that is none of its output arrays: an input array ends as it began. -/
theorem withArrays_keep {cfg : Pipeline.Cfg sig Λ₀} (hinj : Function.Injective (Pipeline.arrRef cfg.spec)) (c : Dev nD)
    (W : Valuation τ sig (Elt F)) (d : Dat τ (Elt F) Unit ℕ (UR sig nD τ) ℕ cfg c)
    (hA : ∀ w, d.A w = W (Proc.devRef .tc (Pipeline.arrRef cfg.spec w))) (b : Ref sig .tc)
    (h : ∀ w, Pipeline.arrRef cfg.spec w = b → (cfg.win w).isOut = false) :
    Pipeline.withArrays cfg.spec c W (fun w => d.arrAt w cfg.N) (Proc.devRef .tc b) = W (Proc.devRef .tc b) := by
  by_cases hb : ∃ w, Pipeline.arrRef cfg.spec w = b
  · obtain ⟨w, rfl⟩ := hb
    exact (Pipeline.withArrays_arr _ hinj c _ _ w).trans ((d.arrAt_in w (h w rfl) _).trans (hA w))
  · exact Pipeline.withArrays_of_ne _ c _ _ b fun w e => hb ⟨w, e⟩

abbrev mainArgs : List (Ref sig .tc) :=
  [main_arg0, main_arg1, main_arg2, main_arg3, main_arg4, main_arg5, main_arg6, main_arg7, main_arg8]

/-- Nothing in the program writes an argument. -/
theorem mainArgs_kept : ∀ b ∈ mainArgs, ¬ (Proc.devRef .tc b : DevRef τ sig).isScoped ∧ b ∉ hostOps0_W ∧ b ∉ hostOps0_1_W
    ∧ b ∉ hostOps0_2_W ∧ b ∉ hostOps0_3_W ∧ b ∉ hostOps0_4_W ∧ b ∉ hostOps1_W ∧ b ∉ hostOps2_W ∧ b ∉ hostOps3_W
    ∧ (∀ w, Pipeline.arrRef spec0 w = b → (cfg0.win w).isOut = false)
    ∧ (∀ w, Pipeline.arrRef spec1 w = b → (cfg1.win w).isOut = false)
    ∧ ∀ w, Pipeline.arrRef spec2 w = b → (cfg2.win w).isOut = false := by decide

/-- An argument ends at its launch contents: each stretch and each region in turn leaves it as it was. -/
theorem W11_arg (c : Dev nD) (b : Ref sig .tc) (hb : b ∈ mainArgs) : W11 m c (Proc.devRef .tc b) = m ((c : Thread nD τ).loc b) := by
  obtain ⟨-, a0, a1, a2, a3, a4, a5, a6, a7, h0, h1, h2⟩ := mainArgs_kept b hb
  exact (StableHlo.after_of_writes_sub hostOps3 _ hostOps3_writes a7).trans <|
    (withArrays_keep launch2.win.arr_inj c _ _ (A_eq2 (V9 m) c) b h2).trans <|
    (StableHlo.after_of_writes_sub hostOps2 _ hostOps2_writes a6).trans <|
    (withArrays_keep launch1.win.arr_inj c _ _ (A_eq1 (V7 m) c) b h1).trans <|
    (StableHlo.after_of_writes_sub hostOps1 _ hostOps1_writes a5).trans <|
    (withArrays_keep launch0.win.arr_inj c _ _ (A_eq0 (V5 m) c) b h0).trans <|
    (StableHlo.after_of_writes_sub hostOps0_4 _ hostOps0_4_writes a4).trans <|
    (StableHlo.after_of_writes_sub hostOps0_3 _ hostOps0_3_writes a3).trans <|
    (StableHlo.after_of_writes_sub hostOps0_2 _ hostOps0_2_writes a2).trans <|
    (StableHlo.after_of_writes_sub hostOps0_1 _ hostOps0_1_writes a1).trans <|
    StableHlo.after_of_writes_sub hostOps0 _ hostOps0_writes a0

abbrev adm : (p : Fin 3) → (pcfgs (F := F) p).Adm := fun p => (cfgs p).toPCfg_adm
abbrev 𝒱₀ : Variants := Variants.none
abbrev L : GSem nD τ sig → Finset Unit := fun _ => ∅
abbrev lv : GSem nD τ sig → Unit → ℕ := fun _ _ => 0
abbrev R (c : Dev nD) : sProp 𝕄 := iprop((∃ r, prngReg c r) ∗ ∃ W, owes (c : Thread nD τ) (0 : CellTallies nD τ sig Unit) W)

def pdats : (p : Fin 3) → (c : Dev nD) → Dat τ (Elt F) Unit ℕ (UR sig nD τ) ℕ (Pipeline.pin (pcfgs (F := F)) adm p) c
  | ⟨0, _⟩ => dat0 (V5 m)
  | ⟨1, _⟩ => dat1 (V7 m)
  | ⟨2, _⟩ => dat2 (V9 m)

set_option backward.isDefEq.respectTransparency.types false in
/-- A region as a segment: from the contents `Wi` to `Wi` with the region's arrays at their final contents. -/
def regionSeg (pd : (p : Fin 3) → (c : Dev nD) → Dat τ (Elt F) Unit ℕ (UR sig nD τ) ℕ (Pipeline.pin (pcfgs (F := F)) adm p) c)
    (p : Fin 3) (lf : Pipeline.LaunchFacts (nD := nD) (τ := τ) cfgs p) (Wi : Dev nD → Valuation τ sig (Elt F))
    (hq : ∀ c w, (pd p c).q w = fullShare) (hz : ∀ c t, (pd p c).owed t = 0) (hR : ∀ c t, (pd p c).recorded t = Set.univ)
    (hA : ∀ c w, (pd p c).A w = Wi c (Proc.devRef .tc (Pipeline.arrRef (cfgs p).spec w)))
    (hb : ∀ c, BodyObligation (pd p c) defs₀ Variants.none () Set.univ)
    (hi : ∀ c, Pipeline.ΦA (cfgs p).spec c ⊢ (pd p c).Φ 0)
    (ho : ∀ c, (pd p c).Φ (Fin.last (cfgs p).N) ⊢ Pipeline.ΦA (cfgs p).spec c) :
    Pipeline.RegionSeg (pcfgs (F := F)) adm pd () defs₀ 𝒱₀ L lv p where
  win := lf.win.to₀
  block_pos := lf.block_pos
  stage_whole := lf.stage_whole
  K := PEmpty
  osem k := k.elim
  ho := Pipeline.OwnSemFacts.none _
  hbody c := (hb c).loose
  hwaits := Pipeline.hwaits_of_owed_zero _ _ _ _ L lv p hz
  pre c := iprop(StableHlo.held (c : Thread nD τ) (Pipeline.ucRefs τ sig) (Wi c) ∗ R c)
  post c := iprop(StableHlo.held (c : Thread nD τ) (Pipeline.ucRefs τ sig)
    (Pipeline.withArrays (cfgs p).spec c (Wi c) fun w => (pd p c).arrAt w (cfgs p).N) ∗ R c)
  X c := iprop(∃ r, prngReg c r)
  Y c := iprop(∃ r, prngReg c r)
  Z c := Pipeline.unscopedRest (Ix := Unit) (Name := ℕ) (U := UR sig nD τ) (Lvl := ℕ) (cfgs p).spec c fun b => Wi c b
  hentry c := by
    rw [Pipeline.ownSems0_none]
    have hsplit := Pipeline.arrays_of_unscopedBufs (p := p) (pcfgs (F := F)) adm pd lf.win lf.arr_whole c
      ((pd p c).share_full (hq c)) (fun b => Wi c b) (hA c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      rw [hz c 0]
      icases HO with ⟨%W, HO⟩; iexists W; isplitr; · ipureintro; exact fun _ _ => Or.inl (hR c 0 ▸ trivial)
      iexact HO
    isplitl [Hp]; · iexact Hp
    iexact Hrest
  hin c := by
    refine .trans ?_ (hi c)
    unfold Pipeline.ΦA
    iintro ⟨Hp, -, Hr⟩
    isplitl [Hr]; · iexact Hr
    iexact Hp
  hout c := by
    rw [Pipeline.ownSems0_none]
    refine (ho c).trans ?_
    unfold Pipeline.ΦA
    iintro ⟨Hr, Hp⟩
    isplitl [Hp]; · iexact Hp
    isplitr; · iempintro
    iexact Hr
  hexit c := by
    have hjoin := Pipeline.unscopedBufs_of_arrays (p := p) (pcfgs (F := F)) adm (Ix := Unit) (Name := ℕ) (U := UR sig nD τ) (Lvl := ℕ)
      lf.win lf.arr_whole c pd ((pd p c).share_full (hq c)) (fun b => Wi c b)
      (fun b => Pipeline.withArrays (cfgs p).spec c (Wi c) (fun w => (pd p c).arrAt w (cfgs p).N) b) ((pd p c).arrAt · (cfgs p).N)
      (fun w => (Pipeline.withArrays_arr _ lf.win.arr_inj c (Wi c) (fun w => (pd p c).arrAt w (cfgs p).N) w).symm)
      fun b hb => Pipeline.withArrays_of_ne _ c _ _ b fun w e => hb (Finset.mem_image.mpr ⟨w, Finset.mem_univ _, e⟩)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    rw [hz c (Fin.last _)]
    icases HO with ⟨%W, -, HO⟩; iexists W; iexact HO

abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W11 m c) ∗ ∃ r, prngReg c r)

set_option backward.isDefEq.respectTransparency.types false in
abbrev segs : List (Pipeline.Seg (pcfgs (F := F)) adm (pdats m) () defs₀ 𝒱₀ L lv) :=
  [ .host (hseg hostOps0 hostOps0_sub hostOps0_fresh (W0 m)),
    .host (hseg hostOps0_1 hostOps0_1_sub hostOps0_1_fresh (W1 m)),
    .host (hseg hostOps0_2 hostOps0_2_sub hostOps0_2_fresh (W2 m)),
    .host (hseg hostOps0_3 hostOps0_3_sub hostOps0_3_fresh (W3 m)),
    .host (hseg hostOps0_4 hostOps0_4_sub hostOps0_4_fresh (W4 m)),
    .region (regionSeg (pdats m) 0 launch0 (W5 m) (fun _ _ => rfl) (fun _ _ => rfl) (fun _ _ => rfl) (A_eq0 (V5 m))
      (body_obligation0 (V5 m)) (hin0 (V5 m)) (hout0 (V5 m))),
    .host (hseg hostOps1 hostOps1_sub hostOps1_fresh (W6 m)),
    .region (regionSeg (pdats m) 1 launch1 (W7 m) (fun _ _ => rfl) (fun _ _ => rfl) (fun _ _ => rfl) (A_eq1 (V7 m))
      (body_obligation1 (V7 m)) (hin1 (V7 m)) (hout1 (V7 m))),
    .host (hseg hostOps2 hostOps2_sub hostOps2_fresh (W8 m)),
    .region (regionSeg (pdats m) 2 launch2 (W9 m) (fun _ _ => rfl) (fun _ _ => rfl) (fun _ _ => rfl) (A_eq2 (V9 m))
      (body_obligation2 (V9 m)) (hin2 (V9 m)) (hout2 (V9 m))),
    .host (hseg hostOps3 hostOps3_sub hostOps3_fresh (W10 m)) ]

set_option backward.isDefEq.respectTransparency.types false in
theorem run_all (ρ : Dev nD → PrngReg) :
    θ_run defs (onTc (τ := τ) (main (F := F))) ⟨m, fun _ => 0, ρ⟩
      (fun r => ∀ c : Dev nD, ∀ b ∈ Pipeline.ucRefs τ sig, r.2.mem (((c : Thread nD τ)).1, b) = W11 m c b) :=
  Pipeline.θ_run_regions_kit (pcfgs (F := F)) adm (pdats m) () cellOf_inj emb₁ defs₀ 𝒱₀ L lv m ρ main (segs m)
    (fun c Q => by
      rewrite [main_chain c, Pipeline.Seg.run_eq_chain]
      exact .rfl)
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun _ => .rfl, fun _ => .rfl, fun _ => .rfl,
      fun _ => .rfl, fun _ => .rfl, fun _ => .rfl, fun _ => .rfl,
      fun _ => sep_assoc'⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W11 m c b)
    (hfin := fun c s' => by
      iintro ⟨⟨Hh, -⟩, HSI⟩
      unfold StableHlo.held
      imodintro
      iapply (pointsTo_read_all (Pipeline.ucRefs τ sig) (fun b => (((c : Thread nD τ)).1, b)) (W11 m c) s')
      isplitl [Hh] <;> iassumption)
    (hQ := fun s h c => h c)
theorem frame (ρ : Dev nD → PrngReg) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun r h c =>
    have f (b : Ref sig .tc) (hb : b ∈ mainArgs) : r.2.mem ((c.tc : Thread nD τ).loc b) = m ((c.tc : Thread nD τ).loc b) :=
      (h c _ (mem_uc b (mainArgs_kept b hb).1)).trans (W11_arg m c b hb)
    ⟨f main_arg0 (by decide), f main_arg1 (by decide), f main_arg2 (by decide), f main_arg3 (by decide), f main_arg4 (by decide),
     f main_arg5 (by decide), f main_arg6 (by decide), f main_arg7 (by decide), f main_arg8 (by decide)⟩)
    (run_all m ρ)

end Cert.Kernel.Hand

end
-- ==== Proof.RefRun.lean ====
import proofs.«413591_j8993661518313_3_alg».proof.Proof.Gen.ReferenceIdeal.Run
-- ==== Proof.Spec.lean ====
import Idealize.ShloMosaic.PureOps.Ideal

noncomputable section

open scoped BigOperators

namespace Cert.Spec

open Idealize.ShloMosaic

def eps : EReal := Ideal.ofBits .f32 0x3727C5AC#32

def lin {n k c : ℕ} (X : Fin n → Fin k → EReal) (W : Fin k → Fin c → EReal) (b : Fin c → EReal) (e : Fin n) (j : Fin c) : EReal :=
  (∑ κ : Fin k, X e κ * W κ j) + b j

def ssum {n c : ℕ} (sg : Fin n → Fin 128) (x : Fin n → Fin c → EReal) (g : Fin 128) (j : Fin c) : EReal :=
  ∑ e ∈ Finset.univ.filter (fun e : Fin n => sg e = g), x e j

def count {n : ℕ} (sg : Fin n → Fin 128) (g : Fin 128) : EReal :=
  ∑ _e ∈ Finset.univ.filter (fun e : Fin n => sg e = g), (1 : EReal)
def cnt {n : ℕ} (sg : Fin n → Fin 128) (g : Fin 128) : EReal := max (count sg g) 1

def mean {n c : ℕ} (sg : Fin n → Fin 128) (x : Fin n → Fin c → EReal) (g : Fin 128) (j : Fin c) : EReal :=
  Ideal.div (ssum sg x g j) (cnt sg g)

def cen {n c : ℕ} (sg : Fin n → Fin 128) (x : Fin n → Fin c → EReal) (e : Fin n) (j : Fin c) : EReal :=
  x e j - mean sg x (sg e) j
def varR {n c : ℕ} (sg : Fin n → Fin 128) (x : Fin n → Fin c → EReal) (g : Fin 128) (j : Fin c) : EReal :=
  Ideal.div (ssum sg (fun e j => cen sg x e j * cen sg x e j) g j) (cnt sg g)
def normR {n c : ℕ} (sg : Fin n → Fin 128) (x : Fin n → Fin c → EReal) (e : Fin n) (j : Fin c) : EReal :=
  cen sg x e j * Ideal.rsqrt (varR sg x (sg e) j + eps)

def varK (m2 mu : EReal) : EReal := max (m2 - mu * mu) 0
def scaleOf (m2 mu : EReal) : EReal := Ideal.rsqrt (varK m2 mu + eps)
def shiftOf (m2 mu : EReal) : EReal := mu * scaleOf m2 mu

def outR {n : ℕ} (X : Fin n → Fin 128 → EReal) (sg : Fin n → Fin 128)
    (W1 : Fin 128 → Fin 256 → EReal) (b1 : Fin 256 → EReal) (W2 : Fin 256 → Fin 64 → EReal) (b2 : Fin 64 → EReal)
    (W3 : Fin 64 → EReal) (b3 : EReal) (e : Fin n) : EReal :=
  let h1 : Fin n → Fin 256 → EReal := fun e j => max (normR sg (lin X W1 b1) e j) 0
  let h2 : Fin n → Fin 64 → EReal := fun e j => max (normR sg (lin h1 W2 b2) e j) 0
  (∑ κ : Fin 64, h2 e κ * W3 κ) + b3

def tileOf (c2 : Fin 2) (i : Fin 196) : Fin 392 := ⟨c2.val * 196 + i.val, by have := c2.isLt; have := i.isLt; omega⟩

def ohw (s : BitVec 32) (g : Fin 128) : EReal := if BitVec.ofNat 32 g.val = s then 1 else 0

def hilo (w x : Fin 2048 → EReal) : EReal := (∑ r : Fin 2048, w r * x r) + (∑ r : Fin 2048, w r * (x r - x r))

def kstat {c : ℕ} (segt : Fin 392 → Fin 2048 → BitVec 32) (x : Fin 392 → Fin 2048 → Fin c → EReal)
    (c2 : Fin 2) (g : Fin 128) (j : Fin c) : EReal :=
  ∑ i : Fin 196, hilo (fun r => ohw (segt (tileOf c2 i) r) g) (fun r => x (tileOf c2 i) r j)
def kstat1 {c : ℕ} (segt : Fin 392 → Fin 2048 → BitVec 32) (x : Fin 392 → Fin 2048 → Fin c → EReal)
    (c2 : Fin 2) (g : Fin 128) (j : Fin c) : EReal :=
  ∑ i : Fin 196, ∑ r : Fin 2048, ohw (segt (tileOf c2 i) r) g * x (tileOf c2 i) r j
def kcount (segt : Fin 392 → Fin 2048 → BitVec 32) (c2 : Fin 2) (g : Fin 128) : EReal :=
  ∑ i : Fin 196, ∑ r : Fin 2048, ohw (segt (tileOf c2 i) r) g

def ktab {c : ℕ} (tab : Fin 128 → Fin c → EReal) (s : BitVec 32) (j : Fin c) : EReal :=
  ∑ g : Fin 128, ohw s g * tab g j

def linT {k c : ℕ} (X : Fin 392 → Fin 2048 → Fin k → EReal) (W : Fin k → Fin c → EReal) (b : Fin c → EReal)
    (t : Fin 392) (r : Fin 2048) (j : Fin c) : EReal :=
  (∑ κ : Fin k, X t r κ * W κ j) + b j

def cntK (c0 c1 : EReal) : EReal := max (c0 + c1) 1
def scaleT (cn s0 s1 q0 q1 : EReal) : EReal := scaleOf (Ideal.div (q0 + q1) cn) (Ideal.div (s0 + s1) cn)
def shiftT (cn s0 s1 q0 q1 : EReal) : EReal := shiftOf (Ideal.div (q0 + q1) cn) (Ideal.div (s0 + s1) cn)

def actK (x sc sh : EReal) : EReal := max (x * sc - sh) 0

def outT (Xp : Fin 392 → Fin 2048 → Fin 128 → EReal) (segt : Fin 392 → Fin 2048 → BitVec 32)
    (W1 : Fin 128 → Fin 256 → EReal) (b1 : Fin 256 → EReal) (W2 : Fin 256 → Fin 64 → EReal) (b2 : Fin 64 → EReal)
    (W3 : Fin 64 → EReal) (b3 : EReal) (t : Fin 392) (r : Fin 2048) : EReal :=
  let l1 := linT Xp W1 b1
  let cn : Fin 128 → EReal := fun g => cntK (kcount segt 0 g) (kcount segt 1 g)
  let sc1 : Fin 128 → Fin 256 → EReal := fun g j => scaleT (cn g) (kstat segt l1 0 g j) (kstat segt l1 1 g j)
      (kstat segt (fun t r j => l1 t r j * l1 t r j) 0 g j) (kstat segt (fun t r j => l1 t r j * l1 t r j) 1 g j)
  let sh1 : Fin 128 → Fin 256 → EReal := fun g j => shiftT (cn g) (kstat segt l1 0 g j) (kstat segt l1 1 g j)
      (kstat segt (fun t r j => l1 t r j * l1 t r j) 0 g j) (kstat segt (fun t r j => l1 t r j * l1 t r j) 1 g j)
  let a1 : Fin 392 → Fin 2048 → Fin 256 → EReal := fun t r j => actK (l1 t r j) (ktab sc1 (segt t r) j) (ktab sh1 (segt t r) j)
  let l2 := linT a1 W2 b2
  let sc2 : Fin 128 → Fin 64 → EReal := fun g j => scaleT (cn g) (kstat1 segt l2 0 g j) (kstat1 segt l2 1 g j)
      (kstat segt (fun t r j => l2 t r j * l2 t r j) 0 g j) (kstat segt (fun t r j => l2 t r j * l2 t r j) 1 g j)
  let sh2 : Fin 128 → Fin 64 → EReal := fun g j => shiftT (cn g) (kstat1 segt l2 0 g j) (kstat1 segt l2 1 g j)
      (kstat segt (fun t r j => l2 t r j * l2 t r j) 0 g j) (kstat segt (fun t r j => l2 t r j * l2 t r j) 1 g j)
  let a2 : Fin 392 → Fin 2048 → Fin 64 → EReal := fun t r j => actK (l2 t r j) (ktab sc2 (segt t r) j) (ktab sh2 (segt t r) j)
  (∑ κ : Fin 64, a2 t r κ * W3 κ) + b3

end Cert.Spec

end
-- ==== Proof.LibRows.lean ====
import Idealize.ShloMosaic.Lib.ValueIdx
import Idealize.ShloMosaic.PureOps.Ideal

noncomputable section

open scoped BigOperators

namespace Cert.LibRows

open Idealize.ShloMosaic Idealize.ShloMosaic.ValueIdx

theorem gather_siIdx {N C E : Nat} (d : GatherDims ⟨2, ![N, C]⟩ ⟨2, ![E, 1]⟩ ⟨2, ![E, C]⟩)
    (hoff : d.offsetDims = [1]) (hsim : d.startIndexMap = [0]) (hivd : d.indexVectorDim = 1)
    (e : Fin E) (q : Fin C) (c : Fin d.startIndexMap.length) :
    d.siIdx (ix2 e q) c = ix2 e (0 : Fin 1) := by
  obtain ⟨od, cd, ob, sb, sm, iv, ss, wf⟩ := d
  dsimp only at hoff hsim hivd c ⊢
  subst hoff hsim hivd
  funext b
  apply Fin.ext
  match b with
  | ⟨0, _⟩ => rfl
  | ⟨1, _⟩ => exact Nat.lt_one_iff.mp c.isLt

theorem gather_operandIdx_row {N C E w : Nat} (d : GatherDims ⟨2, ![N, C]⟩ ⟨2, ![E, 1]⟩ ⟨2, ![E, C]⟩)
    (hoff : d.offsetDims = [1]) (hcoll : d.collapsedSliceDims = [0]) (hob : d.operandBatchingDims = [])
    (hsim : d.startIndexMap = [0]) (hivd : d.indexVectorDim = 1)
    (idx : IVec ⟨2, ![E, 1]⟩ w) (e : Fin E) (q : Fin C) :
    (d.operandIdx (ix2 e q) idx (0 : Fin 2)).val = min (idx (ix2 e (0 : Fin 1))).toInt.toNat (N - 1) := by
  have hsl : d.sliceSizes 0 = 1 := d.slice_collapsed 0 (by rw [hcoll]; exact List.mem_singleton.mpr rfl)
  have h0 : (0 : Fin 2) ∈ d.startIndexMap := by rw [hsim]; exact List.mem_singleton.mpr rfl
  have hc : (0 : Fin 2) ∉ d.sKept := fun h => ((d.mem_sKept 0).mp h).1 (by rw [hcoll]; exact List.mem_singleton.mpr rfl)
  have hb : (0 : Fin 2) ∉ d.operandBatchingDims := by rw [hob]; exact List.not_mem_nil
  show d.start (ix2 e q) idx 0 + d.batchCoord (ix2 e q) 0 + d.offCoord (ix2 e q) 0 = _
  rw [d.batchCoord_eq_zero _ _ hb, d.offCoord_eq_zero _ _ hc, Nat.add_zero]
  unfold GatherDims.start
  rw [dif_pos h0, gather_siIdx d hoff hsim hivd, hsl]
  rfl

theorem gather_operandIdx_col {N C E w : Nat} (d : GatherDims ⟨2, ![N, C]⟩ ⟨2, ![E, 1]⟩ ⟨2, ![E, C]⟩)
    (hoff : d.offsetDims = [1]) (hcoll : d.collapsedSliceDims = [0]) (hob : d.operandBatchingDims = [])
    (hsim : d.startIndexMap = [0])
    (idx : IVec ⟨2, ![E, 1]⟩ w) (e : Fin E) (q : Fin C) :
    (d.operandIdx (ix2 e q) idx (1 : Fin 2)).val = q.val := by
  obtain ⟨od, cd, ob, sb, sm, iv, ss, wf⟩ := d
  dsimp only at hoff hcoll hob hsim
  subst hoff hcoll hob hsim
  have h1 : (1 : Fin 2) ∉ ([0] : List (Fin 2)) := by decide
  simp only [GatherDims.operandIdx]
  rw [GatherDims.batchCoord_eq_zero _ _ _ List.not_mem_nil]
  unfold GatherDims.start GatherDims.offCoord
  rw [dif_neg h1, dif_pos ((GatherDims.mem_sKept _ _).mpr ⟨h1, List.not_mem_nil⟩), Nat.zero_add]
  rfl

theorem gather_rows_apply {α : Type} {N C E w : Nat} (d : GatherDims ⟨2, ![N, C]⟩ ⟨2, ![E, 1]⟩ ⟨2, ![E, C]⟩)
    (hoff : d.offsetDims = [1]) (hcoll : d.collapsedSliceDims = [0]) (hob : d.operandBatchingDims = [])
    (hsim : d.startIndexMap = [0]) (hivd : d.indexVectorDim = 1)
    (x : (⟨2, ![N, C]⟩ : Shape).Idx → α) (idx : IVec ⟨2, ![E, 1]⟩ w) (e : Fin E) (q : Fin C) (hN : 0 < N) :
    Host.gather d x idx (ix2 e q)
      = x (ix2 (⟨min (idx (ix2 e (0 : Fin 1))).toInt.toNat (N - 1), by omega⟩ : Fin N) q) := by
  unfold Host.gather
  congr 1
  funext a
  apply Fin.ext
  match a with
  | ⟨0, _⟩ => exact gather_operandIdx_row d hoff hcoll hob hsim hivd idx e q
  | ⟨1, _⟩ => exact gather_operandIdx_col d hoff hcoll hob hsim idx e q

theorem scatter_siIdx {N C E : Nat} (d : ScatterDims ⟨2, ![N, C]⟩ ⟨2, ![E, 1]⟩ ⟨2, ![E, C]⟩)
    (huw : d.updateWindowDims = [1]) (hsd : d.scatterDimsToOperandDims = [0]) (hivd : d.indexVectorDim = 1)
    (e : Fin E) (q' : Fin C) (c : Fin d.scatterDimsToOperandDims.length) :
    d.siIdx (ix2 e q') c = ix2 e (0 : Fin 1) := by
  obtain ⟨uw, iw, sd, iv, wf⟩ := d
  dsimp only at huw hsd hivd c ⊢
  subst huw hsd hivd
  funext b
  apply Fin.ext
  match b with
  | ⟨0, _⟩ => rfl
  | ⟨1, _⟩ => exact Nat.lt_one_iff.mp c.isLt

theorem scatter_start_row {N C E w : Nat} (d : ScatterDims ⟨2, ![N, C]⟩ ⟨2, ![E, 1]⟩ ⟨2, ![E, C]⟩)
    (huw : d.updateWindowDims = [1]) (hsd : d.scatterDimsToOperandDims = [0]) (hivd : d.indexVectorDim = 1)
    (idx : IVec ⟨2, ![E, 1]⟩ w) (e : Fin E) (q' : Fin C) :
    d.start (ix2 e q') idx (0 : Fin 2) = (idx (ix2 e (0 : Fin 1))).toInt := by
  have h0 : (0 : Fin 2) ∈ d.scatterDimsToOperandDims := by rw [hsd]; exact List.mem_singleton.mpr rfl
  unfold ScatterDims.start
  rw [dif_pos h0, scatter_siIdx d huw hsd hivd]

theorem scatter_start_col {N C E w : Nat} (d : ScatterDims ⟨2, ![N, C]⟩ ⟨2, ![E, 1]⟩ ⟨2, ![E, C]⟩)
    (hsd : d.scatterDimsToOperandDims = [0])
    (idx : IVec ⟨2, ![E, 1]⟩ w) (j : (⟨2, ![E, C]⟩ : Shape).Idx) :
    d.start j idx (1 : Fin 2) = 0 := by
  have h1 : (1 : Fin 2) ∉ d.scatterDimsToOperandDims := by
    rw [hsd]; exact (show (1 : Fin 2) ∉ ([0] : List (Fin 2)) by decide)
  unfold ScatterDims.start
  rw [dif_neg h1]

theorem scatter_window_row {N C E : Nat} (d : ScatterDims ⟨2, ![N, C]⟩ ⟨2, ![E, 1]⟩ ⟨2, ![E, C]⟩)
    (hiw : d.insertedWindowDims = [0]) (j : (⟨2, ![E, C]⟩ : Shape).Idx) :
    d.window j (0 : Fin 2) = 0 := by
  have h0 : (0 : Fin 2) ∉ d.sKept := by
    simp [ScatterDims.sKept, Shape.kept, List.mem_filter, hiw]
  unfold ScatterDims.window
  rw [dif_neg h0]

theorem scatter_window_col {N C E : Nat} (d : ScatterDims ⟨2, ![N, C]⟩ ⟨2, ![E, 1]⟩ ⟨2, ![E, C]⟩)
    (huw : d.updateWindowDims = [1]) (hiw : d.insertedWindowDims = [0]) (e : Fin E) (q' : Fin C) :
    d.window (ix2 e q') (1 : Fin 2) = q'.val := by
  have h1 : (1 : Fin 2) ∈ d.sKept := by
    simp [ScatterDims.sKept, Shape.kept, List.mem_filter, hiw]
  obtain ⟨uw, iw, sd, iv, wf⟩ := d
  dsimp only at huw hiw
  subst huw hiw
  unfold ScatterDims.window
  rw [dif_pos h1]
  rfl

theorem scatter_resultIdx_iff {N C E w : Nat} (d : ScatterDims ⟨2, ![N, C]⟩ ⟨2, ![E, 1]⟩ ⟨2, ![E, C]⟩)
    (huw : d.updateWindowDims = [1]) (hiw : d.insertedWindowDims = [0]) (hsd : d.scatterDimsToOperandDims = [0])
    (hivd : d.indexVectorDim = 1) (idx : IVec ⟨2, ![E, 1]⟩ w) (e : Fin E) (q' : Fin C) (n : Fin N) (q : Fin C) :
    d.resultIdx? (ix2 e q') idx = some (ix2 n q)
      ↔ ((idx (ix2 e (0 : Fin 1))).toInt = (n.val : ℤ) ∧ q' = q) := by
  have hs0 := scatter_start_row d huw hsd hivd idx e q'
  have hs1 := scatter_start_col d hsd idx (ix2 e q')
  have hw0 := scatter_window_row d hiw (ix2 e q')
  have hw1 := scatter_window_col d huw hiw e q'
  have hN : (⟨2, ![N, C]⟩ : Shape).size (0 : Fin 2) = N := rfl
  have hC : (⟨2, ![N, C]⟩ : Shape).size (1 : Fin 2) = C := rfl
  have hn := n.isLt
  have hq' := q'.isLt
  unfold ScatterDims.resultIdx?
  constructor
  · intro h
    split at h
    · next hin =>

      have hf := Option.some.inj h
      have c0 : (d.start (ix2 e q') idx 0 + d.window (ix2 e q') 0).toNat = n.val :=
        congrArg (fun f => (f (0 : Fin 2)).val) hf
      have c1 : (d.start (ix2 e q') idx 1 + d.window (ix2 e q') 1).toNat = q.val :=
        congrArg (fun f => (f (1 : Fin 2)).val) hf
      have b0 := hin 0
      rw [hs0, hw0] at c0 b0
      rw [hs1, hw1] at c1
      exact ⟨by omega, Fin.ext (by omega)⟩
    · exact absurd h (by simp)
  · rintro ⟨hi, rfl⟩
    have p0 : 0 ≤ d.start (ix2 e q') idx 0 + d.window (ix2 e q') 0
        ∧ d.start (ix2 e q') idx 0 + d.window (ix2 e q') 0 < (⟨2, ![N, C]⟩ : Shape).size (0 : Fin 2) := by
      rw [hs0, hw0, hi, hN]; omega
    have p1 : 0 ≤ d.start (ix2 e q') idx 1 + d.window (ix2 e q') 1
        ∧ d.start (ix2 e q') idx 1 + d.window (ix2 e q') 1 < (⟨2, ![N, C]⟩ : Shape).size (1 : Fin 2) := by
      rw [hs1, hw1, hC]; omega
    rw [dif_pos (Fin.forall_fin_two.mpr ⟨p0, p1⟩)]
    congr 1
    funext a
    apply Fin.ext
    match a with
    | ⟨0, _⟩ =>
      show (d.start (ix2 e q') idx 0 + d.window (ix2 e q') 0).toNat = n.val
      rw [hs0, hw0, hi]; omega
    | ⟨1, _⟩ =>
      show (d.start (ix2 e q') idx 1 + d.window (ix2 e q') 1).toNat = q'.val
      rw [hs1, hw1]; omega

theorem scatterAdd_rows_apply {N C E w : Nat} (d : ScatterDims ⟨2, ![N, C]⟩ ⟨2, ![E, 1]⟩ ⟨2, ![E, C]⟩)
    (huw : d.updateWindowDims = [1]) (hiw : d.insertedWindowDims = [0]) (hsd : d.scatterDimsToOperandDims = [0])
    (hivd : d.indexVectorDim = 1)
    (x : (⟨2, ![N, C]⟩ : Shape).Idx → EReal) (idx : IVec ⟨2, ![E, 1]⟩ w)
    (upd : (⟨2, ![E, C]⟩ : Shape).Idx → EReal) (n : Fin N) (q : Fin C) :
    (Host.scatterAdd (F := Ideal) (φ := .f32) d x idx upd : (⟨2, ![N, C]⟩ : Shape).Idx → EReal) (ix2 n q)
      = x (ix2 n q)
        + ∑ e ∈ Finset.univ.filter (fun e : Fin E => (idx (ix2 e (0 : Fin 1))).toInt = (n.val : ℤ)), upd (ix2 e q) := by

  have key : ∀ j : (⟨2, ![E, C]⟩ : Shape).Idx, d.resultIdx? j idx = some (ix2 n q)
      ↔ ((idx (ix2 (j 0) (0 : Fin 1))).toInt = (n.val : ℤ) ∧ j 1 = q) := fun j => by
    have := scatter_resultIdx_iff d huw hiw hsd hivd idx (j 0) (j 1) n q
    rw [congrArg (fun k => d.resultIdx? k idx) (eq_ix2 j)]
    exact this

  have back : ∀ j : (⟨2, ![E, C]⟩ : Shape).Idx, d.resultIdx? j idx = some (ix2 n q) → ix2 (j 0) q = j := fun j hj => by
    rw [← ((key j).mp hj).2]; exact (eq_ix2 j).symm
  show x (ix2 n q) + ∑ j ∈ Finset.univ.filter (fun j => d.resultIdx? j idx = some (ix2 n q)), upd j = _
  congr 1

  refine Finset.sum_bij' (fun j _ => j 0) (fun e _ => ix2 e q) ?_ ?_ ?_ ?_ ?_
  · intro j hj
    exact Finset.mem_filter.mpr ⟨Finset.mem_univ _, ((key j).mp (Finset.mem_filter.mp hj).2).1⟩
  · intro e he
    exact Finset.mem_filter.mpr ⟨Finset.mem_univ _, (key (ix2 e q)).mpr ⟨(Finset.mem_filter.mp he).2, rfl⟩⟩
  · intro j hj
    exact back j (Finset.mem_filter.mp hj).2
  · intro e _
    rfl
  · intro j hj
    exact congrArg upd (back j (Finset.mem_filter.mp hj).2).symm

end Cert.LibRows

end
-- ==== Proof.RefValue.lean ====
import proofs.«413591_j8993661518313_3_alg».proof.Proof.RefRun
import proofs.«413591_j8993661518313_3_alg».proof.Proof.Spec
import proofs.«413591_j8993661518313_3_alg».proof.Proof.LibRows
import Idealize.ShloMosaic.Lib.ValueIdx
import Idealize.ShloMosaic.Lib.StackMember
import Idealize.ShloMosaic.PureOps.Ideal.Laws
import Idealize.ShloMosaic.Lib.Pipeline.Value

noncomputable section

open scoped BigOperators

namespace Cert.ReferenceIdeal.RefValue

open Cert.ReferenceIdeal Cert.ReferenceIdeal.Gen Cert.ReferenceIdeal.Value Idealize.ShloMosaic Idealize.ShloMosaic.TcCoe
  Idealize.SL.Sem Idealize.ShloMosaic.StableHlo Idealize.ShloMosaic.ValueIdx

section AnyValues
variable {F : FTy → Type} [FloatOps F] (V0 : Valuation τ sig (Elt F))

def Xbuf : (Proc.devRef .tc main_v18 : DevRef τ sig).ty.Contents (Elt F) :=
  concatenate S800000x128 1 [⟨S800000x64, (Host.gather gather_S50000x64_S800000x1_S800000x64_1_0_n_n_0_1_164 (V0 (Proc.devRef .tc main_arg0)) (broadcastInDim S800000x1 ![0] bcast_S800000_S800000x1_0 (select (cmpi .slt (res_main_v1 V0) (broadcastInDim S800000 ![] bcast_S_S800000 (constantI S_ 32 0#32))) (addi (res_main_v1 V0) (broadcastInDim S800000 ![] bcast_S_S800000 (constantI S_ 32 50000#32))) (res_main_v1 V0))))⟩, ⟨S800000x64, (Host.gather gather_S50000x64_S800000x1_S800000x64_1_0_n_n_0_1_164 (V0 (Proc.devRef .tc main_arg0)) (broadcastInDim S800000x1 ![0] bcast_S800000_S800000x1_0 (select (cmpi .slt (res_main_v3 V0) (broadcastInDim S800000 ![] bcast_S_S800000 (constantI S_ 32 0#32))) (addi (res_main_v3 V0) (broadcastInDim S800000 ![] bcast_S_S800000 (constantI S_ 32 50000#32))) (res_main_v3 V0))))⟩] concatenates_S800000x64_S800000x64_S800000x128_d1

theorem v29_eq : res_main_v29 V0 = addf (Host.dotGeneral dot_S800000x128_S128x256_S800000x256_1_0_0_1_n_n none (Xbuf V0) (V0 (Proc.devRef .tc main_arg3))) (broadcastInDim S800000x256 ![0, 1] bcast_S1x256_S800000x256_0_1 (broadcastInDim S1x256 ![1] bcast_S256_S1x256_1 (V0 (Proc.devRef .tc main_arg4)))) := rfl

def outTerm : (Proc.devRef .tc main_v113 : DevRef τ sig).ty.Contents (Elt F) :=
  addf (Host.dotGeneral dot_S800000x64_S64x1_S800000x1_1_0_0_1_n_n none (maximumf (mulf (res_main_v90 V0) (Host.rsqrt (addf (Host.gather gather_S128x64_S800000x1_S800000x64_1_0_n_n_0_1_164 (Host.divf (Host.scatterAdd scatter_S128x64_S800000x1_S800000x64_1_0_0_1 (broadcastInDim S128x64 ![] bcast_S_S128x64 (constant S_ .f32 0x00000000#32)) (broadcastInDim S800000x1 ![0] bcast_S800000_S800000x1_0 (res_main_v25 V0)) (mulf (res_main_v90 V0) (res_main_v90 V0))) (broadcastInDim S128x64 ![0, 1] bcast_S128x1_S128x64_0_1 (res_main_v77 V0))) (broadcastInDim S800000x1 ![0] bcast_S800000_S800000x1_0 (select (cmpi .slt (res_main_v25 V0) (broadcastInDim S800000 ![] bcast_S_S800000 (constantI S_ 32 0#32))) (addi (res_main_v25 V0) (broadcastInDim S800000 ![] bcast_S_S800000 (constantI S_ 32 128#32))) (res_main_v25 V0)))) (broadcastInDim S800000x64 ![] bcast_S_S800000x64 (constant S_ .f32 0x3727C5AC#32))))) (broadcastInDim S800000x64 ![] bcast_S_S800000x64 (constant S_ .f32 0x00000000#32))) (V0 (Proc.devRef .tc main_arg7))) (broadcastInDim S800000x1 ![0, 1] bcast_S1x1_S800000x1_0_1 (broadcastInDim S1x1 ![1] bcast_S1_S1x1_1 (V0 (Proc.devRef .tc main_arg8))))

end AnyValues

section Round
variable {C : Nat} {sgw : Fin 800000 → BitVec 32} {sg : Fin 800000 → Fin 128}
  {ds : ScatterDims ⟨2, ![128, C]⟩ ⟨2, ![800000, 1]⟩ ⟨2, ![800000, C]⟩}
  {dg : GatherDims ⟨2, ![128, C]⟩ ⟨2, ![800000, 1]⟩ ⟨2, ![800000, C]⟩}
  {z cb : FVec Ideal ⟨2, ![128, C]⟩ .f32} {idx widx : IVec ⟨2, ![800000, 1]⟩ 32}

theorem segsum_apply (hsg : ∀ e, (sgw e).toInt = ((sg e).val : ℤ))
    (huw : ds.updateWindowDims = [1]) (hiw : ds.insertedWindowDims = [0]) (hsd : ds.scatterDimsToOperandDims = [0])
    (hivd : ds.indexVectorDim = 1) (hz : ∀ i, z i = 0) (hidx : ∀ e, idx (ix2 e (0 : Fin 1)) = sgw e)
    (u : FVec Ideal ⟨2, ![800000, C]⟩ .f32) (g : Fin 128) (j : Fin C) :
    Host.scatterAdd ds z idx u (ix2 g j) = Spec.ssum sg (fun e j => u (ix2 e j)) g j := by
  refine (Cert.LibRows.scatterAdd_rows_apply ds huw hiw hsd hivd z idx u g j).trans ?_
  rw [hz, zero_add]
  unfold Spec.ssum
  refine Finset.sum_congr ?_ (fun _ _ => rfl)
  ext e
  simp only [Finset.mem_filter, Finset.mem_univ, true_and]
  rw [hidx, hsg]
  exact ⟨fun h => Fin.ext (by omega), fun h => by rw [h]⟩

theorem rowgather_apply (hsg : ∀ e, (sgw e).toInt = ((sg e).val : ℤ))
    (hoff : dg.offsetDims = [1]) (hcoll : dg.collapsedSliceDims = [0]) (hob : dg.operandBatchingDims = [])
    (hsim : dg.startIndexMap = [0]) (hgiv : dg.indexVectorDim = 1) (hwidx : ∀ e, widx (ix2 e (0 : Fin 1)) = sgw e)
    (T : FVec Ideal ⟨2, ![128, C]⟩ .f32) (e : Fin 800000) (j : Fin C) :
    Host.gather dg T widx (ix2 e j) = T (ix2 (sg e) j) := by
  refine (Cert.LibRows.gather_rows_apply dg hoff hcoll hob hsim hgiv T widx e j (by norm_num)).trans ?_
  refine congrArg (fun r : Fin 128 => T (ix2 r j)) (Fin.ext ?_)
  show min (widx (ix2 e (0 : Fin 1))).toInt.toNat (128 - 1) = (sg e).val
  rw [hwidx, hsg, Int.toNat_natCast]
  exact Nat.min_eq_left (by have := (sg e).isLt; omega)

theorem mean_apply (hsg : ∀ e, (sgw e).toInt = ((sg e).val : ℤ))
    (huw : ds.updateWindowDims = [1]) (hiw : ds.insertedWindowDims = [0]) (hsd : ds.scatterDimsToOperandDims = [0])
    (hivd : ds.indexVectorDim = 1) (hz : ∀ i, z i = 0) (hidx : ∀ e, idx (ix2 e (0 : Fin 1)) = sgw e)
    (hcb : ∀ g j, cb (ix2 g j) = Spec.cnt sg g)
    (u : FVec Ideal ⟨2, ![800000, C]⟩ .f32) (g : Fin 128) (j : Fin C) :
    Host.divf (Host.scatterAdd ds z idx u) cb (ix2 g j) = Spec.mean sg (fun e j => u (ix2 e j)) g j := by
  show Ideal.div (Host.scatterAdd ds z idx u (ix2 g j)) (cb (ix2 g j)) = _
  rw [segsum_apply hsg huw hiw hsd hivd hz hidx, hcb]
  rfl

theorem cen_apply (hsg : ∀ e, (sgw e).toInt = ((sg e).val : ℤ))
    (huw : ds.updateWindowDims = [1]) (hiw : ds.insertedWindowDims = [0]) (hsd : ds.scatterDimsToOperandDims = [0])
    (hivd : ds.indexVectorDim = 1)
    (hoff : dg.offsetDims = [1]) (hcoll : dg.collapsedSliceDims = [0]) (hob : dg.operandBatchingDims = [])
    (hsim : dg.startIndexMap = [0]) (hgiv : dg.indexVectorDim = 1)
    (hz : ∀ i, z i = 0) (hidx : ∀ e, idx (ix2 e (0 : Fin 1)) = sgw e) (hwidx : ∀ e, widx (ix2 e (0 : Fin 1)) = sgw e)
    (hcb : ∀ g j, cb (ix2 g j) = Spec.cnt sg g)
    (x : FVec Ideal ⟨2, ![800000, C]⟩ .f32) (e : Fin 800000) (j : Fin C) :
    subf x (Host.gather dg (Host.divf (Host.scatterAdd ds z idx x) cb) widx) (ix2 e j)
      = Spec.cen sg (fun e j => x (ix2 e j)) e j := by
  show x (ix2 e j) - Host.gather dg (Host.divf (Host.scatterAdd ds z idx x) cb) widx (ix2 e j) = _
  rw [rowgather_apply hsg hoff hcoll hob hsim hgiv hwidx, mean_apply hsg huw hiw hsd hivd hz hidx hcb]
  rfl

theorem norm_apply (hsg : ∀ e, (sgw e).toInt = ((sg e).val : ℤ))
    (huw : ds.updateWindowDims = [1]) (hiw : ds.insertedWindowDims = [0]) (hsd : ds.scatterDimsToOperandDims = [0])
    (hivd : ds.indexVectorDim = 1)
    (hoff : dg.offsetDims = [1]) (hcoll : dg.collapsedSliceDims = [0]) (hob : dg.operandBatchingDims = [])
    (hsim : dg.startIndexMap = [0]) (hgiv : dg.indexVectorDim = 1)
    (hz : ∀ i, z i = 0) (hidx : ∀ e, idx (ix2 e (0 : Fin 1)) = sgw e) (hwidx : ∀ e, widx (ix2 e (0 : Fin 1)) = sgw e)
    (hcb : ∀ g j, cb (ix2 g j) = Spec.cnt sg g)
    {epsb zb : FVec Ideal ⟨2, ![800000, C]⟩ .f32} (heps : ∀ i, epsb i = Spec.eps) (hzb : ∀ i, zb i = 0)
    (xs : Fin 800000 → Fin C → EReal) (xc : FVec Ideal ⟨2, ![800000, C]⟩ .f32)
    (hxc : ∀ e j, xc (ix2 e j) = Spec.cen sg xs e j) (e : Fin 800000) (j : Fin C) :
    maximumf (mulf xc (Host.rsqrt (addf (Host.gather dg (Host.divf (Host.scatterAdd ds z idx (mulf xc xc)) cb) widx) epsb))) zb (ix2 e j)
      = max (Spec.normR sg xs e j) 0 := by
  show max (xc (ix2 e j) * Ideal.rsqrt (Host.gather dg (Host.divf (Host.scatterAdd ds z idx (mulf xc xc)) cb) widx (ix2 e j)
    + epsb (ix2 e j))) (zb (ix2 e j)) = _
  rw [rowgather_apply hsg hoff hcoll hob hsim hgiv hwidx, mean_apply hsg huw hiw hsd hivd hz hidx hcb, heps, hzb, hxc]
  have hsq : (fun e j => mulf xc xc (ix2 e j)) = fun e j => Spec.cen sg xs e j * Spec.cen sg xs e j := by
    funext e j
    show xc (ix2 e j) * xc (ix2 e j) = _
    rw [hxc]
  rw [hsq]
  rfl

end Round

section AtIdeal
variable (V0 : Valuation τ sig (Elt Ideal))

def X (e : Fin 800000) (κ : Fin 128) : EReal := (Xbuf V0 : S800000x128.Idx → EReal) (ix2 e κ)

def sgw (e : Fin 800000) : BitVec 32 := (res_main_v25 V0 : S800000.Idx → BitVec 32) (ix1 e)
def W1 (κ : Fin 128) (j : Fin 256) : EReal := (V0 (Proc.devRef .tc main_arg3) : S128x256.Idx → EReal) (ix2 κ j)
def b1 (j : Fin 256) : EReal := (V0 (Proc.devRef .tc main_arg4) : S256.Idx → EReal) (ix1 j)
def W2 (κ : Fin 256) (j : Fin 64) : EReal := (V0 (Proc.devRef .tc main_arg5) : S256x64.Idx → EReal) (ix2 κ j)
def b2 (j : Fin 64) : EReal := (V0 (Proc.devRef .tc main_arg6) : S64.Idx → EReal) (ix1 j)
def W3 (κ : Fin 64) : EReal := (V0 (Proc.devRef .tc main_arg7) : S64x1.Idx → EReal) (ix2 κ (0 : Fin 1))
def b3 : EReal := (V0 (Proc.devRef .tc main_arg8) : S1.Idx → EReal) (ix1 (0 : Fin 1))

def sg (h : ∀ e, 0 ≤ (sgw V0 e).toInt ∧ (sgw V0 e).toInt < 128) (e : Fin 800000) : Fin 128 :=
  ⟨(sgw V0 e).toInt.toNat, by have := h e; omega⟩

variable (h : ∀ e, 0 ≤ (sgw V0 e).toInt ∧ (sgw V0 e).toInt < 128)

theorem sg_word (e : Fin 800000) : (sgw V0 e).toInt = ((sg V0 h e).val : ℤ) := by
  show _ = (((sgw V0 e).toInt.toNat : ℕ) : ℤ)
  have := (h e).1
  omega

theorem scatter_index (e : Fin 800000) :
    broadcastInDim S800000x1 ![0] bcast_S800000_S800000x1_0 (res_main_v25 V0) (ix2 e (0 : Fin 1)) = sgw V0 e :=
  broadcastInDim_apply _ _ _ _ (ix1 e) (fun a => match a with | ⟨0, _⟩ => rfl)

include h in

theorem gather_index (e : Fin 800000) :
    broadcastInDim S800000x1 ![0] bcast_S800000_S800000x1_0 (select (cmpi .slt (res_main_v25 V0) (broadcastInDim S800000 ![] bcast_S_S800000 (constantI S_ 32 0#32))) (addi (res_main_v25 V0) (broadcastInDim S800000 ![] bcast_S_S800000 (constantI S_ 32 128#32))) (res_main_v25 V0)) (ix2 e (0 : Fin 1)) = sgw V0 e := by
  refine (broadcastInDim_apply _ _ _ _ (ix1 e) (fun a => match a with | ⟨0, _⟩ => rfl)).trans ?_
  show Scalar.select (BitVec.ofBool ((sgw V0 e).slt 0#32)) (IntOp.addi (sgw V0 e) 128#32) (sgw V0 e) = sgw V0 e
  have hs : (sgw V0 e).slt 0#32 = false := by
    have h0 : (0#32 : BitVec 32).toInt = 0 := by decide
    have hn := (h e).1
    unfold BitVec.slt
    rw [h0]
    exact decide_eq_false (by omega)
  rw [hs]
  exact select_zero _ _

theorem zeros_apply {s : Shape} (hb : S_.BroadcastsInDim s (![] : Fin 0 → Fin s.rank)) (i : s.Idx) :
    (broadcastInDim s ![] hb (constant S_ .f32 0x00000000#32) : FVec Ideal s .f32) i = 0 := Ideal.ofBits_zero_f32

theorem eps_apply {s : Shape} (hb : S_.BroadcastsInDim s (![] : Fin 0 → Fin s.rank)) (i : s.Idx) :
    (broadcastInDim s ![] hb (constant S_ .f32 0x3727C5AC#32) : FVec Ideal s .f32) i = Spec.eps := rfl

theorem one_word : Ideal.ofBits .f32 0x3F800000#32 = 1 := IdealRules.sign_bit.ideal_onePat .f32

theorem v35_apply (g : Fin 128) :
    (res_main_v35 V0 : S128x1.Idx → EReal) (ix2 g (0 : Fin 1)) = Spec.cnt (sg V0 h) g := by
  unfold res_main_v35
  refine (maximumf_apply _ _ _).trans ?_
  rw [segsum_apply (ds := scatter_S128x1_S800000x1_S800000x1_1_0_0_1) (sg_word V0 h) rfl rfl rfl rfl (zeros_apply _) (scatter_index V0)]
  show max (∑ e ∈ Finset.univ.filter (fun e => sg V0 h e = g), Ideal.ofBits .f32 0x3F800000#32) (Ideal.ofBits .f32 0x3F800000#32)
    = max (∑ _e ∈ Finset.univ.filter (fun e => sg V0 h e = g), (1 : EReal)) 1
  rw [one_word]

end AtIdeal

section Layers
variable (V0 : Valuation τ sig (Elt Ideal)) (h : ∀ e, 0 ≤ (sgw V0 e).toInt ∧ (sgw V0 e).toInt < 128)

/-- A bias row broadcast down the rows, at (e, j), is the bias's entry j. -/
theorem bias_apply {α : Type} {n c : ℕ} (b : (⟨1, ![c]⟩ : Shape).Idx → α)
    (h1 : (⟨1, ![c]⟩ : Shape).BroadcastsInDim ⟨2, ![1, c]⟩ ![1]) (h2 : (⟨2, ![1, c]⟩ : Shape).BroadcastsInDim ⟨2, ![n, c]⟩ ![0, 1])
    (e : Fin n) (j : Fin c) :
    broadcastInDim ⟨2, ![n, c]⟩ ![0, 1] h2 (broadcastInDim ⟨2, ![1, c]⟩ ![1] h1 b) (ix2 e j) = b (ix1 j) :=
  have hj : j.val = if c = 1 then 0 else j.val := by split <;> omega
  (broadcastInDim_apply ![0, 1] h2 _ (ix2 e j) (ix2 (0 : Fin 1) j) (fun a => match a with | ⟨0, _⟩ => rfl | ⟨1, _⟩ => by exact hj)).trans
    (broadcastInDim_apply ![1] h1 b (ix2 (0 : Fin 1) j) (ix1 j) (fun a => match a with | ⟨0, _⟩ => by exact hj))

theorem v29_apply (e : Fin 800000) (j : Fin 256) :
    (res_main_v29 V0 : S800000x256.Idx → EReal) (ix2 e j) = Spec.lin (X V0) (W1 V0) (b1 V0) e j := by
  rw [v29_eq]
  refine (addf_apply _ _ _).trans ?_
  rw [bias_apply]
  exact congrArg (· + b1 V0 j)
    (StackMember.dotGeneral_plain_apply none (Xbuf V0) (V0 (Proc.devRef .tc main_arg3)) e j)

theorem cnt_apply {C : ℕ} (hb : S128x1.BroadcastsInDim ⟨2, ![128, C]⟩ ![0, 1]) (g : Fin 128) (j : Fin C) :
    broadcastInDim ⟨2, ![128, C]⟩ ![0, 1] hb (res_main_v35 V0) (ix2 g j) = Spec.cnt (sg V0 h) g :=
  (broadcastInDim_apply _ _ _ _ (ix2 g (0 : Fin 1)) (fun a => match a with | ⟨0, _⟩ => rfl | ⟨1, _⟩ => rfl)).trans
    (v35_apply V0 h g)

theorem v48_apply (e : Fin 800000) (j : Fin 256) :
    (res_main_v48 V0 : S800000x256.Idx → EReal) (ix2 e j)
      = Spec.cen (sg V0 h) (Spec.lin (X V0) (W1 V0) (b1 V0)) e j := by
  unfold res_main_v48
  refine (cen_apply (ds := scatter_S128x256_S800000x1_S800000x256_1_0_0_1) (dg := gather_S128x256_S800000x1_S800000x256_1_0_n_n_0_1_1256)
    (sg_word V0 h) rfl rfl rfl rfl rfl rfl rfl rfl rfl (zeros_apply _)
    (scatter_index V0) (gather_index V0 h) (cnt_apply V0 h _) (res_main_v29 V0) e j).trans ?_
  rw [show (fun e j => (res_main_v29 V0 : S800000x256.Idx → EReal) (ix2 e j)) = Spec.lin (X V0) (W1 V0) (b1 V0) from
    funext fun e => funext fun j => v29_apply V0 e j]

def h1 (e : Fin 800000) (j : Fin 256) : EReal := max (Spec.normR (sg V0 h) (Spec.lin (X V0) (W1 V0) (b1 V0)) e j) 0

theorem v71_apply (e : Fin 800000) (j : Fin 64) :
    (res_main_v71 V0 : S800000x64.Idx → EReal) (ix2 e j) = Spec.lin (h1 V0 h) (W2 V0) (b2 V0) e j := by
  unfold res_main_v71
  refine (addf_apply _ _ _).trans ?_
  rw [bias_apply]
  refine congrArg (· + b2 V0 j) ?_
  refine (StackMember.dotGeneral_plain_apply none _ (V0 (Proc.devRef .tc main_arg5)) e j).trans ?_
  refine Finset.sum_congr rfl fun κ _ => ?_
  exact congrArg (· * W2 V0 κ j)
    (norm_apply (ds := scatter_S128x256_S800000x1_S800000x256_1_0_0_1) (dg := gather_S128x256_S800000x1_S800000x256_1_0_n_n_0_1_1256)
      (sg_word V0 h) rfl rfl rfl rfl rfl rfl rfl rfl rfl (zeros_apply _)
      (scatter_index V0) (gather_index V0 h) (cnt_apply V0 h _) (eps_apply _) (zeros_apply _)
      (Spec.lin (X V0) (W1 V0) (b1 V0)) (res_main_v48 V0) (v48_apply V0 h) e κ)

theorem v90_apply (e : Fin 800000) (j : Fin 64) :
    (res_main_v90 V0 : S800000x64.Idx → EReal) (ix2 e j)
      = Spec.cen (sg V0 h) (Spec.lin (h1 V0 h) (W2 V0) (b2 V0)) e j := by
  unfold res_main_v90
  refine (cen_apply (ds := scatter_S128x64_S800000x1_S800000x64_1_0_0_1) (dg := gather_S128x64_S800000x1_S800000x64_1_0_n_n_0_1_164)
    (sg_word V0 h) rfl rfl rfl rfl rfl rfl rfl rfl rfl (zeros_apply _)
    (scatter_index V0) (gather_index V0 h) (cnt_apply V0 h _) (res_main_v71 V0) e j).trans ?_
  rw [show (fun e j => (res_main_v71 V0 : S800000x64.Idx → EReal) (ix2 e j)) = Spec.lin (h1 V0 h) (W2 V0) (b2 V0) from
    funext fun e => funext fun j => v71_apply V0 h e j]

theorem outTerm_eq_outR (e : Fin 800000) :
    (outTerm V0 : S800000x1.Idx → EReal) (ix2 e (0 : Fin 1))
      = Spec.outR (X V0) (sg V0 h) (W1 V0) (b1 V0) (W2 V0) (b2 V0) (W3 V0) (b3 V0) e := by
  unfold outTerm
  refine (addf_apply _ _ _).trans ?_
  rw [bias_apply]
  refine congrArg (· + b3 V0) ?_
  refine (StackMember.dotGeneral_plain_apply none _ (V0 (Proc.devRef .tc main_arg7)) e (0 : Fin 1)).trans ?_
  refine Finset.sum_congr rfl fun κ _ => ?_
  exact congrArg (· * W3 V0 κ)
    (norm_apply (ds := scatter_S128x64_S800000x1_S800000x64_1_0_0_1) (dg := gather_S128x64_S800000x1_S800000x64_1_0_n_n_0_1_164)
      (sg_word V0 h) rfl rfl rfl rfl rfl rfl rfl rfl rfl (zeros_apply _)
      (scatter_index V0) (gather_index V0 h) (cnt_apply V0 h _) (eps_apply _) (zeros_apply _)
      (Spec.lin (h1 V0 h) (W2 V0) (b2 V0)) (res_main_v90 V0) (v90_apply V0 h) e κ)

end Layers

end Cert.ReferenceIdeal.RefValue

end
-- ==== Proof.KArrays.lean ====
import proofs.«413591_j8993661518313_3_alg».proof.Proof.Gen.KernelIdeal
import proofs.«413591_j8993661518313_3_alg».proof.Proof.Spec
import Idealize.ShloMosaic.Lib.ValueIdx

noncomputable section

namespace Cert.KernelIdeal.Hand

open Idealize.ShloMosaic Idealize.ShloMosaic.TcCoe Idealize.ShloMosaic.ValueIdx Idealize.SL.Sem
open Cert.KernelIdeal

def prow (t : Fin 392) (r : Fin 2048) : Fin 802816 := ⟨t.val * 2048 + r.val, by have := t.isLt; have := r.isLt; omega⟩

abbrev Val : Type := (c : Dev nD) → (b : Ref sig .tc) → Buf (Elt Ideal) ((c : Thread nD τ).loc b)

variable (V : Val) (c : Dev nD)

def Xp : Fin 392 → Fin 2048 → Fin 128 → EReal := fun t r κ => (V c main_v27 : S802816x128.Idx → EReal) (ix2 (prow t r) κ)

def segt : Fin 392 → Fin 2048 → BitVec 32 := fun t r => (V c main_v29 : S392x1x2048.Idx → BitVec 32) (ix3 t (0 : Fin 1) r)
def W1k : Fin 128 → Fin 256 → EReal := fun κ j => (V c main_v30 : S128x256.Idx → EReal) (ix2 κ j)
def b1k : Fin 256 → EReal := fun j => (V c main_arg4 : S256.Idx → EReal) (ix1 j)
def W2k : Fin 256 → Fin 64 → EReal := fun κ j => (V c main_v31 : S256x64.Idx → EReal) (ix2 κ j)
def b2k : Fin 64 → EReal := fun j => (V c main_arg6 : S64.Idx → EReal) (ix1 j)
def W3k : Fin 64 → EReal := fun κ => (V c main_v32 : S64x1.Idx → EReal) (ix2 κ (0 : Fin 1))
def b3k : EReal := (V c main_arg8 : S1.Idx → EReal) (ix1 (0 : Fin 1))

def tab1 : Fin 128 → Fin 512 → EReal := fun g j => (V c main_v63 : S128x512.Idx → EReal) (ix2 g j)
def tab2 : Fin 128 → Fin 128 → EReal := fun g j => (V c main_v87 : S128x128.Idx → EReal) (ix2 g j)

def lin2p : Fin 392 → Fin 2048 → Fin 64 → EReal := fun t r q => (V c main_v64_0 : S802816x64.Idx → EReal) (ix2 (prow t r) q)

end Cert.KernelIdeal.Hand

end
-- ==== Proof.LibTile.lean ====
import proofs.«413591_j8993661518313_3_alg».proof.Proof.Spec
import Idealize.ShloMosaic.PureOps.Ideal.Laws
import Idealize.ShloMosaic.Lib.ValueIdx
import Idealize.ShloMosaic.Lib.KernelVsHost
import Idealize.ShloMosaic.Lib.Pipeline.Value

noncomputable section

namespace Cert.Tile

open scoped BigOperators
open Idealize.ShloMosaic Idealize.ShloMosaic.TcCoe Idealize.ShloMosaic.ValueIdx Idealize.SL.Sem

/-- A rows-by-columns product into the zero matrix, at an entry, is the sum over the contracted coordinate. -/
theorem matmul_zero_ix2 {m k n : ℕ} {φ₁ φ₂ : FTy}
    (w : DotDims.WF ⟨2, ![m, k]⟩ ⟨2, ![k, n]⟩ ⟨2, ![m, n]⟩ [1] [0] [0] [1] [] [])
    (prec : Option ContractPrecision) (A : FVec Ideal ⟨2, ![m, k]⟩ φ₁) (B : FVec Ideal ⟨2, ![k, n]⟩ φ₂) (a : Fin m) (b : Fin n) :
    matmul (⟨[1], [0], [0], [1], [], [], w⟩ : DotDims _ _ _) prec A B (constant ⟨2, ![m, n]⟩ .f32 0x00000000#32) (ix2 a b)
      = ∑ c : Fin k, A (ix2 a c) * B (ix2 c b) := by
  show FloatOps.matmul _ prec A B _ (ix2 a b) = _
  rw [Ideal.matmul_constant_zero_apply,
    ← Equiv.sum_comp (contrEquiv1 (⟨[1], [0], [0], [1], [], [], w⟩ : DotDims _ _ _) k rfl rfl).symm]
  refine Finset.sum_congr rfl fun c _ => ?_
  have c2 := contrEquiv1_symm_val
    (⟨[1], [0], [0], [1], [], [], w⟩ : DotDims ⟨2, ![m, k]⟩ ⟨2, ![k, n]⟩ ⟨2, ![m, n]⟩) k rfl rfl c
  congr 2
  · exact Shape.idx_ext₂ (by simp [DotDims.lhsIdx]; rfl) (by simp [DotDims.lhsIdx]; exact c2)
  · exact Shape.idx_ext₂ (by simp [DotDims.rhsIdx]; exact c2) (by simp [DotDims.rhsIdx]; rfl)

/-- The widened equality bit of two words, as a number: 1 when they are equal, else 0. -/
theorem eqbit_real (x y : BitVec 32) :
    ((((IntOp.cmpi .eq x y).setWidth 32).toInt : ℝ) : EReal) = if x = y then 1 else 0 := by
  rw [toInt_setWidth_bit]
  by_cases h : x = y
  · subst h; simp [IntOp.cmpi]
  · simp [IntOp.cmpi, h]

/-- A reading, zero at the restart and raised by `T t` at step `t`, of a quantity restarted every 196th step is the running sum of `T`. -/
theorem fold_half {α : Type} {N : ℕ} (acc : (n : ℕ) → n < N → α) (step : Fin N → α → α) (z : α)
    (h0 : ∀ t : Fin N, t.val % 196 = 0 → acc t.val t.isLt = step t z)
    (h1 : ∀ t : Fin N, ¬t.val % 196 = 0 →
      acc t.val t.isLt = step t (acc (t.val - 1) (Nat.lt_of_le_of_lt (Nat.sub_le _ _) t.isLt)))
    (P : α → EReal) (T : Fin N → EReal) (hz : P z = 0) (hs : ∀ t s, P (step t s) = P s + T t) (b : ℕ) (hb : b % 196 = 0) :
    ∀ (i : ℕ) (_ : i < 196) (h : b + i < N),
      P (acc (b + i) h) = ∑ s : Fin (i + 1), T ⟨b + s.val, by have := s.isLt; omega⟩
  | 0, _, h => by
    rw [h0 ⟨b + 0, h⟩ (by simpa using hb), hs, hz, zero_add]
    exact Eq.symm (Fin.sum_univ_one _)
  | i + 1, hi, h => by
    have hp : b + i < N := by omega
    have e : acc (b + (i + 1) - 1) (Nat.lt_of_le_of_lt (Nat.sub_le _ _) h) = acc (b + i) hp := rfl
    rw [Fin.sum_univ_castSucc, h1 ⟨b + (i + 1), h⟩ (by show ¬(b + (i + 1)) % 196 = 0; omega), hs, e,
      fold_half acc step z h0 h1 P T hz hs b hb i (by omega) hp]
    rfl

/-- So after a run's last step the reading is the sum of `f` over the run's 196 tiles. -/
theorem fold_last {α : Type} {N : ℕ} (hN : N = 392) (acc : (n : ℕ) → n < N → α) (step : Fin N → α → α) (z : α)
    (h0 : ∀ t : Fin N, t.val % 196 = 0 → acc t.val t.isLt = step t z)
    (h1 : ∀ t : Fin N, ¬t.val % 196 = 0 →
      acc t.val t.isLt = step t (acc (t.val - 1) (Nat.lt_of_le_of_lt (Nat.sub_le _ _) t.isLt)))
    (P : α → EReal) (f : Fin 392 → EReal) (hz : P z = 0) (hs : ∀ t s, P (step t s) = P s + f ⟨t.val, hN ▸ t.isLt⟩)
    (t : Fin N) (ht : t.val % 196 = 195) :
    P (acc t.val t.isLt) = ∑ i : Fin 196, f (Spec.tileOf ⟨t.val / 196, by have := t.isLt; omega⟩ i) := by
  subst hN
  have hlt : t.val / 196 * 196 + 195 < 392 := by have := t.isLt; omega
  have e : acc t.val t.isLt = acc (t.val / 196 * 196 + 195) hlt := by
    congr 1; omega
  rw [e, fold_half acc step z h0 h1 P f hz hs (t.val / 196 * 196) (by omega) 195 (by omega) hlt]
  rfl

/-- Entry (u, g, j) of the block one deep on the leading axis, at block index (p, 0, 0), is entry (p, g, j) of the array. -/
theorem emb_half {n0 n1 n2 p : ℕ} {idx : Fin 3 → ℕ} {inb} (hi : idx 0 = p ∧ idx 1 = 0 ∧ idx 2 = 0) (hp : p < n0)
    (u : Fin 1) (g : Fin n1) (j : Fin n2) :
    (Rect.unit (s := ⟨3, ![n0, n1, n2]⟩) (fun a => idx a * (![1, n1, n2] : Fin 3 → ℕ) a) ![1, n1, n2] inb).emb (ix3 u g j)
      = ix3 (⟨p, hp⟩ : Fin n0) g j := by
  obtain ⟨h0, h1, h2⟩ := hi
  funext a; apply Fin.ext
  match a with
  | ⟨0, _⟩ => show idx 0 * 1 + 1 * u.val = p; omega
  | ⟨1, _⟩ => show idx 1 * n1 + 1 * g.val = g.val; rw [h1]; omega
  | ⟨2, _⟩ => show idx 2 * n2 + 1 * j.val = j.val; rw [h2]; omega

/-- A block one deep on the leading axis is an array read at the block's position once it is so entry by entry. -/
theorem read_half {α : Type} {n0 n1 n2 p : ℕ} {idx : Fin 3 → ℕ} {inb} (hi : idx 0 = p ∧ idx 1 = 0 ∧ idx 2 = 0) (hp : p < n0)
    (G : (⟨3, ![n0, n1, n2]⟩ : Shape).Idx → α) (X : (⟨3, ![1, n1, n2]⟩ : Shape).Idx → α)
    (h : ∀ g j, X (ix3 0 g j) = G (ix3 ⟨p, hp⟩ g j)) :
    X = fun y => G ((Rect.unit (s := ⟨3, ![n0, n1, n2]⟩) (fun a => idx a * (![1, n1, n2] : Fin 3 → ℕ) a) ![1, n1, n2] inb).emb y) := by
  funext y
  obtain ⟨u, g, j, rfl⟩ : ∃ (u : Fin 1) (g : Fin n1) (j : Fin n2), y = ix3 u g j := ⟨y 0, y 1, y 2, eq_ix3 y⟩
  obtain rfl : u = 0 := Subsingleton.elim _ _
  rw [emb_half hi hp]
  exact h g j

/-- Entry (r, k) of the block of `b` rows at block index (p, 0) is entry (p · b + r, k) of the array. -/
theorem emb_rows {n0 n1 b p : ℕ} {idx : Fin 2 → ℕ} {inb} (hi : idx 0 = p ∧ idx 1 = 0) (r : Fin b) (k : Fin n1)
    (h : p * b + r.val < n0) :
    (Rect.unit (s := ⟨2, ![n0, n1]⟩) (fun a => idx a * (![b, n1] : Fin 2 → ℕ) a) ![b, n1] inb).emb (ix2 r k)
      = ix2 (⟨p * b + r.val, h⟩ : Fin n0) k := by
  obtain ⟨h0, h1⟩ := hi
  funext a; apply Fin.ext
  match a with
  | ⟨0, _⟩ => show idx 0 * b + 1 * r.val = p * b + r.val; rw [h0]; omega
  | ⟨1, _⟩ => show idx 1 * n1 + 1 * k.val = k.val; rw [h1]; omega

/-- A column broadcast along the rows' axis: entry (p, q) is the column's entry p. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (q : Fin b) :
    broadcastTo ⟨2, ![a, b]⟩ v h (ix2 p q) = v (ix2 p (0 : Fin 1)) := by
  refine broadcastTo_apply v h (ix2 p q) (ix2 p (0 : Fin 1)) fun ax => ?_
  match ax with
  | ⟨0, _⟩ =>
    show p.val = if a = 1 then 0 else p.val
    split
    · have := p.isLt; omega
    · rfl
  | ⟨1, _⟩ => rfl

theorem half_last (c2 : Fin 2) : (c2.val * 196 + 195) % 196 = 195 ∧ (c2.val * 196 + 195) / 196 = c2.val := by
  have := c2.isLt; omega

end Cert.Tile

end
-- ==== Proof.K0Value.lean ====
import proofs.«413591_j8993661518313_3_alg».proof.Proof.K0Frame
import proofs.«413591_j8993661518313_3_alg».proof.Proof.KArrays
import proofs.«413591_j8993661518313_3_alg».proof.Proof.LibTile
import Idealize.ShloMosaic.Lib.ValueLayout

noncomputable section

namespace Cert.KernelIdeal.Hand

open scoped BigOperators
open Idealize.ShloMosaic Idealize.ShloMosaic.TcCoe Idealize.ShloMosaic.ValueIdx Idealize.SL.Sem
open Idealize.ShloMosaic.Pipeline (Dat)
open Cert.KernelIdeal Cert.KernelIdeal.Gen Cert.Tile

namespace K0V

theorem pay10_apply (v3 : Vec Ideal S2048x128 .bf16) (v5 : Vec Ideal S128x256 .bf16) (v8 : Vec Ideal S256 .f32)
    (r : Fin 2048) (j : Fin 256) :
    (k0_pay10 v3 v5 v8 : S2048x256.Idx → EReal) (ix2 r j)
      = (∑ κ : Fin 128, (v3 (ix2 r κ) : EReal) * (v5 (ix2 κ j) : EReal)) + (v8 (ix1 j) : EReal) := by
  unfold k0_pay10
  simp only [shapeCast_self]
  rw [addf_apply]
  congr 1
  · exact matmul_zero_ix2 dot_S2048x128_S128x256_S2048x256_1_0_0_1_n_n_wf none v3 v5 r j
  · exact (broadcastTo_1b_ab_apply _ _ r j).trans (shapeCast_a_1a_apply v8 _ 0 j)

theorem pay11_apply (v12 : Vec Ideal S1x1x2048 .i32) (g : Fin 128) (r : Fin 2048) :
    (k0_pay11 (F := Ideal) v12 : S128x2048.Idx → EReal) (ix2 g r) = Spec.ohw (v12 (ix3 (0 : Fin 1) (0 : Fin 1) r)) g := by
  unfold k0_pay11
  show ((((IntOp.cmpi .eq (iota .tc S128x2048 32 [0] iota_S128x2048_d0_w32 (ix2 g r))
      (broadcastTo S128x2048 (shapeCast S1x2048 v12 shapeCasts_S1x1x2048_S1x2048) broadcasts_S1x2048_S128x2048 (ix2 g r))).setWidth 32).toInt : ℝ) : EReal) = _
  rw [iota_single_apply, broadcastTo_1b_ab_apply, shapeCast_1ab_ab_apply, eqbit_real]
  rfl

theorem pay14_apply (v12 : Vec Ideal S1x1x2048 .i32) (g : Fin 128) :
    (k0_pay14 (F := Ideal) v12 : S128x1.Idx → EReal) (ix2 g (0 : Fin 1)) = ∑ r : Fin 2048, Spec.ohw (v12 (ix3 (0 : Fin 1) (0 : Fin 1) r)) g := by
  unfold k0_pay14
  refine (shapeCast_apply _ shapeCasts_S128_S128x1 (ix2 g (0 : Fin 1)) (ix1 g) ?_).trans ?_
  · rw [Shape.rowMajor_val_two, Shape.rowMajor_val_one]
    show g.val = g.val * 1 + 0
    omega
  · exact (Ideal.multiReduction_add_single (φ := .f32) (k0_pay11 (F := Ideal) v12) 0x00000000#32
      reduces_S128x2048_S128 (.inl rfl) rfl (ix1 g)).trans (Finset.sum_congr rfl fun r _ => pay11_apply v12 g r)

/-- A one-hot product taken twice, of the value and of the value minus itself, is the split weighted sum. -/
theorem onehot_pair_apply (v12 : Vec Ideal S1x1x2048 .i32) (x : FVec Ideal S2048x256 .f32) (g : Fin 128) (j : Fin 256) :
    (addf
      (matmul dot_S128x2048_S2048x256_S128x256_1_0_0_1_n_n none (k0_pay12 (F := Ideal) v12)
        (truncf .bf16 x bitsLt_bf16_f32) (constant S128x256 .f32 0x00000000#32))
      (matmul dot_S128x2048_S2048x256_S128x256_1_0_0_1_n_n none (k0_pay12 (F := Ideal) v12)
        (truncf .bf16 (subf x x) bitsLt_bf16_f32) (constant S128x256 .f32 0x00000000#32)) : S128x256.Idx → EReal) (ix2 g j)
      = Spec.hilo (fun r => Spec.ohw (v12 (ix3 (0 : Fin 1) (0 : Fin 1) r)) g) (fun r => x (ix2 r j)) := by
  rw [addf_apply]
  unfold Spec.hilo
  congr 1 <;>
    exact (matmul_zero_ix2 dot_S128x2048_S2048x256_S128x256_1_0_0_1_n_n_wf none _ _ g j).trans
      (Finset.sum_congr rfl fun r _ => congrArg (· * _) (pay11_apply v12 g r))

theorem pay15_apply (v3 : Vec Ideal S2048x128 .bf16) (v5 : Vec Ideal S128x256 .bf16) (v8 : Vec Ideal S256 .f32)
    (v12 : Vec Ideal S1x1x2048 .i32) (v37 : Vec Ideal S128x256 .f32) (g : Fin 128) (j : Fin 256) :
    (k0_pay15 v3 v5 v8 v12 v37 : S128x256.Idx → EReal) (ix2 g j)
      = (v37 (ix2 g j) : EReal) + Spec.hilo (fun r => Spec.ohw (v12 (ix3 (0 : Fin 1) (0 : Fin 1) r)) g)
          (fun r => (k0_pay10 v3 v5 v8 : S2048x256.Idx → EReal) (ix2 r j)) := by
  unfold k0_pay15
  rw [addf_apply]
  exact congrArg (_ + ·) (onehot_pair_apply v12 (k0_pay10 v3 v5 v8) g j)

theorem pay13_apply (v3 : Vec Ideal S2048x128 .bf16) (v5 : Vec Ideal S128x256 .bf16) (v8 : Vec Ideal S256 .f32)
    (v12 : Vec Ideal S1x1x2048 .i32) (g : Fin 128) (j : Fin 256) :
    (k0_pay13 v3 v5 v8 v12 : S128x256.Idx → EReal) (ix2 g j)
      = Spec.hilo (fun r => Spec.ohw (v12 (ix3 (0 : Fin 1) (0 : Fin 1) r)) g)
          (fun r => (k0_pay10 v3 v5 v8 : S2048x256.Idx → EReal) (ix2 r j) * (k0_pay10 v3 v5 v8 : S2048x256.Idx → EReal) (ix2 r j)) := by
  unfold k0_pay13
  exact onehot_pair_apply v12 (mulf (k0_pay10 v3 v5 v8) (k0_pay10 v3 v5 v8)) g j

theorem pay1_eq (v38 : FVec Ideal S128x256 .f32) : k0_pay1 v38 = v38 := by
  unfold k0_pay1; exact shapeCast_self _ _

theorem pay2_apply (v34 : FVec Ideal S128x256 .f32) (v42 : Vec Ideal S128x256 .f32) (i : S128x256.Idx) :
    (k0_pay2 v34 v42 : S128x256.Idx → EReal) i = (v42 i : EReal) + v34 i := by
  unfold k0_pay2; simp only [shapeCast_self]; rfl

theorem pay3_apply (v36 : FVec Ideal S128x1 .f32) (v47 : Vec Ideal S128x1 .f32) (i : S128x1.Idx) :
    (k0_pay3 v36 v47 : S128x1.Idx → EReal) i = (v47 i : EReal) + v36 i := by
  unfold k0_pay3; simp only [shapeCast_self]; rfl

theorem pay7_apply (i : S128x256.Idx) : (k0_pay7 (F := Ideal) : S128x256.Idx → EReal) i = 0 := by
  unfold k0_pay7; simp only [shapeCast_self]; exact Ideal.ofBits_zero_f32

theorem pay8_apply (i : S128x256.Idx) : (k0_pay8 (F := Ideal) : S128x256.Idx → EReal) i = 0 := by
  unfold k0_pay8; simp only [shapeCast_self]; exact Ideal.ofBits_zero_f32

theorem pay9_apply (i : S128x1.Idx) : (k0_pay9 (F := Ideal) : S128x1.Idx → EReal) i = 0 := by
  unfold k0_pay9; simp only [shapeCast_self]; exact Ideal.ofBits_zero_f32

theorem pay4_apply (v55 : Vec Ideal S128x256 .f32) (u : Fin 1) (g : Fin 128) (j : Fin 256) :
    (k0_pay4 v55 : S1x128x256.Idx → EReal) (ix3 u g j) = v55 (ix2 g j) := by
  unfold k0_pay4; exact shapeCast_ab_1ab_apply v55 _ u g j

theorem pay5_apply (v59 : Vec Ideal S128x256 .f32) (u : Fin 1) (g : Fin 128) (j : Fin 256) :
    (k0_pay5 v59 : S1x128x256.Idx → EReal) (ix3 u g j) = v59 (ix2 g j) := by
  unfold k0_pay5; exact shapeCast_ab_1ab_apply v59 _ u g j

theorem pay6_apply (v63 : Vec Ideal S128x1 .f32) (u : Fin 1) (g : Fin 128) (j : Fin 1) :
    (k0_pay6 v63 : S1x128x1.Idx → EReal) (ix3 u g j) = v63 (ix2 g j) := by
  unfold k0_pay6; exact shapeCast_ab_1ab_apply v63 _ u g j

theorem idx0_0 : ∀ t : Fin grid0.N, win0_0.index t 0 = t.val ∧ win0_0.index t 1 = 0 := by decide +kernel
theorem idx0_1 : ∀ t : Fin grid0.N, win0_1.index t 0 = t.val ∧ win0_1.index t 1 = 0 ∧ win0_1.index t 2 = 0 := by decide +kernel
theorem idx0_2 : ∀ (t : Fin grid0.N) a, win0_2.index t a = 0 := by decide +kernel
theorem idx0_3 : ∀ (t : Fin grid0.N) a, win0_3.index t a = 0 := by decide +kernel
theorem idx0_4 : ∀ t : Fin grid0.N, win0_4.index t 0 = t.val / 196 ∧ win0_4.index t 1 = 0 ∧ win0_4.index t 2 = 0 := by decide +kernel
theorem idx0_5 : ∀ t : Fin grid0.N, win0_5.index t 0 = t.val / 196 ∧ win0_5.index t 1 = 0 ∧ win0_5.index t 2 = 0 := by decide +kernel
theorem idx0_6 : ∀ t : Fin grid0.N, win0_6.index t 0 = t.val / 196 ∧ win0_6.index t 1 = 0 ∧ win0_6.index t 2 = 0 := by decide +kernel

variable (V : Val) (c : Dev nD)

theorem iblk0_rows (t : Fin cfg0.N) (r : Fin 2048) (κ : Fin 128) :
    (iblk0 V c 0 t : S2048x128.Idx → EReal) (ix2 r κ) = Xp V c ⟨t.val, lt_of_lt_of_eq t.isLt N_0⟩ r κ :=
  congrArg (V c main_v27 : S802816x128.Idx → EReal) (emb_rows (idx0_0 t) r κ _)

theorem iblk0_seg (t : Fin cfg0.N) (r : Fin 2048) :
    (iblk0 V c 1 t : S1x1x2048.Idx → BitVec 32) (ix3 (0 : Fin 1) (0 : Fin 1) r) = segt V c ⟨t.val, lt_of_lt_of_eq t.isLt N_0⟩ r :=
  congrArg (V c main_v29 : S392x1x2048.Idx → BitVec 32) (emb_half (idx0_1 t) _ 0 0 r)

theorem iblk0_w1 (t : Fin cfg0.N) (κ : Fin 128) (j : Fin 256) :
    (iblk0 V c 2 t : S128x256.Idx → EReal) (ix2 κ j) = W1k V c κ j :=
  congrArg (V c main_v30 : S128x256.Idx → EReal)
    (funext fun a => Fin.ext (win0_2.rect_emb_val_of_index_zero t a (idx0_2 t a) _))

theorem iblk0_b1 (t : Fin cfg0.N) (j : Fin 256) :
    (iblk0 V c 3 t : S256.Idx → EReal) (ix1 j) = b1k V c j :=
  congrArg (V c main_arg4 : S256.Idx → EReal)
    (funext fun a => Fin.ext (win0_3.rect_emb_val_of_index_zero t a (idx0_3 t a) _))

theorem lin1_tile (t : Fin cfg0.N) (r : Fin 2048) (j : Fin 256) :
    (k0_pay10 (iblk0 V c 0 t) (iblk0 V c 2 t) (iblk0 V c 3 t) : S2048x256.Idx → EReal) (ix2 r j)
      = Spec.linT (Xp V c) (W1k V c) (b1k V c) ⟨t.val, lt_of_lt_of_eq t.isLt N_0⟩ r j := by
  rw [pay10_apply]
  unfold Spec.linT
  rw [iblk0_b1]
  congr 1
  refine Finset.sum_congr rfl fun κ _ => ?_
  rw [iblk0_rows, iblk0_w1]

theorem step0_sum (t : Fin cfg0.N) (s : Acc0 Ideal) (g : Fin 128) (j : Fin 256) :
    ((step0 (iblk0 V c 0 t) (iblk0 V c 1 t) (iblk0 V c 2 t) (iblk0 V c 3 t) s).1 : S128x256.Idx → EReal) (ix2 g j)
      = (s.1 : S128x256.Idx → EReal) (ix2 g j) + Spec.hilo (fun r => Spec.ohw (segt V c ⟨t.val, N_0 ▸ t.isLt⟩ r) g)
          (fun r => Spec.linT (Xp V c) (W1k V c) (b1k V c) ⟨t.val, N_0 ▸ t.isLt⟩ r j) := by
  show (k0_pay1 (k0_pay15 _ _ _ _ s.1) : S128x256.Idx → EReal) (ix2 g j) = _
  rw [pay1_eq, pay15_apply]
  simp only [iblk0_seg, lin1_tile]

theorem step0_sq (t : Fin cfg0.N) (s : Acc0 Ideal) (g : Fin 128) (j : Fin 256) :
    ((step0 (iblk0 V c 0 t) (iblk0 V c 1 t) (iblk0 V c 2 t) (iblk0 V c 3 t) s).2.1 : S128x256.Idx → EReal) (ix2 g j)
      = (s.2.1 : S128x256.Idx → EReal) (ix2 g j) + Spec.hilo (fun r => Spec.ohw (segt V c ⟨t.val, N_0 ▸ t.isLt⟩ r) g)
          (fun r => Spec.linT (Xp V c) (W1k V c) (b1k V c) ⟨t.val, N_0 ▸ t.isLt⟩ r j
            * Spec.linT (Xp V c) (W1k V c) (b1k V c) ⟨t.val, N_0 ▸ t.isLt⟩ r j) := by
  show (k0_pay2 (k0_pay13 _ _ _ _) s.2.1 : S128x256.Idx → EReal) (ix2 g j) = _
  rw [pay2_apply, pay13_apply]
  simp only [iblk0_seg, lin1_tile]

theorem step0_cnt (t : Fin cfg0.N) (s : Acc0 Ideal) (g : Fin 128) :
    ((step0 (iblk0 V c 0 t) (iblk0 V c 1 t) (iblk0 V c 2 t) (iblk0 V c 3 t) s).2.2 : S128x1.Idx → EReal) (ix2 g (0 : Fin 1))
      = (s.2.2 : S128x1.Idx → EReal) (ix2 g (0 : Fin 1)) + ∑ r : Fin 2048, Spec.ohw (segt V c ⟨t.val, N_0 ▸ t.isLt⟩ r) g := by
  show (k0_pay3 (k0_pay14 _) s.2.2 : S128x1.Idx → EReal) (ix2 g (0 : Fin 1)) = _
  rw [pay3_apply, pay14_apply]
  simp only [iblk0_seg]

/-- After a half's last tile, a reading of the accumulators, zero at the reset and raised by each tile's share, is the sum of the half's shares. -/
theorem acc0_last (P : Acc0 Ideal → EReal) (f : Fin 392 → EReal) (hz : P zero0 = 0)
    (hs : ∀ (t : Fin cfg0.N) (s : Acc0 Ideal),
      P (step0 (iblk0 V c 0 t) (iblk0 V c 1 t) (iblk0 V c 2 t) (iblk0 V c 3 t) s) = P s + f ⟨t.val, N_0 ▸ t.isLt⟩)
    (t : Fin cfg0.N) (h195 : t.val % 196 = 195) :
    P (acc0 V c t.val t.isLt)
      = ∑ i : Fin 196, f (Spec.tileOf ⟨t.val / 196, by have := lt_of_lt_of_eq t.isLt N_0; omega⟩ i) :=
  fold_last N_0 (acc0 V c) _ zero0 (acc0_first V c) (acc0_next V c) P f hz hs t h195

theorem half_lt (t : Fin cfg0.N) : t.val / 196 < 2 := by have := lt_of_lt_of_eq t.isLt N_0; omega

def G4 : Buf (Elt Ideal) ((c : Thread nD τ).loc main_v33_0) :=
  fun i => Spec.kstat (segt V c) (Spec.linT (Xp V c) (W1k V c) (b1k V c)) (i 0) (i 1) (i 2)
def G5 : Buf (Elt Ideal) ((c : Thread nD τ).loc main_v33_1) :=
  fun i => Spec.kstat (segt V c)
    (fun t r j => Spec.linT (Xp V c) (W1k V c) (b1k V c) t r j * Spec.linT (Xp V c) (W1k V c) (b1k V c) t r j) (i 0) (i 1) (i 2)
def G6 : Buf (Elt Ideal) ((c : Thread nD τ).loc main_v33_2) :=
  fun i => Spec.kcount (segt V c) (i 0) (i 1)

theorem flushed4_eq (t : Fin cfg0.N) (hf : (cfg0.win 4).flush t = true) :
    (dat0 (F := Ideal) V c).flushed 4 t = ((cfg0.win 4).blk t).view.read (Elt Ideal) (G4 V c) := by
  show (cfg0.win 4).cut (grid0.coords t) ((dat0 (F := Ideal) V c).after 4 t) = _
  rw [after0_4]
  exact read_half (idx0_4 t) (half_lt t) (G4 V c) _ fun g j => (pay4_apply _ 0 g j).trans
    (acc0_last V c (fun s => (s.1 : S128x256.Idx → EReal) (ix2 g j))
      (fun n => Spec.hilo (fun r => Spec.ohw (segt V c n r) g) (fun r => Spec.linT (Xp V c) (W1k V c) (b1k V c) n r j))
      (pay7_apply (ix2 g j)) (fun t s => step0_sum V c t s g j) t ((flush0_4 t).mp hf))

theorem flushed5_eq (t : Fin cfg0.N) (hf : (cfg0.win 5).flush t = true) :
    (dat0 (F := Ideal) V c).flushed 5 t = ((cfg0.win 5).blk t).view.read (Elt Ideal) (G5 V c) := by
  show (cfg0.win 5).cut (grid0.coords t) ((dat0 (F := Ideal) V c).after 5 t) = _
  rw [after0_5]
  exact read_half (idx0_5 t) (half_lt t) (G5 V c) _ fun g j => (pay5_apply _ 0 g j).trans
    (acc0_last V c (fun s => (s.2.1 : S128x256.Idx → EReal) (ix2 g j))
      (fun n => Spec.hilo (fun r => Spec.ohw (segt V c n r) g)
        (fun r => Spec.linT (Xp V c) (W1k V c) (b1k V c) n r j * Spec.linT (Xp V c) (W1k V c) (b1k V c) n r j))
      (pay8_apply (ix2 g j)) (fun t s => step0_sq V c t s g j) t ((flush0_5 t).mp hf))

theorem flushed6_eq (t : Fin cfg0.N) (hf : (cfg0.win 6).flush t = true) :
    (dat0 (F := Ideal) V c).flushed 6 t = ((cfg0.win 6).blk t).view.read (Elt Ideal) (G6 V c) := by
  show (cfg0.win 6).cut (grid0.coords t) ((dat0 (F := Ideal) V c).after 6 t) = _
  rw [after0_6]
  exact read_half (idx0_6 t) (half_lt t) (G6 V c) _ fun g j => by
    obtain rfl : j = 0 := Subsingleton.elim _ _
    exact (pay6_apply _ 0 g 0).trans (acc0_last V c (fun s => (s.2.2 : S128x1.Idx → EReal) (ix2 g (0 : Fin 1)))
      (fun n => ∑ r : Fin 2048, Spec.ohw (segt V c n r) g)
      (pay9_apply (ix2 g (0 : Fin 1))) (fun t s => step0_cnt V c t s g) t ((flush0_6 t).mp hf))

def lastOf (c2 : Fin 2) : Fin cfg0.N := ⟨c2.val * 196 + 195, by rw [show cfg0.N = 392 from N_0]; have := c2.isLt; omega⟩

theorem lastOf_half (c2 : Fin 2) (h) : (⟨(lastOf c2).val / 196, h⟩ : Fin 2) = c2 := Fin.ext (half_last c2).2

end K0V

open K0V

variable (V : Val) (c : Dev nD) (c2 : Fin 2) (g : Fin 128)

theorem arr0_sum (j : Fin 256) :
    ((dat0 (F := Ideal) V c).arrAt 4 cfg0.N : S2x128x256.Idx → EReal) (ix3 c2 g j)
      = Spec.kstat (segt V c) (Spec.linT (Xp V c) (W1k V c) (b1k V c)) c2 g j := by
  have hm := ((cfg0.win 4).blk (lastOf c2)).view.emb_mem_set (ix3 (0 : Fin 1) g j)
  rw [show ((cfg0.win 4).blk (lastOf c2)).view.emb (ix3 (0 : Fin 1) g j) = _ from emb_half (idx0_4 _) (half_lt _) 0 g j, lastOf_half] at hm
  exact (dat0 (F := Ideal) V c).arrAt_apply_of_mem 4 (G4 V c) (flushed4_eq V c) cfg0.N (lastOf c2) _ (lastOf c2).isLt
    ((flush0_4 _).mpr (half_last c2).1) hm

theorem arr0_sumsq (j : Fin 256) :
    ((dat0 (F := Ideal) V c).arrAt 5 cfg0.N : S2x128x256.Idx → EReal) (ix3 c2 g j)
      = Spec.kstat (segt V c) (fun t r j => Spec.linT (Xp V c) (W1k V c) (b1k V c) t r j * Spec.linT (Xp V c) (W1k V c) (b1k V c) t r j) c2 g j := by
  have hm := ((cfg0.win 5).blk (lastOf c2)).view.emb_mem_set (ix3 (0 : Fin 1) g j)
  rw [show ((cfg0.win 5).blk (lastOf c2)).view.emb (ix3 (0 : Fin 1) g j) = _ from emb_half (idx0_5 _) (half_lt _) 0 g j, lastOf_half] at hm
  exact (dat0 (F := Ideal) V c).arrAt_apply_of_mem 5 (G5 V c) (flushed5_eq V c) cfg0.N (lastOf c2) _ (lastOf c2).isLt
    ((flush0_5 _).mpr (half_last c2).1) hm

theorem arr0_cnt :
    ((dat0 (F := Ideal) V c).arrAt 6 cfg0.N : S2x128x1.Idx → EReal) (ix3 c2 g (0 : Fin 1))
      = Spec.kcount (segt V c) c2 g := by
  have hm := ((cfg0.win 6).blk (lastOf c2)).view.emb_mem_set (ix3 (0 : Fin 1) g (0 : Fin 1))
  rw [show ((cfg0.win 6).blk (lastOf c2)).view.emb (ix3 (0 : Fin 1) g (0 : Fin 1)) = _ from emb_half (idx0_6 _) (half_lt _) 0 g 0, lastOf_half] at hm
  exact (dat0 (F := Ideal) V c).arrAt_apply_of_mem 6 (G6 V c) (flushed6_eq V c) cfg0.N (lastOf c2) _ (lastOf c2).isLt
    ((flush0_6 _).mpr (half_last c2).1) hm

end Cert.KernelIdeal.Hand

end
-- ==== Proof.K1Value.lean ====
import proofs.«413591_j8993661518313_3_alg».proof.Proof.K1Frame
import proofs.«413591_j8993661518313_3_alg».proof.Proof.KArrays
import proofs.«413591_j8993661518313_3_alg».proof.Proof.LibTile
import Idealize.ShloMosaic.Lib.ValueLayout

noncomputable section

open scoped BigOperators

namespace Cert.KernelIdeal.Hand

open Idealize.ShloMosaic Idealize.ShloMosaic.TcCoe Idealize.ShloMosaic.ValueIdx Idealize.SL.Sem
open Idealize.ShloMosaic.Pipeline (Dat)
open Cert.KernelIdeal Cert.KernelIdeal.Gen Cert.Tile

variable (V : Val) (c : Dev nD)

abbrev lin1K : Fin 392 → Fin 2048 → Fin 256 → EReal := Spec.linT (Xp V c) (W1k V c) (b1k V c)
abbrev act1K : Fin 392 → Fin 2048 → Fin 256 → EReal := fun t r j =>
  Spec.actK (lin1K V c t r j) (Spec.ktab (tab1 V c) (segt V c t r) (Fin.castAdd 256 j)) (Spec.ktab (tab1 V c) (segt V c t r) (Fin.natAdd 256 j))
abbrev lin2K : Fin 392 → Fin 2048 → Fin 64 → EReal := Spec.linT (act1K V c) (W2k V c) (b2k V c)

namespace K1V

theorem k1_pay9_apply (v12 : Vec Ideal S1x1x2048 .i32) (r : Fin 2048) :
    k1_pay9 (F := Ideal) v12 (ix2 (0 : Fin 1) r) = v12 (ix3 (0 : Fin 1) (0 : Fin 1) r) := by
  unfold k1_pay9
  exact shapeCast_1ab_ab_apply _ _ _ _

theorem k1_pay10_apply (v12 : Vec Ideal S1x1x2048 .i32) (g : Fin 128) (r : Fin 2048) :
    k1_pay10 v12 (ix2 g r) = Spec.ohw (v12 (ix3 (0 : Fin 1) (0 : Fin 1) r)) g := by
  unfold k1_pay10 Spec.ohw
  show ((((IntOp.cmpi .eq (iota .tc S128x2048 32 [0] iota_S128x2048_d0_w32 (ix2 g r))
      (broadcastTo S128x2048 (k1_pay9 (F := Ideal) v12) broadcasts_S1x2048_S128x2048 (ix2 g r))).setWidth 32).toInt : ℝ) : EReal) = _
  rw [iota_single_apply, broadcastTo_1b_ab_apply, k1_pay9_apply, eqbit_real]

theorem onehot_rows_apply (v12 : Vec Ideal S1x1x2048 .i32) (r : Fin 2048) (g : Fin 128) :
    ((((IntOp.cmpi .eq (iota .tc S2048x128 32 [1] iota_S2048x128_d1_w32 (ix2 r g))
      (broadcastTo S2048x128 (transpose S2048x1 [1, 0] (k1_pay9 (F := Ideal) v12) transposes_S1x2048_p1_0_S2048x1)
        broadcasts_S2048x1_S2048x128 (ix2 r g))).setWidth 32).toInt : ℝ) : EReal)
      = Spec.ohw (v12 (ix3 (0 : Fin 1) (0 : Fin 1) r)) g := by
  unfold Spec.ohw
  rw [iota_single_apply, broadcastTo_a1_ab_apply, transpose_ix2_apply, k1_pay9_apply, eqbit_real]

theorem zero_f32 : (Scalar.ofBits (F := Ideal) .f32 0x00000000#32 : EReal) = 0 := Ideal.ofBits_zero_f32

theorem k1_pay11_apply (x : Vec Ideal S2048x128 .bf16) (w : Vec Ideal S128x256 .bf16) (b : Vec Ideal S256 .f32)
    (s : Vec Ideal S1x1x2048 .i32) (tb : Vec Ideal S128x512 .f32) (r : Fin 2048) (j : Fin 256) :
    k1_pay11 x w b s tb (ix2 r j)
      = Spec.actK ((∑ κ : Fin 128, x (ix2 r κ) * w (ix2 κ j)) + b (ix1 j))
          (Spec.ktab (fun g j => tb (ix2 g j)) (s (ix3 (0 : Fin 1) (0 : Fin 1) r)) (Fin.castAdd 256 j))
          (Spec.ktab (fun g j => tb (ix2 g j)) (s (ix3 (0 : Fin 1) (0 : Fin 1) r)) (Fin.natAdd 256 j)) := by
  unfold k1_pay11 Spec.actK Spec.ktab
  simp only [shapeCast_self]
  rw [truncf_apply, maximumf_apply, subf_apply, mulf_apply, addf_apply, broadcast_apply]
  erw [matmul_zero_ix2]
  rw [broadcastTo_1b_ab_apply, shapeCast_a_1a_apply, slice2_axis1_eq, slice2_axis1_eq]
  erw [matmul_zero_ix2, matmul_zero_ix2]
  rw [zero_f32]
  have e0 : (⟨0 + j.val, Nat.lt_of_lt_of_le (Nat.add_lt_add_left j.isLt 0) (slices_S2048x512_o0_0_S2048x256.2 1)⟩ : Fin 512) = Fin.castAdd 256 j :=
    Fin.ext (Nat.zero_add _)
  have e1 : (⟨256 + j.val, Nat.lt_of_lt_of_le (Nat.add_lt_add_left j.isLt 256) (slices_S2048x512_o0_256_S2048x256.2 1)⟩ : Fin 512) = Fin.natAdd 256 j :=
    Fin.ext rfl
  rw [e0, e1]
  congr 1
  congr 1
  · congr 1
    exact Finset.sum_congr rfl fun g _ => congrArg (· * _) (onehot_rows_apply s r g)
  · exact Finset.sum_congr rfl fun g _ => congrArg (· * _) (onehot_rows_apply s r g)

theorem k1_pay1_apply (a : FVec Ideal S2048x256 .bf16) (w : FVec Ideal S256x64 .bf16) (b : Vec Ideal S64 .f32) (r : Fin 2048) (q : Fin 64) :
    k1_pay1 a w b (ix2 r q) = (∑ κ : Fin 256, a (ix2 r κ) * w (ix2 κ q)) + b (ix1 q) := by
  unfold k1_pay1
  exact congrArg₂ (· + ·) (matmul_zero_ix2 _ none a w r q) ((broadcastTo_1b_ab_apply _ _ r q).trans (shapeCast_a_1a_apply b _ 0 q))

theorem k1_pay2_eq (a : FVec Ideal S2048x256 .bf16) (w : FVec Ideal S256x64 .bf16) (b : Vec Ideal S64 .f32) (i : S2048x64.Idx) :
    k1_pay2 a w b i = k1_pay1 a w b i := rfl

theorem k1_pay3_apply (oh : FVec Ideal S128x2048 .bf16) (a : FVec Ideal S2048x256 .bf16) (w : FVec Ideal S256x64 .bf16)
    (b : Vec Ideal S64 .f32) (old : Vec Ideal S128x64 .f32) (g : Fin 128) (q : Fin 64) :
    k1_pay3 oh a w b old (ix2 g q) = old (ix2 g q) + ∑ r : Fin 2048, oh (ix2 g r) * k1_pay1 a w b (ix2 r q) := by
  unfold k1_pay3
  simp only [shapeCast_self]
  exact congrArg (old (ix2 g q) + ·) (matmul_zero_ix2 _ none oh _ g q)

theorem k1_pay4_apply (oh : FVec Ideal S128x2048 .bf16) (a : FVec Ideal S2048x256 .bf16) (w : FVec Ideal S256x64 .bf16)
    (b : Vec Ideal S64 .f32) (old : Vec Ideal S128x64 .f32) (g : Fin 128) (q : Fin 64) :
    k1_pay4 oh a w b old (ix2 g q)
      = old (ix2 g q) + Spec.hilo (fun r => oh (ix2 g r)) (fun r => k1_pay1 a w b (ix2 r q) * k1_pay1 a w b (ix2 r q)) := by
  unfold k1_pay4 Spec.hilo
  simp only [shapeCast_self]
  exact congrArg (old (ix2 g q) + ·) (congrArg₂ (· + ·) (matmul_zero_ix2 _ none oh _ g q) (matmul_zero_ix2 _ none oh _ g q))

theorem k1_pay5_apply (v : Vec Ideal S128x64 .f32) (u : Fin 1) (g : Fin 128) (q : Fin 64) :
    k1_pay5 v (ix3 u g q) = v (ix2 g q) := by
  unfold k1_pay5
  exact shapeCast_ab_1ab_apply _ _ _ _ _
theorem k1_pay6_apply (v : Vec Ideal S128x64 .f32) (u : Fin 1) (g : Fin 128) (q : Fin 64) :
    k1_pay6 v (ix3 u g q) = v (ix2 g q) := by
  unfold k1_pay6
  exact shapeCast_ab_1ab_apply _ _ _ _ _

theorem k1_pay7_apply (i : S128x64.Idx) : (k1_pay7 (F := Ideal) i : EReal) = 0 := by
  unfold k1_pay7
  simp only [shapeCast_self]
  exact zero_f32
theorem k1_pay8_apply (i : S128x64.Idx) : (k1_pay8 (F := Ideal) i : EReal) = 0 := by
  unfold k1_pay8
  simp only [shapeCast_self]
  exact zero_f32

theorem k1_pay12_eq (w : Vec Ideal S256x64 .bf16) : k1_pay12 w = w := by
  unfold k1_pay12
  exact shapeCast_self _ _

def tileAt (t : Fin cfg1.N) : Fin 392 := ⟨t.val, lt_of_lt_of_eq t.isLt N_1⟩

theorem half_lt (t : Fin cfg1.N) : t.val / 196 < 2 := by have := lt_of_lt_of_eq t.isLt N_1; omega

theorem idx1_0 : ∀ t : Fin grid1.N, win1_0.index t 0 = t.val ∧ win1_0.index t 1 = 0 := by decide +kernel
theorem idx1_1 : ∀ t : Fin grid1.N, win1_1.index t 0 = t.val ∧ win1_1.index t 1 = 0 ∧ win1_1.index t 2 = 0 := by decide +kernel
theorem idx1_2 : ∀ (t : Fin grid1.N) a, win1_2.index t a = 0 := by decide +kernel
theorem idx1_3 : ∀ (t : Fin grid1.N) a, win1_3.index t a = 0 := by decide +kernel
theorem idx1_4 : ∀ (t : Fin grid1.N) a, win1_4.index t a = 0 := by decide +kernel
theorem idx1_5 : ∀ (t : Fin grid1.N) a, win1_5.index t a = 0 := by decide +kernel
theorem idx1_6 : ∀ (t : Fin grid1.N) a, win1_6.index t a = 0 := by decide +kernel
theorem idx1_7 : ∀ t : Fin grid1.N, win1_7.index t 0 = t.val ∧ win1_7.index t 1 = 0 := by decide +kernel
theorem idx1_8 : ∀ t : Fin grid1.N, win1_8.index t 0 = t.val / 196 ∧ win1_8.index t 1 = 0 ∧ win1_8.index t 2 = 0 := by decide +kernel
theorem idx1_9 : ∀ t : Fin grid1.N, win1_9.index t 0 = t.val / 196 ∧ win1_9.index t 1 = 0 ∧ win1_9.index t 2 = 0 := by decide +kernel

theorem iblk1_0_apply (t : Fin cfg1.N) (r : Fin 2048) (κ : Fin 128) :
    (iblk1 (F := Ideal) V c 0 t : Vec Ideal S2048x128 .bf16) (ix2 r κ) = Xp V c (tileAt t) r κ :=
  congrArg (V c main_v27 : S802816x128.Idx → EReal) (emb_rows (idx1_0 t) r κ _)

theorem iblk1_1_apply (t : Fin cfg1.N) (r : Fin 2048) :
    (iblk1 (F := Ideal) V c 1 t : Vec Ideal S1x1x2048 .i32) (ix3 (0 : Fin 1) (0 : Fin 1) r) = segt V c (tileAt t) r :=
  congrArg (V c main_v29 : S392x1x2048.Idx → BitVec 32) (emb_half (idx1_1 t) (lt_of_lt_of_eq t.isLt N_1) 0 0 r)

theorem iblk1_2_apply (t : Fin cfg1.N) (g : Fin 128) (j : Fin 512) :
    (iblk1 (F := Ideal) V c 2 t : Vec Ideal S128x512 .f32) (ix2 g j) = tab1 V c g j :=
  congrArg (V c main_v63 : S128x512.Idx → EReal) (funext fun a => Fin.ext (win1_2.rect_emb_val_of_index_zero t a (idx1_2 t a) _))

theorem iblk1_3_apply (t : Fin cfg1.N) (κ : Fin 128) (j : Fin 256) :
    (iblk1 (F := Ideal) V c 3 t : Vec Ideal S128x256 .bf16) (ix2 κ j) = W1k V c κ j :=
  congrArg (V c main_v30 : S128x256.Idx → EReal) (funext fun a => Fin.ext (win1_3.rect_emb_val_of_index_zero t a (idx1_3 t a) _))

theorem iblk1_4_apply (t : Fin cfg1.N) (j : Fin 256) :
    (iblk1 (F := Ideal) V c 4 t : Vec Ideal S256 .f32) (ix1 j) = b1k V c j :=
  congrArg (V c main_arg4 : S256.Idx → EReal) (funext fun a => Fin.ext (win1_4.rect_emb_val_of_index_zero t a (idx1_4 t a) _))

theorem iblk1_5_apply (t : Fin cfg1.N) (κ : Fin 256) (q : Fin 64) :
    (iblk1 (F := Ideal) V c 5 t : Vec Ideal S256x64 .bf16) (ix2 κ q) = W2k V c κ q :=
  congrArg (V c main_v31 : S256x64.Idx → EReal) (funext fun a => Fin.ext (win1_5.rect_emb_val_of_index_zero t a (idx1_5 t a) _))

theorem iblk1_6_apply (t : Fin cfg1.N) (q : Fin 64) :
    (iblk1 (F := Ideal) V c 6 t : Vec Ideal S64 .f32) (ix1 q) = b2k V c q :=
  congrArg (V c main_arg6 : S64.Idx → EReal) (funext fun a => Fin.ext (win1_6.rect_emb_val_of_index_zero t a (idx1_6 t a) _))

theorem act1_tile_apply (t : Fin cfg1.N) (r : Fin 2048) (κ : Fin 256) :
    k1_pay11 (iblk1 (F := Ideal) V c 0 t) (iblk1 (F := Ideal) V c 3 t) (iblk1 (F := Ideal) V c 4 t) (iblk1 (F := Ideal) V c 1 t)
        (iblk1 (F := Ideal) V c 2 t) (ix2 r κ)
      = act1K V c (tileAt t) r κ := by
  rw [k1_pay11_apply, iblk1_1_apply, iblk1_4_apply]
  have htab : (fun g j => (iblk1 (F := Ideal) V c 2 t : Vec Ideal S128x512 .f32) (ix2 g j)) = tab1 V c :=
    funext fun g => funext fun j => iblk1_2_apply V c t g j
  rw [htab]
  simp only [iblk1_0_apply, iblk1_3_apply]
  rfl

theorem lin2_tile_apply (t : Fin cfg1.N) (r : Fin 2048) (q : Fin 64) :
    k1_pay1 (k1_pay11 (iblk1 (F := Ideal) V c 0 t) (iblk1 (F := Ideal) V c 3 t) (iblk1 (F := Ideal) V c 4 t)
        (iblk1 (F := Ideal) V c 1 t) (iblk1 (F := Ideal) V c 2 t)) (k1_pay12 (iblk1 (F := Ideal) V c 5 t)) (iblk1 (F := Ideal) V c 6 t) (ix2 r q)
      = lin2K V c (tileAt t) r q := by
  rw [k1_pay1_apply, k1_pay12_eq, iblk1_6_apply]
  simp only [act1_tile_apply, iblk1_5_apply]
  rfl

theorem lin2At1_apply (t : Fin cfg1.N) (r : Fin 2048) (q : Fin 64) :
    lin2At1 (F := Ideal) V c t (ix2 r q) = lin2K V c (tileAt t) r q := by
  unfold lin2At1 lin2Tile1
  rw [k1_pay2_eq]
  exact lin2_tile_apply V c t r q

theorem accStep1_fst_apply (t : Fin cfg1.N) (p : Vec Ideal S128x64 .f32 × Vec Ideal S128x64 .f32) (g : Fin 128) (q : Fin 64) :
    (accStep1 (F := Ideal) V c t p).1 (ix2 g q)
      = p.1 (ix2 g q) + ∑ r : Fin 2048, Spec.ohw (segt V c (tileAt t) r) g * lin2K V c (tileAt t) r q := by
  unfold accStep1 sumStep1
  show k1_pay3 _ _ _ _ p.1 (ix2 g q) = _
  rw [k1_pay3_apply]
  simp only [k1_pay10_apply, iblk1_1_apply, lin2_tile_apply]

theorem accStep1_snd_apply (t : Fin cfg1.N) (p : Vec Ideal S128x64 .f32 × Vec Ideal S128x64 .f32) (g : Fin 128) (q : Fin 64) :
    (accStep1 (F := Ideal) V c t p).2 (ix2 g q)
      = p.2 (ix2 g q) + Spec.hilo (fun r => Spec.ohw (segt V c (tileAt t) r) g)
          (fun r => lin2K V c (tileAt t) r q * lin2K V c (tileAt t) r q) := by
  unfold accStep1 sumsqStep1
  show k1_pay4 _ _ _ _ p.2 (ix2 g q) = _
  rw [k1_pay4_apply]
  simp only [k1_pay10_apply, iblk1_1_apply, lin2_tile_apply]

/-- After a half's last tile, a reading of the two running sums, zero at the reset and raised by each tile's term, is the sum of the half's terms. -/
theorem accAt1_last (P : Vec Ideal S128x64 .f32 × Vec Ideal S128x64 .f32 → EReal) (f : Fin 392 → EReal) (hz : P accZero1 = 0)
    (hs : ∀ (t : Fin cfg1.N) s, P (accStep1 (F := Ideal) V c t s) = P s + f ⟨t.val, N_1 ▸ t.isLt⟩)
    (t : Fin cfg1.N) (h195 : t.val % 196 = 195) :
    P (accAt1 (F := Ideal) V c t.val t.isLt) = ∑ i : Fin 196, f (Spec.tileOf ⟨t.val / 196, half_lt t⟩ i) :=
  fold_last N_1 (accAt1 V c) (accStep1 V c) accZero1 (accAt1_first V c) (accAt1_next V c) P f hz hs t h195

def lin2Arr : S802816x64.Idx → EReal := fun i =>
  lin2K V c ⟨(i 0).val / 2048, by have := idx2_lt0 i; omega⟩ ⟨(i 0).val % 2048, Nat.mod_lt _ (by decide)⟩ (i 1)

theorem lin2Arr_prow (t : Fin 392) (r : Fin 2048) (q : Fin 64) : lin2Arr V c (ix2 (prow t r) q) = lin2K V c t r q := by
  have h0 : (⟨(t.val * 2048 + r.val) / 2048, by have := t.isLt; have := r.isLt; omega⟩ : Fin 392) = t :=
    Fin.ext (by show (t.val * 2048 + r.val) / 2048 = t.val; have := r.isLt; omega)
  have h1 : (⟨(t.val * 2048 + r.val) % 2048, Nat.mod_lt _ (by decide)⟩ : Fin 2048) = r :=
    Fin.ext (by show (t.val * 2048 + r.val) % 2048 = r.val; have := r.isLt; omega)
  show lin2K V c ⟨(t.val * 2048 + r.val) / 2048, _⟩ ⟨(t.val * 2048 + r.val) % 2048, _⟩ q = _
  rw [h0, h1]

def sumArr : S2x128x64.Idx → EReal := fun i => Spec.kstat1 (segt V c) (lin2K V c) (i 0) (i 1) (i 2)
def sumsqArr : S2x128x64.Idx → EReal := fun i =>
  Spec.kstat (segt V c) (fun t r q => lin2K V c t r q * lin2K V c t r q) (i 0) (i 1) (i 2)

theorem blk7_emb (p : Fin cfg1.N) (r : Fin 2048) (q : Fin 64) :
    ((cfg1.win 7).blk p).view.emb (ix2 r q) = (ix2 (prow (tileAt p) r) q : S802816x64.Idx) :=
  emb_rows (idx1_7 p) r q _

theorem flushed7_eq (p : Fin cfg1.N) (hf : (cfg1.win 7).flush p = true) :
    (dat1 (F := Ideal) V c).flushed 7 p = ((cfg1.win 7).blk p).view.read (Elt Ideal) (lin2Arr V c) := by
  funext x
  obtain ⟨r, q, rfl⟩ : ∃ (r : Fin 2048) (q : Fin 64), x = ix2 r q := ⟨x 0, x 1, eq_ix2 (n0 := 2048) (n1 := 64) x⟩
  show (dat1 (F := Ideal) V c).after 7 p (ix2 r q) = _
  rw [after1_7, lin2At1_apply, View.read_apply, blk7_emb]
  exact (lin2Arr_prow V c (tileAt p) r q).symm

theorem flushed8_eq (p : Fin cfg1.N) (hf : (cfg1.win 8).flush p = true) :
    (dat1 (F := Ideal) V c).flushed 8 p = ((cfg1.win 8).blk p).view.read (Elt Ideal) (sumArr V c) := by
  show (cfg1.win 8).cut (grid1.coords p) ((dat1 (F := Ideal) V c).after 8 p) = _
  rw [after1_8]
  exact read_half (idx1_8 p) (half_lt p) (sumArr V c) _ fun g q => (k1_pay5_apply _ 0 g q).trans
    (accAt1_last V c (fun s => s.1 (ix2 g q)) (fun n => ∑ r : Fin 2048, Spec.ohw (segt V c n r) g * lin2K V c n r q)
      (k1_pay7_apply (ix2 g q)) (fun t s => accStep1_fst_apply V c t s g q) p ((flush1_8 p).mp hf))

theorem flushed9_eq (p : Fin cfg1.N) (hf : (cfg1.win 9).flush p = true) :
    (dat1 (F := Ideal) V c).flushed 9 p = ((cfg1.win 9).blk p).view.read (Elt Ideal) (sumsqArr V c) := by
  show (cfg1.win 9).cut (grid1.coords p) ((dat1 (F := Ideal) V c).after 9 p) = _
  rw [after1_9]
  exact read_half (idx1_9 p) (half_lt p) (sumsqArr V c) _ fun g q => (k1_pay6_apply _ 0 g q).trans
    (accAt1_last V c (fun s => s.2 (ix2 g q))
      (fun n => Spec.hilo (fun r => Spec.ohw (segt V c n r) g) (fun r => lin2K V c n r q * lin2K V c n r q))
      (k1_pay8_apply (ix2 g q)) (fun t s => accStep1_snd_apply V c t s g q) p ((flush1_9 p).mp hf))

def lastOf (c2 : Fin 2) : Fin cfg1.N := ⟨c2.val * 196 + 195, by rw [show cfg1.N = 392 from N_1]; have := c2.isLt; omega⟩

theorem lastOf_half (c2 : Fin 2) (h) : (⟨(lastOf c2).val / 196, h⟩ : Fin 2) = c2 := Fin.ext (half_last c2).2

end K1V

open K1V

theorem arr1_lin2 (t : Fin 392) (r : Fin 2048) (q : Fin 64) :
    ((dat1 (F := Ideal) V c).arrAt 7 cfg1.N : S802816x64.Idx → EReal) (ix2 (prow t r) q) = lin2K V c t r q := by
  have hm := ((cfg1.win 7).blk ⟨t.val, lt_of_lt_of_eq t.isLt N_1.symm⟩).view.emb_mem_set (ix2 r q)
  rw [blk7_emb] at hm
  exact ((dat1 (F := Ideal) V c).arrAt_apply_of_mem 7 (lin2Arr V c) (flushed7_eq V c) cfg1.N ⟨t.val, lt_of_lt_of_eq t.isLt N_1.symm⟩ _
    (lt_of_lt_of_eq t.isLt N_1.symm) (flush1_7 _) hm).trans (lin2Arr_prow V c t r q)

theorem arr1_sum (c2 : Fin 2) (g : Fin 128) (q : Fin 64) :
    ((dat1 (F := Ideal) V c).arrAt 8 cfg1.N : S2x128x64.Idx → EReal) (ix3 c2 g q)
      = Spec.kstat1 (segt V c) (lin2K V c) c2 g q := by
  have hm := ((cfg1.win 8).blk (lastOf c2)).view.emb_mem_set (ix3 (0 : Fin 1) g q)
  rw [show ((cfg1.win 8).blk (lastOf c2)).view.emb (ix3 (0 : Fin 1) g q) = _ from emb_half (idx1_8 _) (half_lt _) 0 g q, lastOf_half] at hm
  exact (dat1 (F := Ideal) V c).arrAt_apply_of_mem 8 (sumArr V c) (flushed8_eq V c) cfg1.N (lastOf c2) _ (lastOf c2).isLt
    ((flush1_8 _).mpr (half_last c2).1) hm

theorem arr1_sumsq (c2 : Fin 2) (g : Fin 128) (q : Fin 64) :
    ((dat1 (F := Ideal) V c).arrAt 9 cfg1.N : S2x128x64.Idx → EReal) (ix3 c2 g q)
      = Spec.kstat (segt V c) (fun t r q => lin2K V c t r q * lin2K V c t r q) c2 g q := by
  have hm := ((cfg1.win 9).blk (lastOf c2)).view.emb_mem_set (ix3 (0 : Fin 1) g q)
  rw [show ((cfg1.win 9).blk (lastOf c2)).view.emb (ix3 (0 : Fin 1) g q) = _ from emb_half (idx1_9 _) (half_lt _) 0 g q, lastOf_half] at hm
  exact (dat1 (F := Ideal) V c).arrAt_apply_of_mem 9 (sumsqArr V c) (flushed9_eq V c) cfg1.N (lastOf c2) _ (lastOf c2).isLt
    ((flush1_9 _).mpr (half_last c2).1) hm

end Cert.KernelIdeal.Hand

end
-- ==== Proof.K2Value.lean ====
import proofs.«413591_j8993661518313_3_alg».proof.Proof.K2Frame
import proofs.«413591_j8993661518313_3_alg».proof.Proof.KArrays
import proofs.«413591_j8993661518313_3_alg».proof.Proof.LibTile
import Idealize.ShloMosaic.Lib.ValueLayout

noncomputable section

open scoped BigOperators

namespace Cert.KernelIdeal.Hand

open Idealize.ShloMosaic Idealize.ShloMosaic.TcCoe Idealize.ShloMosaic.ValueIdx Idealize.SL.Sem
open Idealize.ShloMosaic.Pipeline (Dat)
open Cert.KernelIdeal Cert.KernelIdeal.Gen Cert.Tile

namespace Finalize

theorem onehot_apply (sw : Vec Ideal S1x1x2048 .i32) (r : Fin 2048) (g : Fin 128) :
    (truncf .bf16 (sitofp (F := Ideal) .f32 (extui 32 (cmpi .eq (iota .tc S2048x128 32 [1] iota_S2048x128_d1_w32)
        (broadcastTo S2048x128 (transpose S2048x1 [1, 0] (shapeCast S1x2048 sw shapeCasts_S1x1x2048_S1x2048)
          transposes_S1x2048_p1_0_S2048x1) broadcasts_S2048x1_S2048x128)) natLt_1_32)) bitsLt_bf16_f32
        : FVec Ideal S2048x128 .bf16) (ix2 r g)
      = Spec.ohw (sw (ix3 (0 : Fin 1) (0 : Fin 1) r)) g := by
  rw [truncf_apply, sitofp_apply, extui_apply]
  show ((((IntOp.cmpi .eq (iota .tc S2048x128 32 [1] iota_S2048x128_d1_w32 (ix2 r g))
      (broadcastTo S2048x128 (transpose S2048x1 [1, 0] (shapeCast S1x2048 sw shapeCasts_S1x1x2048_S1x2048)
          transposes_S1x2048_p1_0_S2048x1) broadcasts_S2048x1_S2048x128 (ix2 r g))).setWidth 32).toInt : ℝ) : EReal) = _
  rw [iota_single_apply, broadcastTo_a1_ab_apply, transpose_ix2_apply, shapeCast_1ab_ab_apply]
  exact eqbit_real _ _

theorem lookup_apply (sw : Vec Ideal S1x1x2048 .i32) (tb : Vec Ideal S128x128 .f32) (r : Fin 2048) (j : Fin 128) :
    matmul dot_S2048x128_S128x128_S2048x128_1_0_0_1_n_n none
        (truncf .bf16 (sitofp (F := Ideal) .f32 (extui 32 (cmpi .eq (iota .tc S2048x128 32 [1] iota_S2048x128_d1_w32)
          (broadcastTo S2048x128 (transpose S2048x1 [1, 0] (shapeCast S1x2048 sw shapeCasts_S1x1x2048_S1x2048)
            transposes_S1x2048_p1_0_S2048x1) broadcasts_S2048x1_S2048x128)) natLt_1_32)) bitsLt_bf16_f32)
        (truncf .bf16 (tb : FVec Ideal S128x128 .f32) bitsLt_bf16_f32)
        (constant (F := Ideal) S2048x128 .f32 0x00000000#32) (ix2 r j)
      = Spec.ktab (fun g j => tb (ix2 g j)) (sw (ix3 (0 : Fin 1) (0 : Fin 1) r)) j := by
  erw [matmul_zero_ix2]
  unfold Spec.ktab
  refine Finset.sum_congr rfl fun g _ => ?_
  rw [onehot_apply, truncf_apply]

theorem k2_pay1_apply (x : Vec Ideal S2048x64 .bf16) (sw : Vec Ideal S1x1x2048 .i32) (tb : Vec Ideal S128x128 .f32)
    (w3 : Vec Ideal S64x1 .bf16) (bb : Vec Ideal S1 .f32) (r : Fin 2048) :
    (k2_pay1 (F := Ideal) x sw tb w3 bb : S1x1x2048.Idx → EReal) (ix3 (0 : Fin 1) (0 : Fin 1) r)
      = (∑ κ : Fin 64, Spec.actK (x (ix2 r κ))
            (Spec.ktab (fun g j => tb (ix2 g j)) (sw (ix3 (0 : Fin 1) (0 : Fin 1) r)) (Fin.castAdd 64 κ))
            (Spec.ktab (fun g j => tb (ix2 g j)) (sw (ix3 (0 : Fin 1) (0 : Fin 1) r)) (Fin.natAdd 64 κ))
          * w3 (ix2 κ (0 : Fin 1)))
        + bb (ix1 (0 : Fin 1)) := by
  unfold k2_pay1
  simp only [shapeCast_self]
  rw [shapeCast_ab_1ab_apply, transpose_ix2_apply, addf_apply]
  erw [matmul_zero_ix2]
  rw [broadcastTo_1b_ab_apply, shapeCast_a_1a_apply]
  refine congrArg (· + bb (ix1 (0 : Fin 1))) (Finset.sum_congr rfl fun κ _ => ?_)
  rw [truncf_apply, maximumf_apply, subf_apply, mulf_apply, extf_apply, broadcast_apply,
    slice2_axis1_apply 0 _ _ r κ (Fin.castAdd 64 κ) (by simp),
    slice2_axis1_apply 64 _ _ r κ (Fin.natAdd 64 κ) (Fin.coe_natAdd 64 κ),
    lookup_apply, lookup_apply]
  show max _ (Ideal.ofBits .f32 0x00000000#32) * _ = _
  rw [Ideal.ofBits_zero_f32]
  rfl

variable (V : Val) (c : Dev nD)

theorem idx2_0 : ∀ t : Fin grid2.N, win2_0.index t 0 = t.val ∧ win2_0.index t 1 = 0 := by decide +kernel
theorem idx2_1 : ∀ t : Fin grid2.N, win2_1.index t 0 = t.val ∧ win2_1.index t 1 = 0 ∧ win2_1.index t 2 = 0 := by decide +kernel
theorem idx2_2 : ∀ (t : Fin grid2.N) a, win2_2.index t a = 0 := by decide +kernel
theorem idx2_3 : ∀ (t : Fin grid2.N) a, win2_3.index t a = 0 := by decide +kernel
theorem idx2_4 : ∀ (t : Fin grid2.N) a, win2_4.index t a = 0 := by decide +kernel
theorem idx2_5 : ∀ t : Fin grid2.N, win2_5.index t 0 = t.val ∧ win2_5.index t 1 = 0 ∧ win2_5.index t 2 = 0 := by decide +kernel

def tileAt (t : Fin cfg2.N) : Fin 392 := ⟨t.val, lt_of_lt_of_eq t.isLt N_2⟩

theorem iblk2_lin (t : Fin cfg2.N) (r : Fin 2048) (κ : Fin 64) :
    (iblk2 V c 0 t : Vec Ideal S2048x64 .bf16) (ix2 r κ) = lin2p V c (tileAt t) r κ :=
  congrArg (V c main_v64_0 : S802816x64.Idx → EReal) (emb_rows (idx2_0 t) r κ _)

theorem iblk2_seg (t : Fin cfg2.N) (r : Fin 2048) :
    (iblk2 V c 1 t : Vec Ideal S1x1x2048 .i32) (ix3 (0 : Fin 1) (0 : Fin 1) r) = segt V c (tileAt t) r :=
  congrArg (V c main_v29 : S392x1x2048.Idx → BitVec 32) (emb_half (idx2_1 t) (lt_of_lt_of_eq t.isLt N_2) 0 0 r)

theorem iblk2_tab (t : Fin cfg2.N) (g j : Fin 128) :
    (iblk2 V c 2 t : Vec Ideal S128x128 .f32) (ix2 g j) = tab2 V c g j :=
  congrArg (V c main_v87 : S128x128.Idx → EReal) (funext fun a => Fin.ext (win2_2.rect_emb_val_of_index_zero t a (idx2_2 t a) _))

theorem iblk2_w3 (t : Fin cfg2.N) (κ : Fin 64) :
    (iblk2 V c 3 t : Vec Ideal S64x1 .bf16) (ix2 κ (0 : Fin 1)) = W3k V c κ :=
  congrArg (V c main_v32 : S64x1.Idx → EReal) (funext fun a => Fin.ext (win2_3.rect_emb_val_of_index_zero t a (idx2_3 t a) _))

theorem iblk2_b3 (t : Fin cfg2.N) :
    (iblk2 V c 4 t : Vec Ideal S1 .f32) (ix1 (0 : Fin 1)) = b3k V c :=
  congrArg (V c main_arg8 : S1.Idx → EReal) (funext fun a => Fin.ext (win2_4.rect_emb_val_of_index_zero t a (idx2_4 t a) _))

def logitT (t : Fin 392) (r : Fin 2048) : EReal :=
  (∑ κ : Fin 64, Spec.actK (lin2p V c t r κ) (Spec.ktab (tab2 V c) (segt V c t r) (Fin.castAdd 64 κ))
      (Spec.ktab (tab2 V c) (segt V c t r) (Fin.natAdd 64 κ)) * W3k V c κ) + b3k V c

def logits : S392x1x2048.Idx → EReal := fun i => logitT V c (i 0) (i 2)

theorem zero3 : (![0, 0, 0] : Fin 3 → Nat) = fun _ => 0 := funext fun a => by fin_cases a <;> rfl
theorem zero2 : (![0, 0] : Fin 2 → Nat) = fun _ => 0 := funext fun a => by fin_cases a <;> rfl
theorem zero1 : (![0] : Fin 1 → Nat) = fun _ => 0 := funext fun a => by fin_cases a <;> rfl

theorem flushed2_5 (t : Fin cfg2.N) :
    (dat2 (F := Ideal) V c).flushed 5 t = ((cfg2.win 5).blk t).view.read (Elt Ideal) (logits V c) := by
  show (cfg2.win 5).cut (grid2.coords t) ((dat2 (F := Ideal) V c).after 5 t) = _
  rw [after2_5]
  unfold out2_5
  rw [View.canon_unit_zero zero3]
  simp only [View.ld_unit_zero (S := S2048x64) zero2, View.ld_unit_zero (S := S1x1x2048) zero3,
    View.ld_unit_zero (S := S128x128) zero2, View.ld_unit_zero (S := S64x1) zero2, View.ld_unit_zero (S := S1) zero1]
  refine read_half (idx2_5 t) (lt_of_lt_of_eq t.isLt N_2) (logits V c) _ fun z r => ?_
  obtain rfl : z = 0 := Subsingleton.elim _ _
  refine (k2_pay1_apply _ _ _ _ _ r).trans ?_
  show _ = logitT V c (tileAt t) r
  unfold logitT
  rw [show (fun g j => (iblk2 V c 2 t : Vec Ideal S128x128 .f32) (ix2 g j)) = tab2 V c from
    funext fun g => funext fun j => iblk2_tab V c t g j, iblk2_seg, iblk2_b3]
  refine congrArg (· + b3k V c) (Finset.sum_congr rfl fun κ _ => ?_)
  rw [iblk2_lin, iblk2_w3]

end Finalize

open Finalize

variable (V : Val) (c : Dev nD)

theorem arr2_out (t : Fin 392) (r : Fin 2048) :
    ((dat2 (F := Ideal) V c).arrAt 5 cfg2.N : S392x1x2048.Idx → EReal) (ix3 t (0 : Fin 1) r)
      = (∑ κ : Fin 64, Spec.actK (lin2p V c t r κ) (Spec.ktab (tab2 V c) (segt V c t r) (Fin.castAdd 64 κ))
            (Spec.ktab (tab2 V c) (segt V c t r) (Fin.natAdd 64 κ)) * W3k V c κ) + b3k V c := by
  have hm := ((cfg2.win 5).blk ⟨t.val, lt_of_lt_of_eq t.isLt N_2.symm⟩).view.emb_mem_set (ix3 (0 : Fin 1) (0 : Fin 1) r)
  rw [show ((cfg2.win 5).blk ⟨t.val, lt_of_lt_of_eq t.isLt N_2.symm⟩).view.emb (ix3 (0 : Fin 1) (0 : Fin 1) r) = _ from
    emb_half (idx2_5 _) t.isLt 0 0 r] at hm
  exact (dat2 (F := Ideal) V c).arrAt_apply_of_mem 5 (logits V c) (fun p _ => flushed2_5 V c p) cfg2.N
    ⟨t.val, lt_of_lt_of_eq t.isLt N_2.symm⟩ _ (lt_of_lt_of_eq t.isLt N_2.symm) (flush2_5 _) hm

end Cert.KernelIdeal.Hand

end
-- ==== Proof.HostTables.lean ====
import proofs.«413591_j8993661518313_3_alg».proof.Proof.Gen.KernelIdeal.Launch
import proofs.«413591_j8993661518313_3_alg».proof.Proof.Spec
import Idealize.ShloMosaic.Lib.ValueIdx
import Idealize.ShloMosaic.Lib.ValueLayout
import Idealize.ShloMosaic.Lib.IdealHost
import Idealize.ShloMosaic.Lib.StableHlo.Run

set_option maxRecDepth 16384

noncomputable section

namespace Cert.KernelIdeal.Hand

open Idealize.ShloMosaic Idealize.ShloMosaic.TcCoe Idealize.ShloMosaic.ValueIdx Idealize.SL.Sem
open Cert.KernelIdeal Cert.KernelIdeal.Gen

variable (U : Valuation τ sig (Elt Ideal))

section Layout

variable {α : Type}

theorem half_apply {C : ℕ} (o : ℕ) (X : (⟨3, ![2, 128, C]⟩ : Shape).Idx → α)
    (hs : (⟨3, ![2, 128, C]⟩ : Shape).Slices ![o, 0, 0] ⟨3, ![1, 128, C]⟩)
    (hc : (⟨3, ![1, 128, C]⟩ : Shape).ShapeCasts ⟨2, ![128, C]⟩) (h : Fin 2) (ho : h.val = o) (g : Fin 128) (j : Fin C) :
    shapeCast ⟨2, ![128, C]⟩ (extractStridedSlice ⟨3, ![1, 128, C]⟩ ![o, 0, 0] X hs) hc (ix2 g j) = X (ix3 h g j) := by
  rw [shapeCast_1ab_ab_apply]
  exact extractStridedSlice_apply _ _ _ _ _ (fun ax => by
    match ax with
    | ⟨0, _⟩ => exact ho.trans (Nat.add_zero _).symm
    | ⟨1, _⟩ => exact (Nat.zero_add _).symm
    | ⟨2, _⟩ => exact (Nat.zero_add _).symm)

theorem colBcast_apply {C : ℕ} (x : (⟨2, ![128, 1]⟩ : Shape).Idx → α)
    (hb : (⟨2, ![128, 1]⟩ : Shape).BroadcastsInDim ⟨2, ![128, C]⟩ (![0, 1] : Fin 2 → Fin 2)) (g : Fin 128) (j : Fin C) :
    broadcastInDim ⟨2, ![128, C]⟩ ![0, 1] hb x (ix2 g j) = x (ix2 g (0 : Fin 1)) :=
  broadcastInDim_apply _ hb x _ _ (fun a => by
    match a with
    | ⟨0, _⟩ => show g.val = if (128 : ℕ) = 1 then 0 else g.val; rw [if_neg (by decide)]
    | ⟨1, _⟩ => show (0 : ℕ) = if (1 : ℕ) = 1 then 0 else j.val; rw [if_pos rfl])

theorem scalarBcast_apply {t : Shape} (x : (⟨0, ![]⟩ : Shape).Idx → α)
    (hb : (⟨0, ![]⟩ : Shape).BroadcastsInDim t (![] : Fin 0 → Fin t.rank)) (i : t.Idx) :
    broadcastInDim t ![] hb x i = x ix0 :=
  broadcastInDim_apply _ hb x _ _ (fun a => a.elim0)

theorem cat_left_apply {C D : ℕ} (a b : (⟨2, ![128, C]⟩ : Shape).Idx → α)
    (hc : Shape.Concatenates [⟨2, ![128, C]⟩, ⟨2, ![128, C]⟩] ⟨2, ![128, D]⟩ 1) (g : Fin 128) (j : Fin C) (k : Fin D)
    (hk : k.val = j.val) :
    concatenate ⟨2, ![128, D]⟩ 1 [⟨⟨2, ![128, C]⟩, a⟩, ⟨⟨2, ![128, C]⟩, b⟩] hc (ix2 g k) = a (ix2 g j) :=
  concatenate_pair_apply_left 1 a b hc _ rfl _ (fun ax => by
    match ax with
    | ⟨0, _⟩ => rfl
    | ⟨1, _⟩ => exact hk.symm)

theorem cat_right_apply {C D : ℕ} (a b : (⟨2, ![128, C]⟩ : Shape).Idx → α)
    (hc : Shape.Concatenates [⟨2, ![128, C]⟩, ⟨2, ![128, C]⟩] ⟨2, ![128, D]⟩ 1) (g : Fin 128) (j : Fin C) (k : Fin D)
    (hk : k.val = C + j.val) :
    concatenate ⟨2, ![128, D]⟩ 1 [⟨⟨2, ![128, C]⟩, a⟩, ⟨⟨2, ![128, C]⟩, b⟩] hc (ix2 g k) = b (ix2 g j) :=
  concatenate_pair_apply_right 1 a b hc _ rfl rfl _ (fun ax hne => by
    match ax with
    | ⟨0, _⟩ => rfl
    | ⟨1, _⟩ => exact absurd rfl hne)
    (by show j.val + C = k.val; omega)

end Layout

section Arithmetic

variable {C : ℕ}

theorem sum_read (X : (⟨3, ![2, 128, C]⟩ : Shape).Idx → EReal)
    (hs0 : (⟨3, ![2, 128, C]⟩ : Shape).Slices ![0, 0, 0] ⟨3, ![1, 128, C]⟩)
    (hs1 : (⟨3, ![2, 128, C]⟩ : Shape).Slices ![1, 0, 0] ⟨3, ![1, 128, C]⟩)
    (hc : (⟨3, ![1, 128, C]⟩ : Shape).ShapeCasts ⟨2, ![128, C]⟩) (g : Fin 128) (j : Fin C) :
    addf (F := Ideal) (φ := .f32) (shapeCast ⟨2, ![128, C]⟩ (extractStridedSlice ⟨3, ![1, 128, C]⟩ ![0, 0, 0] X hs0) hc)
        (shapeCast ⟨2, ![128, C]⟩ (extractStridedSlice ⟨3, ![1, 128, C]⟩ ![1, 0, 0] X hs1) hc) (ix2 g j)
      = X (ix3 (0 : Fin 2) g j) + X (ix3 (1 : Fin 2) g j) := by
  rw [addf_apply, half_apply 0 X hs0 hc 0 rfl, half_apply 1 X hs1 hc 1 rfl]

theorem cnt_read (N : (⟨3, ![2, 128, 1]⟩ : Shape).Idx → EReal)
    (hs0 : (⟨3, ![2, 128, 1]⟩ : Shape).Slices ![0, 0, 0] ⟨3, ![1, 128, 1]⟩)
    (hs1 : (⟨3, ![2, 128, 1]⟩ : Shape).Slices ![1, 0, 0] ⟨3, ![1, 128, 1]⟩)
    (hc : (⟨3, ![1, 128, 1]⟩ : Shape).ShapeCasts ⟨2, ![128, 1]⟩)
    (hb : (⟨0, ![]⟩ : Shape).BroadcastsInDim ⟨2, ![128, 1]⟩ (![] : Fin 0 → Fin 2)) (g : Fin 128) :
    maximumf (F := Ideal) (φ := .f32)
        (addf (shapeCast ⟨2, ![128, 1]⟩ (extractStridedSlice ⟨3, ![1, 128, 1]⟩ ![0, 0, 0] N hs0) hc)
          (shapeCast ⟨2, ![128, 1]⟩ (extractStridedSlice ⟨3, ![1, 128, 1]⟩ ![1, 0, 0] N hs1) hc))
        (broadcastInDim ⟨2, ![128, 1]⟩ ![] hb (constant (F := Ideal) ⟨0, ![]⟩ .f32 0x3F800000#32)) (ix2 g (0 : Fin 1))
      = Spec.cntK (N (ix3 (0 : Fin 2) g (0 : Fin 1))) (N (ix3 (1 : Fin 2) g (0 : Fin 1))) := by
  rw [maximumf_apply, sum_read N hs0 hs1 hc g 0, scalarBcast_apply, constant_apply, Ideal.ofBits_one_f32]
  rfl

theorem scale_read {s : Shape} (sS sQ cB cB' zB eB : FVec Ideal s .f32) (i : s.Idx) {s0 s1 q0 q1 cn : EReal}
    (hS : sS i = s0 + s1) (hQ : sQ i = q0 + q1) (hc : cB i = cn) (hc' : cB' i = cn)
    (hz : zB i = Ideal.ofBits .f32 0x00000000#32) (he : eB i = Ideal.ofBits .f32 0x3727C5AC#32) :
    Host.rsqrt (addf (maximumf (subf (Host.divf sQ cB') (mulf (Host.divf sS cB) (Host.divf sS cB))) zB) eB) i
      = Spec.scaleT cn s0 s1 q0 q1 := by
  show Ideal.rsqrt (max (Ideal.div (sQ i) (cB' i) - Ideal.div (sS i) (cB i) * Ideal.div (sS i) (cB i)) (zB i) + eB i) = _
  rw [hS, hQ, hc, hc', hz, he, Ideal.ofBits_zero_f32]
  rfl

theorem shift_read {s : Shape} (sS sQ cB cB' zB eB : FVec Ideal s .f32) (i : s.Idx) {s0 s1 q0 q1 cn : EReal}
    (hS : sS i = s0 + s1) (hQ : sQ i = q0 + q1) (hc : cB i = cn) (hc' : cB' i = cn)
    (hz : zB i = Ideal.ofBits .f32 0x00000000#32) (he : eB i = Ideal.ofBits .f32 0x3727C5AC#32) :
    mulf (Host.divf sS cB)
        (Host.rsqrt (addf (maximumf (subf (Host.divf sQ cB') (mulf (Host.divf sS cB) (Host.divf sS cB))) zB) eB)) i
      = Spec.shiftT cn s0 s1 q0 q1 := by
  show Ideal.div (sS i) (cB i)
      * Ideal.rsqrt (max (Ideal.div (sQ i) (cB' i) - Ideal.div (sS i) (cB i) * Ideal.div (sS i) (cB i)) (zB i) + eB i) = _
  rw [hS, hQ, hc, hc', hz, he, Ideal.ofBits_zero_f32]
  rfl

theorem constBcast_read {t : Shape} (hb : (⟨0, ![]⟩ : Shape).BroadcastsInDim t (![] : Fin 0 → Fin t.rank)) (w : BitVec 32)
    (i : t.Idx) :
    broadcastInDim t ![] hb (constant (F := Ideal) ⟨0, ![]⟩ .f32 w) i = Ideal.ofBits .f32 w := by
  rw [scalarBcast_apply, constant_apply]

end Arithmetic

theorem cnt_v50 (g : Fin 128) :
    (StableHlo.after hostOps1 U main_v50 : S128x1.Idx → EReal) (ix2 g (0 : Fin 1))
      = Spec.cntK ((U main_v33_2 : S2x128x1.Idx → EReal) (ix3 (0 : Fin 2) g (0 : Fin 1))) ((U main_v33_2 : S2x128x1.Idx → EReal) (ix3 (1 : Fin 2) g (0 : Fin 1))) := by
  after_results
  exact cnt_read (U main_v33_2 : S2x128x1.Idx → EReal) _ _ _ _ g

theorem tab1_scale (g : Fin 128) (j : Fin 256) :
    (StableHlo.after hostOps1 U main_v63 : S128x512.Idx → EReal) (ix2 g (Fin.castAdd 256 j))
      = Spec.scaleT (Spec.cntK ((U main_v33_2 : S2x128x1.Idx → EReal) (ix3 (0 : Fin 2) g (0 : Fin 1))) ((U main_v33_2 : S2x128x1.Idx → EReal) (ix3 (1 : Fin 2) g (0 : Fin 1))))
          ((U main_v33_0 : S2x128x256.Idx → EReal) (ix3 (0 : Fin 2) g j)) ((U main_v33_0 : S2x128x256.Idx → EReal) (ix3 (1 : Fin 2) g j))
          ((U main_v33_1 : S2x128x256.Idx → EReal) (ix3 (0 : Fin 2) g j)) ((U main_v33_1 : S2x128x256.Idx → EReal) (ix3 (1 : Fin 2) g j)) := by
  after_results_simp
  refine (cat_left_apply (C := 256) (D := 512) _ _ _ g j _ rfl).trans ?_
  exact scale_read _ _ _ _ _ _ _
    (sum_read (U main_v33_0 : S2x128x256.Idx → EReal) _ _ _ g j)
    (sum_read (U main_v33_1 : S2x128x256.Idx → EReal) _ _ _ g j)
    ((colBcast_apply _ _ g j).trans (cnt_read (U main_v33_2 : S2x128x1.Idx → EReal) _ _ _ _ g))
    ((colBcast_apply _ _ g j).trans (cnt_read (U main_v33_2 : S2x128x1.Idx → EReal) _ _ _ _ g))
    (constBcast_read _ _ _) (constBcast_read _ _ _)

theorem tab1_shift (g : Fin 128) (j : Fin 256) :
    (StableHlo.after hostOps1 U main_v63 : S128x512.Idx → EReal) (ix2 g (Fin.natAdd 256 j))
      = Spec.shiftT (Spec.cntK ((U main_v33_2 : S2x128x1.Idx → EReal) (ix3 (0 : Fin 2) g (0 : Fin 1))) ((U main_v33_2 : S2x128x1.Idx → EReal) (ix3 (1 : Fin 2) g (0 : Fin 1))))
          ((U main_v33_0 : S2x128x256.Idx → EReal) (ix3 (0 : Fin 2) g j)) ((U main_v33_0 : S2x128x256.Idx → EReal) (ix3 (1 : Fin 2) g j))
          ((U main_v33_1 : S2x128x256.Idx → EReal) (ix3 (0 : Fin 2) g j)) ((U main_v33_1 : S2x128x256.Idx → EReal) (ix3 (1 : Fin 2) g j)) := by
  after_results_simp
  refine (cat_right_apply (C := 256) (D := 512) _ _ _ g j _ rfl).trans ?_
  exact shift_read _ _ _ _ _ _ _
    (sum_read (U main_v33_0 : S2x128x256.Idx → EReal) _ _ _ g j)
    (sum_read (U main_v33_1 : S2x128x256.Idx → EReal) _ _ _ g j)
    ((colBcast_apply _ _ g j).trans (cnt_read (U main_v33_2 : S2x128x1.Idx → EReal) _ _ _ _ g))
    ((colBcast_apply _ _ g j).trans (cnt_read (U main_v33_2 : S2x128x1.Idx → EReal) _ _ _ _ g))
    (constBcast_read _ _ _) (constBcast_read _ _ _)

theorem tab2_scale (g : Fin 128) (q : Fin 64) :
    (StableHlo.after hostOps2 U main_v87 : S128x128.Idx → EReal) (ix2 g (Fin.castAdd 64 q))
      = Spec.scaleT ((U main_v50 : S128x1.Idx → EReal) (ix2 g (0 : Fin 1)))
          ((U main_v64_1 : S2x128x64.Idx → EReal) (ix3 (0 : Fin 2) g q)) ((U main_v64_1 : S2x128x64.Idx → EReal) (ix3 (1 : Fin 2) g q))
          ((U main_v64_2 : S2x128x64.Idx → EReal) (ix3 (0 : Fin 2) g q)) ((U main_v64_2 : S2x128x64.Idx → EReal) (ix3 (1 : Fin 2) g q)) := by
  after_results_simp
  refine (cat_left_apply (C := 64) (D := 128) _ _ _ g q _ rfl).trans ?_
  exact scale_read _ _ _ _ _ _ _
    (sum_read (U main_v64_1 : S2x128x64.Idx → EReal) _ _ _ g q)
    (sum_read (U main_v64_2 : S2x128x64.Idx → EReal) _ _ _ g q)
    (colBcast_apply _ _ g q) (colBcast_apply _ _ g q)
    (constBcast_read _ _ _) (constBcast_read _ _ _)

theorem tab2_shift (g : Fin 128) (q : Fin 64) :
    (StableHlo.after hostOps2 U main_v87 : S128x128.Idx → EReal) (ix2 g (Fin.natAdd 64 q))
      = Spec.shiftT ((U main_v50 : S128x1.Idx → EReal) (ix2 g (0 : Fin 1)))
          ((U main_v64_1 : S2x128x64.Idx → EReal) (ix3 (0 : Fin 2) g q)) ((U main_v64_1 : S2x128x64.Idx → EReal) (ix3 (1 : Fin 2) g q))
          ((U main_v64_2 : S2x128x64.Idx → EReal) (ix3 (0 : Fin 2) g q)) ((U main_v64_2 : S2x128x64.Idx → EReal) (ix3 (1 : Fin 2) g q)) := by
  after_results_simp
  refine (cat_right_apply (C := 64) (D := 128) _ _ _ g q _ rfl).trans ?_
  exact shift_read _ _ _ _ _ _ _
    (sum_read (U main_v64_1 : S2x128x64.Idx → EReal) _ _ _ g q)
    (sum_read (U main_v64_2 : S2x128x64.Idx → EReal) _ _ _ g q)
    (colBcast_apply _ _ g q) (colBcast_apply _ _ g q)
    (constBcast_read _ _ _) (constBcast_read _ _ _)

end Cert.KernelIdeal.Hand

end
-- ==== Proof.HostPrefix.lean ====
import proofs.«413591_j8993661518313_3_alg».proof.Proof.Gen.KernelIdeal.Launch
import proofs.«413591_j8993661518313_3_alg».proof.Proof.KArrays
import proofs.«413591_j8993661518313_3_alg».proof.Proof.RefRun
import Idealize.ShloMosaic.Lib.ValueIdx
import Idealize.ShloMosaic.Lib.ValueLayout
import Idealize.ShloMosaic.Lib.Pipeline.Value
import Idealize.ShloMosaic.Lib.KernelVsHost

noncomputable section

namespace Cert.ReferenceIdeal.Hand

open Idealize.ShloMosaic Idealize.ShloMosaic.TcCoe Idealize.SL.Sem Idealize.ShloMosaic.StableHlo
open Cert.ReferenceIdeal Cert.ReferenceIdeal.Gen

def refX (V0 : Valuation τ sig (Elt Ideal)) : S800000x128.Idx → EReal :=
  concatenate S800000x128 1 [⟨S800000x64, (Host.gather gather_S50000x64_S800000x1_S800000x64_1_0_n_n_0_1_164 (V0 (Proc.devRef .tc main_arg0)) (broadcastInDim S800000x1 ![0] bcast_S800000_S800000x1_0 (select (cmpi .slt (Value.res_main_v1 V0) (broadcastInDim S800000 ![] bcast_S_S800000 (constantI S_ 32 0#32))) (addi (Value.res_main_v1 V0) (broadcastInDim S800000 ![] bcast_S_S800000 (constantI S_ 32 50000#32))) (Value.res_main_v1 V0))))⟩, ⟨S800000x64, (Host.gather gather_S50000x64_S800000x1_S800000x64_1_0_n_n_0_1_164 (V0 (Proc.devRef .tc main_arg0)) (broadcastInDim S800000x1 ![0] bcast_S800000_S800000x1_0 (select (cmpi .slt (Value.res_main_v3 V0) (broadcastInDim S800000 ![] bcast_S_S800000 (constantI S_ 32 0#32))) (addi (Value.res_main_v3 V0) (broadcastInDim S800000 ![] bcast_S_S800000 (constantI S_ 32 50000#32))) (Value.res_main_v3 V0))))⟩] concatenates_S800000x64_S800000x64_S800000x128_d1

end Cert.ReferenceIdeal.Hand

namespace Cert.KernelIdeal.Hand

open Idealize.ShloMosaic Idealize.ShloMosaic.TcCoe Idealize.ShloMosaic.ValueIdx Idealize.SL.Sem
open Cert.KernelIdeal Cert.KernelIdeal.Gen

def edgeCol (ei : S2x800000.Idx → BitVec 32) : S800000.Idx → BitVec 32 :=
  shapeCast S800000 (extractStridedSlice S1x800000 ![0, 0] ei slices_S2x800000_S1x800000_0_0) shapeCasts_S1x800000_S800000
def edgeRow (ei : S2x800000.Idx → BitVec 32) : S800000.Idx → BitVec 32 :=
  shapeCast S800000 (extractStridedSlice S1x800000 ![1, 0] ei slices_S2x800000_S1x800000_1_0) shapeCasts_S1x800000_S800000

def wrapIdx (v : S800000.Idx → BitVec 32) : S800000x1.Idx → BitVec 32 :=
  broadcastInDim S800000x1 ![0] bcast_S800000_S800000x1_0
    (select (cmpi .slt v (broadcastInDim S800000 ![] bcast_S_S800000 (constantI S_ 32 0#32)))
      (addi v (broadcastInDim S800000 ![] bcast_S_S800000 (constantI S_ 32 50000#32))) v)

def endpointRows (emb : S50000x64.Idx → EReal) (ei : S2x800000.Idx → BitVec 32) : S800000x128.Idx → EReal :=
  concatenate S800000x128 1
    [⟨S800000x64, Host.gather gather_S50000x64_S800000x1_S800000x64_1_0_n_n_0_1_164 emb (wrapIdx (edgeCol ei))⟩,
     ⟨S800000x64, Host.gather gather_S50000x64_S800000x1_S800000x64_1_0_n_n_0_1_164 emb (wrapIdx (edgeRow ei))⟩]
    concatenates_S800000x64_S800000x64_S800000x128_d1

def edgeGraph (batch : S50000.Idx → BitVec 32) (ei : S2x800000.Idx → BitVec 32) : S800000.Idx → BitVec 32 :=
  Host.gather gather_S50000_S800000x1_S800000_n_0_n_n_0_1_1 batch (wrapIdx (edgeCol ei))

variable (U : Valuation τ sig (Elt Ideal))

local notation "𝕌₅" => StableHlo.after (hostOps0_4 (F := Ideal)) (StableHlo.after (hostOps0_3 (F := Ideal)) (StableHlo.after (hostOps0_2 (F := Ideal)) (StableHlo.after (hostOps0_1 (F := Ideal)) (StableHlo.after (hostOps0 (F := Ideal)) U))))

def Xk : Fin 800000 → Fin 128 → EReal := fun e κ => (StableHlo.after (hostOps0 (F := Ideal)) U main_v19 : S800000x128.Idx → EReal) (ix2 e κ)

def sgwk : Fin 800000 → BitVec 32 := fun e => (StableHlo.after (hostOps0 (F := Ideal)) U main_v26 : S800000.Idx → BitVec 32) (ix1 e)

set_option maxRecDepth 8192 in
set_option maxHeartbeats 4000000 in
theorem v19_eq : (StableHlo.after (hostOps0 (F := Ideal)) U main_v19 : S800000x128.Idx → EReal)
    = endpointRows (U main_arg0 : S50000x64.Idx → EReal) (U main_arg1 : S2x800000.Idx → BitVec 32) := by
  open Idealize.ShloMosaic.StableHlo in after_results_simp <;> rfl

set_option maxRecDepth 8192 in
set_option maxHeartbeats 4000000 in
theorem v26_eq : (StableHlo.after (hostOps0 (F := Ideal)) U main_v26 : S800000.Idx → BitVec 32)
    = edgeGraph (U main_arg2 : S50000.Idx → BitVec 32) (U main_arg1 : S2x800000.Idx → BitVec 32) := by
  open Idealize.ShloMosaic.StableHlo in after_results_simp <;> rfl

section Stages
variable (W : Valuation τ sig (Elt Ideal))

local notation "𝕎₄" => StableHlo.after (hostOps0_4 (F := Ideal)) (StableHlo.after (hostOps0_3 (F := Ideal)) (StableHlo.after (hostOps0_2 (F := Ideal)) (StableHlo.after (hostOps0_1 (F := Ideal)) W)))

theorem v27_stage : (𝕎₄ main_v27 : S802816x128.Idx → EReal)
    = pad (s := S800000x128) (α := EReal) S802816x128 ![0, 0] ![2816, 0] ![0, 0] (W main_v19) (u := S_) (W main_cst)
        pads_S800000x128_S802816x128_028160_000 h_S_ := by
  open Idealize.ShloMosaic.StableHlo in after_results_simp <;> rfl

theorem v29_stage : (𝕎₄ main_v29 : S392x1x2048.Idx → BitVec 32)
    = shapeCast (s := S802816) (α := BitVec 32) S392x1x2048
        (pad (s := S800000) (α := BitVec 32) S802816 ![0] ![2816] ![0] (W main_v26) (u := S_)
          (constantI S_ 32 128#32) pads_S800000_S802816_028160 h_S_) shapeCasts_S802816_S392x1x2048 := by
  open Idealize.ShloMosaic.StableHlo in after_results_simp <;> rfl

theorem v30_stage : (𝕎₄ main_v30 : S128x256.Idx → EReal) = (W main_arg3 : S128x256.Idx → EReal) := by
  open Idealize.ShloMosaic.StableHlo in after_results_simp <;> rfl
theorem v31_stage : (𝕎₄ main_v31 : S256x64.Idx → EReal) = (W main_arg5 : S256x64.Idx → EReal) := by
  open Idealize.ShloMosaic.StableHlo in after_results_simp <;> rfl
theorem v32_stage : (𝕎₄ main_v32 : S64x1.Idx → EReal) = (W main_arg7 : S64x1.Idx → EReal) := by
  open Idealize.ShloMosaic.StableHlo in after_results_simp <;> rfl

end Stages

set_option maxRecDepth 8192 in
set_option maxHeartbeats 4000000 in

theorem cst_eq : (StableHlo.after (hostOps0 (F := Ideal)) U main_cst : S_.Idx → EReal) = constant (F := Ideal) S_ .f32 0x00000000#32 := by
  open Idealize.ShloMosaic.StableHlo in after_results_simp <;> rfl

set_option maxRecDepth 8192 in
set_option maxHeartbeats 4000000 in

theorem arg3_kept : (StableHlo.after (hostOps0 (F := Ideal)) U main_arg3 : S128x256.Idx → EReal) = (U main_arg3 : S128x256.Idx → EReal) := by
  open Idealize.ShloMosaic.StableHlo in after_results_simp <;> rfl
set_option maxRecDepth 8192 in
set_option maxHeartbeats 4000000 in
theorem arg5_kept : (StableHlo.after (hostOps0 (F := Ideal)) U main_arg5 : S256x64.Idx → EReal) = (U main_arg5 : S256x64.Idx → EReal) := by
  open Idealize.ShloMosaic.StableHlo in after_results_simp <;> rfl
set_option maxRecDepth 8192 in
set_option maxHeartbeats 4000000 in
theorem arg7_kept : (StableHlo.after (hostOps0 (F := Ideal)) U main_arg7 : S64x1.Idx → EReal) = (U main_arg7 : S64x1.Idx → EReal) := by
  open Idealize.ShloMosaic.StableHlo in after_results_simp <;> rfl

theorem Xp_prefix (t : Fin 392) (r : Fin 2048) (κ : Fin 128) :
    (𝕌₅ main_v27 : S802816x128.Idx → EReal) (ix2 (prow t r) κ) = if h : t.val * 2048 + r.val < 800000 then Xk U ⟨_, h⟩ κ else 0 := by
  refine (congrFun (v27_stage (StableHlo.after (hostOps0 (F := Ideal)) U)) _).trans ?_
  by_cases h : t.val * 2048 + r.val < 800000
  · rw [dif_pos h]
    exact pad_apply_of_inside _ _ _ _ _ _ _ (ix2 (prow t r) κ) (ix2 (⟨_, h⟩ : Fin 800000) κ)
      (Fin.forall_fin_two.2 ⟨by show t.val * 2048 + r.val = 0 + (t.val * 2048 + r.val) * (0 + 1); omega,
        by show κ.val = 0 + κ.val * (0 + 1); omega⟩)
  · rw [dif_neg h]
    refine (pad_apply_of_not_inside _ _ _ _ _ _ _ (ix2 (prow t r) κ) (0 : Fin 2) ?_).trans ?_
    · show ¬(0 ≤ t.val * 2048 + r.val ∧ (t.val * 2048 + r.val - 0) % (0 + 1) = 0 ∧ (t.val * 2048 + r.val - 0) / (0 + 1) < 800000)
      omega
    · show (StableHlo.after (hostOps0 (F := Ideal)) U main_cst : S_.Idx → EReal) _ = (0 : EReal)
      rw [cst_eq]
      exact Ideal.ofBits_zero_f32

theorem segt_prefix (t : Fin 392) (r : Fin 2048) :
    (𝕌₅ main_v29 : S392x1x2048.Idx → BitVec 32) (ix3 t (0 : Fin 1) r) = if h : t.val * 2048 + r.val < 800000 then sgwk U ⟨_, h⟩ else 128#32 := by
  refine (congrFun (v29_stage (StableHlo.after (hostOps0 (F := Ideal)) U)) _).trans ?_
  refine (shapeCast_apply _ _ (ix3 t (0 : Fin 1) r) (ix1 (prow t r)) ?_).trans ?_
  · rw [Shape.rowMajor_val_one, Shape.rowMajor_val_three]
    show t.val * 2048 + r.val = (t.val * 1 + 0) * 2048 + r.val
    omega
  by_cases h : t.val * 2048 + r.val < 800000
  · rw [dif_pos h]
    exact pad_apply_of_inside _ _ _ _ _ _ _ (ix1 (prow t r)) (ix1 (⟨_, h⟩ : Fin 800000))
      (fun a => by
        have ha : a = (0 : Fin 1) := Subsingleton.elim _ _
        subst ha
        show t.val * 2048 + r.val = 0 + (t.val * 2048 + r.val) * (0 + 1)
        omega)
  · rw [dif_neg h]
    refine (pad_apply_of_not_inside _ _ _ _ _ _ _ (ix1 (prow t r)) (0 : Fin 1) ?_).trans rfl
    show ¬(0 ≤ t.val * 2048 + r.val ∧ (t.val * 2048 + r.val - 0) % (0 + 1) = 0 ∧ (t.val * 2048 + r.val - 0) / (0 + 1) < 800000)
    omega

theorem W1_prefix : (𝕌₅ main_v30 : S128x256.Idx → EReal) = (U main_arg3 : S128x256.Idx → EReal) :=
  (v30_stage (StableHlo.after (hostOps0 (F := Ideal)) U)).trans (arg3_kept U)
theorem W2_prefix : (𝕌₅ main_v31 : S256x64.Idx → EReal) = (U main_arg5 : S256x64.Idx → EReal) :=
  (v31_stage (StableHlo.after (hostOps0 (F := Ideal)) U)).trans (arg5_kept U)
theorem W3_prefix : (𝕌₅ main_v32 : S64x1.Idx → EReal) = (U main_arg7 : S64x1.Idx → EReal) :=
  (v32_stage (StableHlo.after (hostOps0 (F := Ideal)) U)).trans (arg7_kept U)

theorem sgwk_mem (e : Fin 800000) : ∃ i, sgwk U e = (U main_arg2 : S50000.Idx → BitVec 32) i :=
  ⟨_, by
    show (StableHlo.after (hostOps0 (F := Ideal)) U main_v26 : S800000.Idx → BitVec 32) (ix1 e) = _
    rw [v26_eq]
    rfl⟩

theorem Xk_mem (e : Fin 800000) (κ : Fin 128) : ∃ i, Xk U e κ = (U main_arg0 : S50000x64.Idx → EReal) i := by
  by_cases hκ : κ.val < 64
  · exact ⟨_, by
      show (StableHlo.after (hostOps0 (F := Ideal)) U main_v19 : S800000x128.Idx → EReal) (ix2 e κ) = _
      rw [v19_eq]
      refine (concatenate_pair_apply_left (t := S800000x128) (s₁ := S800000x64) (s₂ := S800000x64) (1 : Fin 2) _ _ concatenates_S800000x64_S800000x64_S800000x128_d1 (ix2 e κ) rfl
        (ix2 e (⟨κ.val, hκ⟩ : Fin 64)) (Fin.forall_fin_two.2 ⟨rfl, rfl⟩)).trans ?_
      rfl⟩
  · exact ⟨_, by
      show (StableHlo.after (hostOps0 (F := Ideal)) U main_v19 : S800000x128.Idx → EReal) (ix2 e κ) = _
      rw [v19_eq]
      refine (concatenate_pair_apply_right (t := S800000x128) (s₁ := S800000x64) (s₂ := S800000x64) (1 : Fin 2) _ _ concatenates_S800000x64_S800000x64_S800000x128_d1 (ix2 e κ) rfl rfl
        (ix2 e (⟨κ.val - 64, by have := κ.isLt; omega⟩ : Fin 64))
        (Fin.forall_fin_two.2 ⟨fun _ => rfl, fun h => absurd rfl h⟩)
        (by show κ.val - 64 + 64 = κ.val; omega)).trans ?_
      rfl⟩

theorem v91_final (e : Fin 800000) :
    (StableHlo.after (hostOps3 (F := Ideal)) U main_v91 : S800000x1.Idx → EReal) (ix2 e (0 : Fin 1))
      = (U main_v88 : S392x1x2048.Idx → EReal) (ix3 (⟨e.val / 2048, by have := e.isLt; omega⟩ : Fin 392) (0 : Fin 1) (⟨e.val % 2048, Nat.mod_lt _ (by decide)⟩ : Fin 2048)) := by
  have hv : (StableHlo.after (hostOps3 (F := Ideal)) U main_v91 : S800000x1.Idx → EReal)
      = shapeCast (s := S800000) (α := EReal) S800000x1 (extractStridedSlice (s := S802816) (α := EReal) S800000 ![0]
          (shapeCast (s := S392x1x2048) (α := EReal) S802816 (U main_v88) shapeCasts_S392x1x2048_S802816) slices_S802816_S800000_0)
          shapeCasts_S800000_S800000x1 := by
    open Idealize.ShloMosaic.StableHlo in after_results_simp <;> rfl
  have he := e.isLt
  refine (congrFun hv _).trans ?_
  refine (shapeCast_apply _ _ (ix2 e (0 : Fin 1)) (ix1 e) ?_).trans ?_
  · rw [Shape.rowMajor_val_one, Shape.rowMajor_val_two]
    show e.val = e.val * 1 + 0
    omega
  refine (extractStridedSlice_apply _ _ _ (ix1 e) (ix1 (⟨e.val, by omega⟩ : Fin 802816)) (fun a => ?_)).trans ?_
  · have ha : a = (0 : Fin 1) := Subsingleton.elim _ _
    subst ha
    show e.val = 0 + e.val
    omega
  refine shapeCast_apply _ _ _ (ix3 (⟨e.val / 2048, by omega⟩ : Fin 392) (0 : Fin 1) (⟨e.val % 2048, Nat.mod_lt _ (by decide)⟩ : Fin 2048)) ?_
  rw [Shape.rowMajor_val_three, Shape.rowMajor_val_one]
  show (e.val / 2048 * 1 + 0) * 2048 + e.val % 2048 = e.val
  omega

section Bridge
variable (V0 : Valuation Cert.ReferenceIdeal.τ Cert.ReferenceIdeal.sig (Elt Ideal))

set_option maxRecDepth 8192 in
theorem refX_eq : Cert.ReferenceIdeal.Hand.refX V0
    = endpointRows (V0 Cert.ReferenceIdeal.main_arg0 : Cert.ReferenceIdeal.S50000x64.Idx → EReal)
        (V0 Cert.ReferenceIdeal.main_arg1 : Cert.ReferenceIdeal.S2x800000.Idx → BitVec 32) := rfl

set_option maxRecDepth 8192 in
theorem ref_v25_eq : (Cert.ReferenceIdeal.Value.res_main_v25 V0 : Cert.ReferenceIdeal.S800000.Idx → BitVec 32)
    = edgeGraph (V0 Cert.ReferenceIdeal.main_arg2 : Cert.ReferenceIdeal.S50000.Idx → BitVec 32)
        (V0 Cert.ReferenceIdeal.main_arg1 : Cert.ReferenceIdeal.S2x800000.Idx → BitVec 32) := rfl

theorem Xk_bridge
    (h0 : (U main_arg0 : S50000x64.Idx → EReal) = (V0 Cert.ReferenceIdeal.main_arg0 : Cert.ReferenceIdeal.S50000x64.Idx → EReal))
    (h1 : (U main_arg1 : S2x800000.Idx → BitVec 32) = (V0 Cert.ReferenceIdeal.main_arg1 : Cert.ReferenceIdeal.S2x800000.Idx → BitVec 32))
    (e : Fin 800000) (κ : Fin 128) : Xk U e κ = Cert.ReferenceIdeal.Hand.refX V0 (ix2 e κ) := by
  show (StableHlo.after (hostOps0 (F := Ideal)) U main_v19 : S800000x128.Idx → EReal) (ix2 e κ) = _
  rw [v19_eq, refX_eq]
  exact congrFun (congrArg₂ endpointRows h0 h1) _

theorem sgwk_bridge
    (h1 : (U main_arg1 : S2x800000.Idx → BitVec 32) = (V0 Cert.ReferenceIdeal.main_arg1 : Cert.ReferenceIdeal.S2x800000.Idx → BitVec 32))
    (h2 : (U main_arg2 : S50000.Idx → BitVec 32) = (V0 Cert.ReferenceIdeal.main_arg2 : Cert.ReferenceIdeal.S50000.Idx → BitVec 32))
    (e : Fin 800000) : sgwk U e = (Cert.ReferenceIdeal.Value.res_main_v25 V0 : Cert.ReferenceIdeal.S800000.Idx → BitVec 32) (ix1 e) := by
  show (StableHlo.after (hostOps0 (F := Ideal)) U main_v26 : S800000.Idx → BitVec 32) (ix1 e) = _
  rw [v26_eq, ref_v25_eq]
  exact congrFun (congrArg₂ edgeGraph h2 h1) _

end Bridge

end Cert.KernelIdeal.Hand

end
-- ==== Proof.KChain.lean ====
import proofs.«413591_j8993661518313_3_alg».proof.Proof.Launch
import proofs.«413591_j8993661518313_3_alg».proof.Proof.K0Value
import proofs.«413591_j8993661518313_3_alg».proof.Proof.K1Value
import proofs.«413591_j8993661518313_3_alg».proof.Proof.K2Value
import proofs.«413591_j8993661518313_3_alg».proof.Proof.HostTables
import proofs.«413591_j8993661518313_3_alg».proof.Proof.HostPrefix

set_option maxRecDepth 16384

noncomputable section

namespace Cert.KernelIdeal.Hand

open Idealize.ShloMosaic Idealize.ShloMosaic.TcCoe Idealize.ShloMosaic.ValueIdx Idealize.SL.Sem
open Idealize.ShloMosaic.Pipeline (Dat)
open Cert.KernelIdeal Cert.KernelIdeal.Gen

variable (m : (ℓ : Loc nD τ sig) → Buf (Elt Ideal) ℓ) (c : Dev nD)

theorem keep1 (r : Ref sig .tc) (h : r ∉ hostOps1_W) : W7 m c (Proc.devRef .tc r) = W6 m c (Proc.devRef .tc r) :=
  StableHlo.after_of_writes_sub hostOps1 _ hostOps1_writes h
theorem keep2 (r : Ref sig .tc) (h : r ∉ hostOps2_W) : W9 m c (Proc.devRef .tc r) = W8 m c (Proc.devRef .tc r) :=
  StableHlo.after_of_writes_sub hostOps2 _ hostOps2_writes h

theorem in0 (w : Fin cfg0.W) (hw : (cfg0.win w).isOut = false) :
    W6 m c (Proc.devRef .tc (Pipeline.arrRef spec0 w)) = W5 m c (Proc.devRef .tc (Pipeline.arrRef spec0 w)) :=
  (W6_arr m c w).trans (((dat0 (V5 m) c).arrAt_in w hw _).trans (A_eq0 (V5 m) c w))
theorem in1 (w : Fin cfg1.W) (hw : (cfg1.win w).isOut = false) :
    W8 m c (Proc.devRef .tc (Pipeline.arrRef spec1 w)) = W7 m c (Proc.devRef .tc (Pipeline.arrRef spec1 w)) :=
  (W8_arr m c w).trans (((dat1 (V7 m) c).arrAt_in w hw _).trans (A_eq1 (V7 m) c w))

theorem v27_7 : W7 m c (Proc.devRef .tc main_v27) = W5 m c (Proc.devRef .tc main_v27) := (keep1 m c main_v27 (by decide)).trans (in0 m c 0 rfl)
theorem v29_7 : W7 m c (Proc.devRef .tc main_v29) = W5 m c (Proc.devRef .tc main_v29) := (keep1 m c main_v29 (by decide)).trans (in0 m c 1 rfl)
theorem v30_7 : W7 m c (Proc.devRef .tc main_v30) = W5 m c (Proc.devRef .tc main_v30) := (keep1 m c main_v30 (by decide)).trans (in0 m c 2 rfl)
theorem a4_7 : W7 m c (Proc.devRef .tc main_arg4) = W5 m c (Proc.devRef .tc main_arg4) := (keep1 m c main_arg4 (by decide)).trans (in0 m c 3 rfl)
theorem v31_7 : W7 m c (Proc.devRef .tc main_v31) = W5 m c (Proc.devRef .tc main_v31) := (keep1 m c main_v31 (by decide)).trans (W6_of_ne m c main_v31 (by decide))
theorem a6_7 : W7 m c (Proc.devRef .tc main_arg6) = W5 m c (Proc.devRef .tc main_arg6) := (keep1 m c main_arg6 (by decide)).trans (W6_of_ne m c main_arg6 (by decide))
theorem v32_7 : W7 m c (Proc.devRef .tc main_v32) = W5 m c (Proc.devRef .tc main_v32) := (keep1 m c main_v32 (by decide)).trans (W6_of_ne m c main_v32 (by decide))
theorem a8_7 : W7 m c (Proc.devRef .tc main_arg8) = W5 m c (Proc.devRef .tc main_arg8) := (keep1 m c main_arg8 (by decide)).trans (W6_of_ne m c main_arg8 (by decide))
theorem v29_9 : W9 m c (Proc.devRef .tc main_v29) = W5 m c (Proc.devRef .tc main_v29) := (keep2 m c main_v29 (by decide)).trans ((in1 m c 1 rfl).trans (v29_7 m c))
theorem v32_9 : W9 m c (Proc.devRef .tc main_v32) = W5 m c (Proc.devRef .tc main_v32) := (keep2 m c main_v32 (by decide)).trans ((W8_of_ne m c main_v32 (by decide)).trans (v32_7 m c))
theorem a8_9 : W9 m c (Proc.devRef .tc main_arg8) = W5 m c (Proc.devRef .tc main_arg8) := (keep2 m c main_arg8 (by decide)).trans ((W8_of_ne m c main_arg8 (by decide)).trans (a8_7 m c))
theorem v64_0_9 : W9 m c (Proc.devRef .tc main_v64_0) = (dat1 (V7 m) c).arrAt 7 cfg1.N := (keep2 m c main_v64_0 (by decide)).trans (W8_arr m c 7)
theorem v50_8 : W8 m c (Proc.devRef .tc main_v50) = W7 m c (Proc.devRef .tc main_v50) := W8_of_ne m c main_v50 (by decide)

theorem Xp_7 : Xp (V7 m) c = Xp (V5 m) c := by funext t r κ; unfold Xp; exact congrFun (v27_7 m c) _
theorem segt_7 : segt (V7 m) c = segt (V5 m) c := by funext t r; unfold segt; exact congrFun (v29_7 m c) _
theorem W1k_7 : W1k (V7 m) c = W1k (V5 m) c := by funext κ j; unfold W1k; exact congrFun (v30_7 m c) _
theorem b1k_7 : b1k (V7 m) c = b1k (V5 m) c := by funext j; unfold b1k; exact congrFun (a4_7 m c) _
theorem W2k_7 : W2k (V7 m) c = W2k (V5 m) c := by funext κ j; unfold W2k; exact congrFun (v31_7 m c) _
theorem b2k_7 : b2k (V7 m) c = b2k (V5 m) c := by funext j; unfold b2k; exact congrFun (a6_7 m c) _
theorem segt_9 : segt (V9 m) c = segt (V5 m) c := by funext t r; unfold segt; exact congrFun (v29_9 m c) _
theorem W3k_9 : W3k (V9 m) c = W3k (V5 m) c := by funext κ; unfold W3k; exact congrFun (v32_9 m c) _
theorem b3k_9 : b3k (V9 m) c = b3k (V5 m) c := by unfold b3k; exact congrFun (a8_9 m c) _

abbrev seg5 := segt (V5 m) c

abbrev L1 : Fin 392 → Fin 2048 → Fin 256 → EReal := Spec.linT (Xp (V5 m) c) (W1k (V5 m) c) (b1k (V5 m) c)

abbrev CN (g : Fin 128) : EReal := Spec.cntK (Spec.kcount (seg5 m c) 0 g) (Spec.kcount (seg5 m c) 1 g)
abbrev SC1 (g : Fin 128) (j : Fin 256) : EReal := Spec.scaleT (CN m c g) (Spec.kstat (seg5 m c) (L1 m c) 0 g j) (Spec.kstat (seg5 m c) (L1 m c) 1 g j)
    (Spec.kstat (seg5 m c) (fun t r j => L1 m c t r j * L1 m c t r j) 0 g j) (Spec.kstat (seg5 m c) (fun t r j => L1 m c t r j * L1 m c t r j) 1 g j)
abbrev SH1 (g : Fin 128) (j : Fin 256) : EReal := Spec.shiftT (CN m c g) (Spec.kstat (seg5 m c) (L1 m c) 0 g j) (Spec.kstat (seg5 m c) (L1 m c) 1 g j)
    (Spec.kstat (seg5 m c) (fun t r j => L1 m c t r j * L1 m c t r j) 0 g j) (Spec.kstat (seg5 m c) (fun t r j => L1 m c t r j * L1 m c t r j) 1 g j)
abbrev A1 : Fin 392 → Fin 2048 → Fin 256 → EReal := fun t r j =>
  Spec.actK (L1 m c t r j) (Spec.ktab (SC1 m c) (seg5 m c t r) j) (Spec.ktab (SH1 m c) (seg5 m c t r) j)
abbrev L2 : Fin 392 → Fin 2048 → Fin 64 → EReal := Spec.linT (A1 m c) (W2k (V5 m) c) (b2k (V5 m) c)
abbrev SC2 (g : Fin 128) (j : Fin 64) : EReal := Spec.scaleT (CN m c g) (Spec.kstat1 (seg5 m c) (L2 m c) 0 g j) (Spec.kstat1 (seg5 m c) (L2 m c) 1 g j)
    (Spec.kstat (seg5 m c) (fun t r j => L2 m c t r j * L2 m c t r j) 0 g j) (Spec.kstat (seg5 m c) (fun t r j => L2 m c t r j * L2 m c t r j) 1 g j)
abbrev SH2 (g : Fin 128) (j : Fin 64) : EReal := Spec.shiftT (CN m c g) (Spec.kstat1 (seg5 m c) (L2 m c) 0 g j) (Spec.kstat1 (seg5 m c) (L2 m c) 1 g j)
    (Spec.kstat (seg5 m c) (fun t r j => L2 m c t r j * L2 m c t r j) 0 g j) (Spec.kstat (seg5 m c) (fun t r j => L2 m c t r j * L2 m c t r j) 1 g j)

theorem outT_layers (t : Fin 392) (r : Fin 2048) :
    Spec.outT (Xp (V5 m) c) (segt (V5 m) c) (W1k (V5 m) c) (b1k (V5 m) c) (W2k (V5 m) c) (b2k (V5 m) c) (W3k (V5 m) c) (b3k (V5 m) c) t r
      = (∑ κ : Fin 64, Spec.actK (L2 m c t r κ) (Spec.ktab (SC2 m c) (seg5 m c t r) κ) (Spec.ktab (SH2 m c) (seg5 m c t r) κ) * W3k (V5 m) c κ)
        + b3k (V5 m) c := rfl

theorem v33_0_at (c2 : Fin 2) (g : Fin 128) (j : Fin 256) :
    (W6 m c (Proc.devRef .tc main_v33_0) : S2x128x256.Idx → EReal) (ix3 c2 g j) = Spec.kstat (seg5 m c) (L1 m c) c2 g j :=
  (congrFun (W6_arr m c 4) _).trans (arr0_sum (V5 m) c c2 g j)
theorem v33_1_at (c2 : Fin 2) (g : Fin 128) (j : Fin 256) :
    (W6 m c (Proc.devRef .tc main_v33_1) : S2x128x256.Idx → EReal) (ix3 c2 g j)
      = Spec.kstat (seg5 m c) (fun t r j => L1 m c t r j * L1 m c t r j) c2 g j :=
  (congrFun (W6_arr m c 5) _).trans (arr0_sumsq (V5 m) c c2 g j)
theorem v33_2_at (c2 : Fin 2) (g : Fin 128) :
    (W6 m c (Proc.devRef .tc main_v33_2) : S2x128x1.Idx → EReal) (ix3 c2 g (0 : Fin 1)) = Spec.kcount (seg5 m c) c2 g :=
  (congrFun (W6_arr m c 6) _).trans (arr0_cnt (V5 m) c c2 g)

theorem tab1_lo (g : Fin 128) (j : Fin 256) : tab1 (V7 m) c g (Fin.castAdd 256 j) = SC1 m c g j := by
  unfold tab1
  refine (tab1_scale (W6 m c) g j).trans ?_
  rw [v33_0_at m c 0 g j, v33_0_at m c 1 g j, v33_1_at m c 0 g j, v33_1_at m c 1 g j, v33_2_at m c 0 g, v33_2_at m c 1 g]
theorem tab1_hi (g : Fin 128) (j : Fin 256) : tab1 (V7 m) c g (Fin.natAdd 256 j) = SH1 m c g j := by
  unfold tab1
  refine (tab1_shift (W6 m c) g j).trans ?_
  rw [v33_0_at m c 0 g j, v33_0_at m c 1 g j, v33_1_at m c 0 g j, v33_1_at m c 1 g j, v33_2_at m c 0 g, v33_2_at m c 1 g]
theorem v50_at (g : Fin 128) : (W8 m c (Proc.devRef .tc main_v50) : S128x1.Idx → EReal) (ix2 g (0 : Fin 1)) = CN m c g := by
  rw [v50_8]
  refine (cnt_v50 (W6 m c) g).trans ?_
  rw [v33_2_at m c 0 g, v33_2_at m c 1 g]

theorem l2_7 : lin2K (V7 m) c = L2 m c := by
  unfold lin2K act1K lin1K
  rw [Xp_7, segt_7, W1k_7, b1k_7, W2k_7, b2k_7]
  funext t r q
  unfold Spec.linT Spec.ktab
  simp only [tab1_lo, tab1_hi]
  rfl

theorem lin2p_9 (t : Fin 392) (r : Fin 2048) (q : Fin 64) : lin2p (V9 m) c t r q = L2 m c t r q := by
  unfold lin2p
  refine (congrFun (v64_0_9 m c) _).trans ?_
  refine (arr1_lin2 (V7 m) c t r q).trans ?_
  exact congrFun (congrFun (congrFun (l2_7 m c) t) r) q
theorem v64_1_at (c2 : Fin 2) (g : Fin 128) (q : Fin 64) :
    (W8 m c (Proc.devRef .tc main_v64_1) : S2x128x64.Idx → EReal) (ix3 c2 g q) = Spec.kstat1 (seg5 m c) (L2 m c) c2 g q := by
  refine (congrFun (W8_arr m c 8) _).trans ?_
  refine (arr1_sum (V7 m) c c2 g q).trans ?_
  rw [l2_7, segt_7]
theorem v64_2_at (c2 : Fin 2) (g : Fin 128) (q : Fin 64) :
    (W8 m c (Proc.devRef .tc main_v64_2) : S2x128x64.Idx → EReal) (ix3 c2 g q)
      = Spec.kstat (seg5 m c) (fun t r q => L2 m c t r q * L2 m c t r q) c2 g q := by
  refine (congrFun (W8_arr m c 9) _).trans ?_
  refine (arr1_sumsq (V7 m) c c2 g q).trans ?_
  rw [l2_7, segt_7]
theorem tab2_lo (g : Fin 128) (q : Fin 64) : tab2 (V9 m) c g (Fin.castAdd 64 q) = SC2 m c g q := by
  unfold tab2
  refine (tab2_scale (W8 m c) g q).trans ?_
  rw [v64_1_at m c 0 g q, v64_1_at m c 1 g q, v64_2_at m c 0 g q, v64_2_at m c 1 g q, v50_at m c g]
theorem tab2_hi (g : Fin 128) (q : Fin 64) : tab2 (V9 m) c g (Fin.natAdd 64 q) = SH2 m c g q := by
  unfold tab2
  refine (tab2_shift (W8 m c) g q).trans ?_
  rw [v64_1_at m c 0 g q, v64_1_at m c 1 g q, v64_2_at m c 0 g q, v64_2_at m c 1 g q, v50_at m c g]

theorem kernel_value (e : Fin 800000) :
    (W11 m c (Proc.devRef .tc main_v91) : S800000x1.Idx → EReal) (ix2 e (0 : Fin 1))
      = Spec.outT (Xp (V5 m) c) (segt (V5 m) c) (W1k (V5 m) c) (b1k (V5 m) c) (W2k (V5 m) c) (b2k (V5 m) c) (W3k (V5 m) c) (b3k (V5 m) c)
          ⟨e.val / 2048, by have := e.isLt; omega⟩ ⟨e.val % 2048, Nat.mod_lt _ (by norm_num)⟩ := by
  rw [outT_layers]
  refine (v91_final (W10 m c) e).trans ?_
  refine (congrFun (W10_arr m c 5) _).trans ?_
  refine (arr2_out (V9 m) c _ _).trans ?_
  rw [segt_9, W3k_9, b3k_9]
  unfold Spec.ktab
  simp only [lin2p_9, tab2_lo, tab2_hi]

end Cert.KernelIdeal.Hand

end
-- ==== Proof.PreFacts.lean ====
import proofs.«413591_j8993661518313_3_alg».proof.Pre_finite_inputs
import proofs.«413591_j8993661518313_3_alg».proof.Proof.Gen.Pre_finite_inputs
import Idealize.ShloMosaic.PureOps.Ideal
import Idealize.ShloMosaic.Lib.ReduceAll

noncomputable section

namespace Cert.PreFacts

open Idealize.ShloMosaic Cert.Pre_finite_inputs

instance subsingleton_scalar_idx : Subsingleton S_.Idx := ⟨fun a b => funext fun d => d.elim0⟩

theorem inf_word : Ideal.ofBits .f32 0x7F800000#32 = (⊤ : EReal) := by
  simp [Ideal.ofBits, Ideal.ieee]

theorem real_of_abs_lt_top (x : EReal)
    (h : FloatOps.cmpf (F := Ideal) (φ := .f32) .olt (FloatOps.hostAbsf (F := Ideal) (φ := .f32) x)
      (FloatOps.ofBits (F := Ideal) .f32 0x7F800000#32) = 1#1) : ∃ r : ℝ, x = (r : EReal) := by
  have h' : Ideal.cmp .olt (max x (-x)) (Ideal.ofBits .f32 0x7F800000#32) = 1#1 := h
  rw [inf_word] at h'
  induction x using EReal.rec with
  | bot => simp [Ideal.cmp] at h'
  | coe r => exact ⟨r, rfl⟩
  | top => simp [Ideal.cmp] at h'

variable [Facts]
variable {a0 : FVec Ideal S50000x64 .f32} {a1 : IVec S2x800000 32} {a2 : IVec S50000 32} {a3 : FVec Ideal S128x256 .f32}
  {a4 : FVec Ideal S256 .f32} {a5 : FVec Ideal S256x64 .f32} {a6 : FVec Ideal S64 .f32} {a7 : FVec Ideal S64x1 .f32}
  {a8 : FVec Ideal S1 .f32}

theorem decoded (h : fn (F := Ideal) a0 a1 a2 a3 a4 a5 a6 a7 a8 = (fun _ => 1#1)) :
    (∀ i, ∃ r : ℝ, a0 i = (r : EReal)) ∧ (∀ i, ∃ r : ℝ, a3 i = (r : EReal)) ∧ (∀ i, ∃ r : ℝ, a4 i = (r : EReal))
    ∧ (∀ i, ∃ r : ℝ, a5 i = (r : EReal)) ∧ (∀ i, ∃ r : ℝ, a6 i = (r : EReal)) ∧ (∀ i, ∃ r : ℝ, a7 i = (r : EReal))
    ∧ (∀ i, ∃ r : ℝ, a8 i = (r : EReal)) ∧ (∀ i, 0 ≤ (a2 i).toInt ∧ (a2 i).toInt < 128) := by
  have e := congrFun h (fun d => d.elim0)
  dsimp only [fn, fn_part1, fn_part2] at e
  simp only [andi, IntOp.andi_eq_one] at e
  obtain ⟨⟨⟨⟨⟨⟨⟨h0, h3⟩, h4⟩, h5⟩, h6⟩, h7⟩, h8⟩, h2⟩ := e
  refine ⟨fun i => real_of_abs_lt_top _ (Host.reduce_andi_all _ _ _ _ _ h0 i),
    fun i => real_of_abs_lt_top _ (Host.reduce_andi_all _ _ _ _ _ h3 i),
    fun i => real_of_abs_lt_top _ (Host.reduce_andi_all _ _ _ _ _ h4 i),
    fun i => real_of_abs_lt_top _ (Host.reduce_andi_all _ _ _ _ _ h5 i),
    fun i => real_of_abs_lt_top _ (Host.reduce_andi_all _ _ _ _ _ h6 i),
    fun i => real_of_abs_lt_top _ (Host.reduce_andi_all _ _ _ _ _ h7 i),
    fun i => real_of_abs_lt_top _ (Host.reduce_andi_all _ _ _ _ _ h8 i), fun i => ?_⟩
  have hb := Host.reduce_andi_all _ _ _ _ _ h2 i
  obtain ⟨hge, hlt⟩ := IntOp.andi_eq_one.1 hb
  have z : (0#32 : BitVec 32).toInt = 0 := by decide
  have t : (128#32 : BitVec 32).toInt = 128 := by decide
  exact ⟨z ▸ IntOp.cmpi_sge.1 hge, t ▸ IntOp.cmpi_slt.1 hlt⟩

theorem real_a0 (h : fn (F := Ideal) a0 a1 a2 a3 a4 a5 a6 a7 a8 = (fun _ => 1#1)) (i : S50000x64.Idx) : ∃ r : ℝ, a0 i = (r : EReal) := (decoded h).1 i
theorem real_a3 (h : fn (F := Ideal) a0 a1 a2 a3 a4 a5 a6 a7 a8 = (fun _ => 1#1)) (i : S128x256.Idx) : ∃ r : ℝ, a3 i = (r : EReal) := (decoded h).2.1 i
theorem real_a4 (h : fn (F := Ideal) a0 a1 a2 a3 a4 a5 a6 a7 a8 = (fun _ => 1#1)) (i : S256.Idx) : ∃ r : ℝ, a4 i = (r : EReal) := (decoded h).2.2.1 i
theorem real_a5 (h : fn (F := Ideal) a0 a1 a2 a3 a4 a5 a6 a7 a8 = (fun _ => 1#1)) (i : S256x64.Idx) : ∃ r : ℝ, a5 i = (r : EReal) := (decoded h).2.2.2.1 i
theorem real_a6 (h : fn (F := Ideal) a0 a1 a2 a3 a4 a5 a6 a7 a8 = (fun _ => 1#1)) (i : S64.Idx) : ∃ r : ℝ, a6 i = (r : EReal) := (decoded h).2.2.2.2.1 i
theorem real_a7 (h : fn (F := Ideal) a0 a1 a2 a3 a4 a5 a6 a7 a8 = (fun _ => 1#1)) (i : S64x1.Idx) : ∃ r : ℝ, a7 i = (r : EReal) := (decoded h).2.2.2.2.2.1 i
theorem real_a8 (h : fn (F := Ideal) a0 a1 a2 a3 a4 a5 a6 a7 a8 = (fun _ => 1#1)) (i : S1.Idx) : ∃ r : ℝ, a8 i = (r : EReal) := (decoded h).2.2.2.2.2.2.1 i
theorem batch_range (h : fn (F := Ideal) a0 a1 a2 a3 a4 a5 a6 a7 a8 = (fun _ => 1#1)) (i : S50000.Idx) : 0 ≤ (a2 i).toInt ∧ (a2 i).toInt < 128 := (decoded h).2.2.2.2.2.2.2 i

theorem batch_toNat_lt (h : fn (F := Ideal) a0 a1 a2 a3 a4 a5 a6 a7 a8 = (fun _ => 1#1)) (i : S50000.Idx) : (a2 i).toNat < 128 := by
  obtain ⟨h0, h1⟩ := batch_range h i
  have hlt := (a2 i).isLt
  rw [BitVec.toInt_eq_toNat_cond] at h0 h1
  by_cases hc : 2 * (a2 i).toNat < 2 ^ 32
  · rw [if_pos hc] at h1; omega
  · rw [if_neg hc] at h0; omega

theorem batch_fin (h : fn (F := Ideal) a0 a1 a2 a3 a4 a5 a6 a7 a8 = (fun _ => 1#1)) (i : S50000.Idx) : ∃ g : Fin 128, a2 i = BitVec.ofNat 32 g.val :=
  ⟨⟨(a2 i).toNat, batch_toNat_lt h i⟩,
    BitVec.eq_of_toNat_eq (by rw [BitVec.toNat_ofNat]; exact (Nat.mod_eq_of_lt (a2 i).isLt).symm)⟩

end Cert.PreFacts

end
-- ==== Proof.LibMaskedSum.lean ====
import Mathlib.Algebra.BigOperators.Fin
import Mathlib.Algebra.BigOperators.Intervals
import Mathlib.Logic.Equiv.Fin.Basic

namespace Cert.LibMaskedSum

open scoped BigOperators

variable {M : Type*} [AddCommMonoid M]

def ext0 {n : ℕ} (f : Fin n → M) (x : ℕ) : M := if h : x < n then f ⟨x, h⟩ else 0

theorem ext0_val {n : ℕ} (f : Fin n → M) (d : Fin n) : ext0 f d.val = f d := dif_pos d.isLt
theorem ext0_of_not_lt {n : ℕ} (f : Fin n → M) (x : ℕ) (hx : ¬ x < n) : ext0 f x = 0 := dif_neg hx

theorem sum_blocks (N B : ℕ) (g : ℕ → M) :
    ∑ u : Fin N, ∑ r : Fin B, g (u.val * B + r.val) = ∑ x ∈ Finset.range (N * B), g x := by
  rw [← Fin.sum_univ_eq_sum_range g (N * B), ← finProdFinEquiv.sum_comp, Fintype.sum_prod_type]
  refine Finset.sum_congr rfl fun u _ => Finset.sum_congr rfl fun r _ => ?_
  rw [finProdFinEquiv_apply_val, Nat.add_comm, Nat.mul_comm]

theorem sum_blocks_masked (N B n : ℕ) (hn : n ≤ N * B) (f : Fin n → M) :
    ∑ u : Fin N, ∑ r : Fin B, (if h : u.val * B + r.val < n then f ⟨u.val * B + r.val, h⟩ else 0) = ∑ d : Fin n, f d := by
  have e : ∀ (u : Fin N) (r : Fin B), (if h : u.val * B + r.val < n then f ⟨u.val * B + r.val, h⟩ else 0)
      = ext0 f (u.val * B + r.val) := fun _ _ => rfl
  simp only [e]
  rw [sum_blocks N B (ext0 f),
    ← Finset.sum_subset (Finset.range_mono hn) fun x _ hx => ext0_of_not_lt f x (by simpa using hx),
    ← Fin.sum_univ_eq_sum_range (ext0 f) n]
  exact Finset.sum_congr rfl fun d _ => ext0_val f d

end Cert.LibMaskedSum
-- ==== Proof.AlgTiles.lean ====
import proofs.«413591_j8993661518313_3_alg».proof.Proof.Spec
import proofs.«413591_j8993661518313_3_alg».proof.Proof.LibMaskedSum
import Mathlib.Algebra.BigOperators.Fin

noncomputable section

open scoped BigOperators

namespace Cert.Spec

theorem word_inj (a b : Fin 128) : BitVec.ofNat 32 a.val = BitVec.ofNat 32 b.val ↔ a = b := by
  constructor
  · intro h
    have h' := congrArg BitVec.toNat h
    simp only [BitVec.toNat_ofNat] at h'
    have ha := a.isLt
    have hb := b.isLt
    rw [Nat.mod_eq_of_lt (by omega), Nat.mod_eq_of_lt (by omega)] at h'
    exact Fin.ext h'
  · rintro rfl
    rfl

theorem ohw_word (s g : Fin 128) : ohw (BitVec.ofNat 32 s.val) g = if s = g then 1 else 0 := by
  unfold ohw
  by_cases h : s = g
  · rw [if_pos h, if_pos ((word_inj g s).mpr h.symm)]
  · rw [if_neg h, if_neg fun h' => h ((word_inj g s).mp h').symm]

theorem ohw_pad (g : Fin 128) : ohw 128#32 g = 0 := by
  unfold ohw
  rw [if_neg]
  intro h
  have h' := congrArg BitVec.toNat h
  simp only [BitVec.toNat_ofNat] at h'
  have hg := g.isLt
  rw [Nat.mod_eq_of_lt (by omega)] at h'
  omega

theorem hilo_eq (w x : Fin 2048 → EReal) (h : ∀ r, w r = 0 ∨ ∃ y : ℝ, x r = (y : EReal)) :
    hilo w x = ∑ r : Fin 2048, w r * x r := by
  unfold hilo
  have hz : ∀ r : Fin 2048, w r * (x r - x r) = 0 := by
    intro r
    rcases h r with h0 | ⟨y, hy⟩
    · rw [h0, zero_mul]
    · rw [hy, ← EReal.coe_sub, sub_self, EReal.coe_zero, mul_zero]
  rw [Finset.sum_congr rfl fun r _ => hz r, Finset.sum_const_zero, add_zero]

theorem sum_halves {M : Type*} [AddCommMonoid M] (f : Fin 392 → M) :
    (∑ i : Fin 196, f (tileOf 0 i)) + (∑ i : Fin 196, f (tileOf 1 i)) = ∑ t : Fin 392, f t := by
  have h0 : ∀ i : Fin 196, tileOf 0 i = Fin.castAdd 196 i := fun i => Fin.ext (by simp [tileOf])
  have h1 : ∀ i : Fin 196, tileOf 1 i = Fin.natAdd 196 i := fun i => Fin.ext (by simp [tileOf, Nat.add_comm])
  rw [Fin.sum_univ_add (a := 196) (b := 196) f]
  simp only [h0, h1]

theorem sum_rows {M : Type*} [AddCommMonoid M] (F : Fin 392 → Fin 2048 → M) (f : Fin 800000 → M)
    (hF : ∀ (t : Fin 392) (r : Fin 2048) (h : t.val * 2048 + r.val < 800000), F t r = f ⟨t.val * 2048 + r.val, h⟩)
    (hpadF : ∀ (t : Fin 392) (r : Fin 2048), 800000 ≤ t.val * 2048 + r.val → F t r = 0) :
    ∑ t : Fin 392, ∑ r : Fin 2048, F t r = ∑ d : Fin 800000, f d := by
  rw [← Cert.LibMaskedSum.sum_blocks_masked 392 2048 800000 (by norm_num) f]
  refine Finset.sum_congr rfl fun t _ => Finset.sum_congr rfl fun r _ => ?_
  by_cases h : t.val * 2048 + r.val < 800000
  · rw [dif_pos h]
    exact hF t r h
  · rw [dif_neg h]
    exact hpadF t r (not_lt.mp h)

section Tiles

variable {c : ℕ} (segt : Fin 392 → Fin 2048 → BitVec 32) (sg : Fin 800000 → Fin 128)
  (hs : ∀ (t : Fin 392) (r : Fin 2048) (h : t.val * 2048 + r.val < 800000),
    segt t r = BitVec.ofNat 32 (sg ⟨t.val * 2048 + r.val, h⟩).val)
  (hpad : ∀ (t : Fin 392) (r : Fin 2048), 800000 ≤ t.val * 2048 + r.val → segt t r = 128#32)
  (xT : Fin 392 → Fin 2048 → Fin c → EReal) (x : Fin 800000 → Fin c → EReal)
  (hx : ∀ (t : Fin 392) (r : Fin 2048) (h : t.val * 2048 + r.val < 800000) (j : Fin c),
    xT t r j = x ⟨t.val * 2048 + r.val, h⟩ j)

include hs hpad hx in

theorem kstat1_halves (g : Fin 128) (j : Fin c) :
    kstat1 segt xT 0 g j + kstat1 segt xT 1 g j = ssum sg x g j := by
  unfold kstat1 ssum
  rw [sum_halves fun t => ∑ r : Fin 2048, ohw (segt t r) g * xT t r j, Finset.sum_filter]
  refine sum_rows (fun t r => ohw (segt t r) g * xT t r j) (fun d => if sg d = g then x d j else 0) ?_ ?_
  · intro t r h
    show ohw (segt t r) g * xT t r j = _
    rw [hs t r h, hx t r h j, ohw_word, ite_mul, one_mul, zero_mul]
  · intro t r h
    show ohw (segt t r) g * xT t r j = 0
    rw [hpad t r h, ohw_pad, zero_mul]

include hpad hx in

theorem kstat_eq_kstat1 (hreal : ∀ (e : Fin 800000) (j : Fin c), ∃ y : ℝ, x e j = (y : EReal))
    (c2 : Fin 2) (g : Fin 128) (j : Fin c) : kstat segt xT c2 g j = kstat1 segt xT c2 g j := by
  unfold kstat kstat1
  refine Finset.sum_congr rfl fun i _ => hilo_eq _ _ fun r => ?_
  by_cases h : (tileOf c2 i).val * 2048 + r.val < 800000
  · right
    obtain ⟨y, hy⟩ := hreal ⟨(tileOf c2 i).val * 2048 + r.val, h⟩ j
    exact ⟨y, by rw [hx (tileOf c2 i) r h j, hy]⟩
  · left
    show ohw (segt (tileOf c2 i) r) g = 0
    rw [hpad (tileOf c2 i) r (not_lt.mp h), ohw_pad]

include hs hpad hx in

theorem kstat_halves (hreal : ∀ (e : Fin 800000) (j : Fin c), ∃ y : ℝ, x e j = (y : EReal))
    (g : Fin 128) (j : Fin c) : kstat segt xT 0 g j + kstat segt xT 1 g j = ssum sg x g j := by
  rw [kstat_eq_kstat1 segt hpad xT x hx hreal, kstat_eq_kstat1 segt hpad xT x hx hreal]
  exact kstat1_halves segt sg hs hpad xT x hx g j

include hs hpad in

theorem kcount_halves (g : Fin 128) : kcount segt 0 g + kcount segt 1 g = count sg g := by
  unfold kcount count
  rw [sum_halves fun t => ∑ r : Fin 2048, ohw (segt t r) g, Finset.sum_filter]
  refine sum_rows (fun t r => ohw (segt t r) g) (fun d => if sg d = g then (1 : EReal) else 0) ?_ ?_
  · intro t r h
    show ohw (segt t r) g = _
    rw [hs t r h, ohw_word]
  · intro t r h
    show ohw (segt t r) g = 0
    rw [hpad t r h, ohw_pad]

end Tiles

theorem ktab_at {c : ℕ} (tab : Fin 128 → Fin c → EReal) (s : Fin 128) (j : Fin c) :
    ktab tab (BitVec.ofNat 32 s.val) j = tab s j := by
  unfold ktab
  rw [Finset.sum_congr rfl fun g _ => by rw [ohw_word, ite_mul, one_mul, zero_mul],
    Finset.sum_ite_eq Finset.univ s fun g => tab g j, if_pos (Finset.mem_univ s)]

end Cert.Spec

end
-- ==== Proof.AlgNorm.lean ====
import proofs.«413591_j8993661518313_3_alg».proof.Proof.Spec

noncomputable section

open scoped BigOperators

namespace Cert.Spec

open Idealize.ShloMosaic

def epsR : ℝ := 10995116 * (2 : ℝ) ^ (-40 : ℤ)

theorem eps_eq : eps = ((epsR : ℝ) : EReal) := by
  simp [eps, epsR, Ideal.ofBits, Ideal.ieee, -EReal.coe_mul]

theorem epsR_pos : 0 < epsR := by unfold epsR; positivity

theorem coe_sum {ι : Type} (s : Finset ι) (f : ι → ℝ) :
    ∑ i ∈ s, ((f i : ℝ) : EReal) = ((∑ i ∈ s, f i : ℝ) : EReal) := by
  classical
  refine Finset.induction_on s ?_ ?_
  · simp
  · intro a s ha ih
    rw [Finset.sum_insert ha, Finset.sum_insert ha, ih, EReal.coe_add]

theorem coe_max (a b : ℝ) : max ((a : ℝ) : EReal) ((b : ℝ) : EReal) = ((max a b : ℝ) : EReal) :=
  (EReal.coe_strictMono.monotone.map_max).symm

theorem rsqrt_coe_pos {r : ℝ} (h : 0 < r) : Ideal.rsqrt ((r : ℝ) : EReal) = (((Real.sqrt r)⁻¹ : ℝ) : EReal) := by
  rw [Ideal.rsqrt_coe, if_neg (not_lt.mpr h.le), if_neg h.ne']

section Real

variable {n c : ℕ} (sg : Fin n → Fin 128) (x : Fin n → Fin c → ℝ)

def countR (g : Fin 128) : ℝ := ((Finset.univ.filter (fun e : Fin n => sg e = g)).card : ℝ)
def cntR (g : Fin 128) : ℝ := max (countR sg g) 1

theorem count_eq (g : Fin 128) : count sg g = ((countR sg g : ℝ) : EReal) := by
  unfold count countR
  rw [← EReal.coe_one, coe_sum, Finset.sum_const, nsmul_eq_mul, mul_one]

theorem cnt_eq (g : Fin 128) : cnt sg g = ((cntR sg g : ℝ) : EReal) := by
  unfold cnt cntR
  rw [count_eq, ← EReal.coe_one, coe_max]

theorem one_le_cntR (g : Fin 128) : 1 ≤ cntR sg g := le_max_right _ _

theorem cntR_pos (g : Fin 128) : 0 < cntR sg g := lt_of_lt_of_le one_pos (one_le_cntR sg g)

theorem div_cnt (g : Fin 128) (a : ℝ) : Ideal.div ((a : ℝ) : EReal) (cnt sg g) = ((a / cntR sg g : ℝ) : EReal) := by
  rw [cnt_eq, Ideal.div_coe (ne_of_gt (cntR_pos sg g)), ← EReal.coe_mul, mul_one_div]

def ssumR (g : Fin 128) (j : Fin c) : ℝ := ∑ e ∈ Finset.univ.filter (fun e : Fin n => sg e = g), x e j

theorem ssum_coe (g : Fin 128) (j : Fin c) :
    ssum sg (fun e j => ((x e j : ℝ) : EReal)) g j = ((ssumR sg x g j : ℝ) : EReal) := by
  unfold ssum ssumR
  exact coe_sum _ _

def meanR (g : Fin 128) (j : Fin c) : ℝ := ssumR sg x g j / cntR sg g

theorem mean_coe (g : Fin 128) (j : Fin c) :
    mean sg (fun e j => ((x e j : ℝ) : EReal)) g j = ((meanR sg x g j : ℝ) : EReal) := by
  unfold mean meanR
  rw [ssum_coe, div_cnt]

theorem cen_coe (e : Fin n) (j : Fin c) :
    cen sg (fun e j => ((x e j : ℝ) : EReal)) e j = ((x e j - meanR sg x (sg e) j : ℝ) : EReal) := by
  unfold cen
  rw [mean_coe, ← EReal.coe_sub]

def varRR (g : Fin 128) (j : Fin c) : ℝ :=
  ssumR sg (fun e j => (x e j - meanR sg x (sg e) j) * (x e j - meanR sg x (sg e) j)) g j / cntR sg g

theorem varR_coe (g : Fin 128) (j : Fin c) :
    varR sg (fun e j => ((x e j : ℝ) : EReal)) g j = ((varRR sg x g j : ℝ) : EReal) := by
  have hc : (fun e j => cen sg (fun e j => ((x e j : ℝ) : EReal)) e j * cen sg (fun e j => ((x e j : ℝ) : EReal)) e j)
      = fun e j => (((x e j - meanR sg x (sg e) j) * (x e j - meanR sg x (sg e) j) : ℝ) : EReal) := by
    funext e j
    rw [cen_coe, ← EReal.coe_mul]
  unfold varR varRR
  rw [hc, ssum_coe sg (fun e j => (x e j - meanR sg x (sg e) j) * (x e j - meanR sg x (sg e) j)), div_cnt]

theorem varRR_nonneg (g : Fin 128) (j : Fin c) : 0 ≤ varRR sg x g j :=
  div_nonneg (Finset.sum_nonneg fun _ _ => mul_self_nonneg _) (cntR_pos sg g).le

theorem moment_identity (Q S k N : ℝ) (hN : 0 < N) (h : k = N ∨ (k = 0 ∧ S = 0)) :
    (Q - 2 * (S / N) * S + k * (S / N * (S / N))) / N = Q / N - S / N * (S / N) := by
  rcases h with h | ⟨hk, hS⟩
  · subst h
    field_simp
    ring
  · subst hk hS
    simp

theorem varRR_eq (g : Fin 128) (j : Fin c) :
    varRR sg x g j = ssumR sg (fun e j => x e j * x e j) g j / cntR sg g - meanR sg x g j * meanR sg x g j := by
  have h1 : ∑ e ∈ Finset.univ.filter (fun e : Fin n => sg e = g),
        (x e j - meanR sg x (sg e) j) * (x e j - meanR sg x (sg e) j)
      = ∑ e ∈ Finset.univ.filter (fun e : Fin n => sg e = g),
        (x e j * x e j - 2 * meanR sg x g j * x e j + meanR sg x g j * meanR sg x g j) := by
    refine Finset.sum_congr rfl fun e he => ?_
    rw [(Finset.mem_filter.mp he).2]
    ring
  have hk : countR sg g = cntR sg g ∨ (countR sg g = 0 ∧ ssumR sg x g j = 0) := by
    unfold cntR countR ssumR
    rcases Nat.eq_zero_or_pos (Finset.univ.filter (fun e : Fin n => sg e = g)).card with h0 | hp
    · right
      rw [Finset.card_eq_zero] at h0
      rw [h0]
      simp
    · left
      have : (1 : ℝ) ≤ ((Finset.univ.filter (fun e : Fin n => sg e = g)).card : ℝ) := by exact_mod_cast hp
      exact (max_eq_left this).symm
  have := moment_identity (ssumR sg (fun e j => x e j * x e j) g j) (ssumR sg x g j) (countR sg g) (cntR sg g)
    (cntR_pos sg g) hk
  unfold varRR
  refine Eq.trans ?_ this
  congr 1
  show ∑ e ∈ Finset.univ.filter (fun e : Fin n => sg e = g),
      (x e j - meanR sg x (sg e) j) * (x e j - meanR sg x (sg e) j) = _
  rw [h1, Finset.sum_add_distrib, Finset.sum_sub_distrib, ← Finset.mul_sum, Finset.sum_const, nsmul_eq_mul]
  rfl

def scaleR (g : Fin 128) (j : Fin c) : ℝ := (Real.sqrt (varRR sg x g j + epsR))⁻¹

theorem varRR_add_eps_pos (g : Fin 128) (j : Fin c) : 0 < varRR sg x g j + epsR :=
  add_pos_of_nonneg_of_pos (varRR_nonneg sg x g j) epsR_pos

theorem scaleOf_coe (g : Fin 128) (j : Fin c) :
    scaleOf (Ideal.div (ssum sg (fun e j => ((x e j : ℝ) : EReal) * ((x e j : ℝ) : EReal)) g j) (cnt sg g))
        (mean sg (fun e j => ((x e j : ℝ) : EReal)) g j)
      = ((scaleR sg x g j : ℝ) : EReal) := by
  have hsq : (fun e j => ((x e j : ℝ) : EReal) * ((x e j : ℝ) : EReal)) = fun e j => ((x e j * x e j : ℝ) : EReal) := by
    funext e j
    rw [EReal.coe_mul]
  rw [hsq, ssum_coe sg (fun e j => x e j * x e j), div_cnt, mean_coe]
  unfold scaleOf varK
  rw [← EReal.coe_mul, ← EReal.coe_sub, ← varRR_eq, ← EReal.coe_zero, coe_max, max_eq_left (varRR_nonneg sg x g j),
    eps_eq, ← EReal.coe_add, rsqrt_coe_pos (varRR_add_eps_pos sg x g j)]
  rfl

theorem shiftOf_coe (g : Fin 128) (j : Fin c) :
    shiftOf (Ideal.div (ssum sg (fun e j => ((x e j : ℝ) : EReal) * ((x e j : ℝ) : EReal)) g j) (cnt sg g))
        (mean sg (fun e j => ((x e j : ℝ) : EReal)) g j)
      = ((meanR sg x g j * scaleR sg x g j : ℝ) : EReal) := by
  unfold shiftOf
  rw [scaleOf_coe, mean_coe, ← EReal.coe_mul]

def normRR (e : Fin n) (j : Fin c) : ℝ := (x e j - meanR sg x (sg e) j) * scaleR sg x (sg e) j

theorem normR_coe (e : Fin n) (j : Fin c) :
    normR sg (fun e j => ((x e j : ℝ) : EReal)) e j = ((normRR sg x e j : ℝ) : EReal) := by
  unfold normR normRR scaleR
  rw [cen_coe, varR_coe, eps_eq, ← EReal.coe_add, rsqrt_coe_pos (varRR_add_eps_pos sg x (sg e) j), ← EReal.coe_mul]

theorem actK_eq_normR (e : Fin n) (j : Fin c) :
    actK ((x e j : ℝ) : EReal)
        (scaleOf (Ideal.div (ssum sg (fun e j => ((x e j : ℝ) : EReal) * ((x e j : ℝ) : EReal)) (sg e) j) (cnt sg (sg e)))
          (mean sg (fun e j => ((x e j : ℝ) : EReal)) (sg e) j))
        (shiftOf (Ideal.div (ssum sg (fun e j => ((x e j : ℝ) : EReal) * ((x e j : ℝ) : EReal)) (sg e) j) (cnt sg (sg e)))
          (mean sg (fun e j => ((x e j : ℝ) : EReal)) (sg e) j))
      = max (normR sg (fun e j => ((x e j : ℝ) : EReal)) e j) 0 := by
  rw [scaleOf_coe, shiftOf_coe, normR_coe]
  unfold actK normRR
  rw [← EReal.coe_mul, ← EReal.coe_sub, sub_mul]

theorem max_normR_coe (e : Fin n) (j : Fin c) :
    max (normR sg (fun e j => ((x e j : ℝ) : EReal)) e j) 0 = ((max (normRR sg x e j) 0 : ℝ) : EReal) := by
  rw [normR_coe, ← EReal.coe_zero, coe_max]

end Real

end Cert.Spec

end
-- ==== Proof.AlgNet.lean ====
import proofs.«413591_j8993661518313_3_alg».proof.Proof.Spec
import proofs.«413591_j8993661518313_3_alg».proof.Proof.AlgTiles
import proofs.«413591_j8993661518313_3_alg».proof.Proof.AlgNorm

noncomputable section

open scoped BigOperators

namespace Cert.Spec

open Idealize.ShloMosaic

theorem dot_coe {k : ℕ} (a w : Fin k → ℝ) (b : ℝ) :
    (∑ κ : Fin k, ((a κ : ℝ) : EReal) * ((w κ : ℝ) : EReal)) + ((b : ℝ) : EReal)
      = (((∑ κ : Fin k, a κ * w κ) + b : ℝ) : EReal) := by
  rw [EReal.coe_add, ← coe_sum]
  simp only [EReal.coe_mul]

def roundT {c : ℕ} (segt : Fin 392 → Fin 2048 → BitVec 32) (l : Fin 392 → Fin 2048 → Fin c → EReal)
    (s0 s1 : Fin 128 → Fin c → EReal) (t : Fin 392) (r : Fin 2048) (j : Fin c) : EReal :=
  actK (l t r j)
    (ktab (fun g j => scaleT (cntK (kcount segt 0 g) (kcount segt 1 g)) (s0 g j) (s1 g j)
      (kstat segt (fun t r j => l t r j * l t r j) 0 g j) (kstat segt (fun t r j => l t r j * l t r j) 1 g j)) (segt t r) j)
    (ktab (fun g j => shiftT (cntK (kcount segt 0 g) (kcount segt 1 g)) (s0 g j) (s1 g j)
      (kstat segt (fun t r j => l t r j * l t r j) 0 g j) (kstat segt (fun t r j => l t r j * l t r j) 1 g j)) (segt t r) j)

theorem roundT_eq {c : ℕ} (segt : Fin 392 → Fin 2048 → BitVec 32) (sg : Fin 800000 → Fin 128)
    (hs : ∀ (t : Fin 392) (r : Fin 2048) (h : t.val * 2048 + r.val < 800000),
      segt t r = BitVec.ofNat 32 (sg ⟨t.val * 2048 + r.val, h⟩).val)
    (hpad : ∀ (t : Fin 392) (r : Fin 2048), 800000 ≤ t.val * 2048 + r.val → segt t r = 128#32)
    (l : Fin 392 → Fin 2048 → Fin c → EReal) (L : Fin 800000 → Fin c → ℝ)
    (hl : ∀ (t : Fin 392) (r : Fin 2048) (h : t.val * 2048 + r.val < 800000) (j : Fin c),
      l t r j = ((L ⟨t.val * 2048 + r.val, h⟩ j : ℝ) : EReal))
    (s0 s1 : Fin 128 → Fin c → EReal)
    (hsum : ∀ g j, s0 g j + s1 g j = ssum sg (fun e j => ((L e j : ℝ) : EReal)) g j)
    (t : Fin 392) (r : Fin 2048) (h : t.val * 2048 + r.val < 800000) (j : Fin c) :
    roundT segt l s0 s1 t r j = max (normR sg (fun e j => ((L e j : ℝ) : EReal)) ⟨t.val * 2048 + r.val, h⟩ j) 0 := by
  have hc : ∀ g, cntK (kcount segt 0 g) (kcount segt 1 g) = cnt sg g := fun g => by
    unfold cntK cnt
    rw [kcount_halves segt sg hs hpad g]
  have hq : ∀ g j, kstat segt (fun t r j => l t r j * l t r j) 0 g j + kstat segt (fun t r j => l t r j * l t r j) 1 g j
      = ssum sg (fun e j => ((L e j : ℝ) : EReal) * ((L e j : ℝ) : EReal)) g j := fun g j =>
    kstat_halves segt sg hs hpad (fun t r j => l t r j * l t r j)
      (fun e j => ((L e j : ℝ) : EReal) * ((L e j : ℝ) : EReal))
      (fun t r h j => by
        show l t r j * l t r j = _
        rw [hl t r h j])
      (fun e j => ⟨L e j * L e j, (EReal.coe_mul _ _).symm⟩) g j
  unfold roundT
  simp only [scaleT, shiftT, hc, hsum, hq]
  rw [hs t r h, ktab_at, ktab_at, hl t r h j]
  exact actK_eq_normR sg L ⟨t.val * 2048 + r.val, h⟩ j

def act1T (Xp : Fin 392 → Fin 2048 → Fin 128 → EReal) (segt : Fin 392 → Fin 2048 → BitVec 32)
    (W1 : Fin 128 → Fin 256 → EReal) (b1 : Fin 256 → EReal) : Fin 392 → Fin 2048 → Fin 256 → EReal :=
  roundT segt (linT Xp W1 b1) (kstat segt (linT Xp W1 b1) 0) (kstat segt (linT Xp W1 b1) 1)

def lin2T (Xp : Fin 392 → Fin 2048 → Fin 128 → EReal) (segt : Fin 392 → Fin 2048 → BitVec 32)
    (W1 : Fin 128 → Fin 256 → EReal) (b1 : Fin 256 → EReal) (W2 : Fin 256 → Fin 64 → EReal) (b2 : Fin 64 → EReal) :
    Fin 392 → Fin 2048 → Fin 64 → EReal :=
  linT (act1T Xp segt W1 b1) W2 b2

theorem outT_rounds (Xp : Fin 392 → Fin 2048 → Fin 128 → EReal) (segt : Fin 392 → Fin 2048 → BitVec 32)
    (W1 : Fin 128 → Fin 256 → EReal) (b1 : Fin 256 → EReal) (W2 : Fin 256 → Fin 64 → EReal) (b2 : Fin 64 → EReal)
    (W3 : Fin 64 → EReal) (b3 : EReal) (t : Fin 392) (r : Fin 2048) :
    outT Xp segt W1 b1 W2 b2 W3 b3 t r
      = (∑ κ : Fin 64, roundT segt (lin2T Xp segt W1 b1 W2 b2) (kstat1 segt (lin2T Xp segt W1 b1 W2 b2) 0)
          (kstat1 segt (lin2T Xp segt W1 b1 W2 b2) 1) t r κ * W3 κ) + b3 :=
  rfl

theorem outT_eq_outR
    (Xp : Fin 392 → Fin 2048 → Fin 128 → EReal) (segt : Fin 392 → Fin 2048 → BitVec 32)
    (X : Fin 800000 → Fin 128 → EReal) (sg : Fin 800000 → Fin 128)
    (W1 : Fin 128 → Fin 256 → EReal) (b1 : Fin 256 → EReal) (W2 : Fin 256 → Fin 64 → EReal) (b2 : Fin 64 → EReal)
    (W3 : Fin 64 → EReal) (b3 : EReal)
    (hs : ∀ (t : Fin 392) (r : Fin 2048) (h : t.val * 2048 + r.val < 800000),
      segt t r = BitVec.ofNat 32 (sg ⟨t.val * 2048 + r.val, h⟩).val)
    (hpad : ∀ (t : Fin 392) (r : Fin 2048), 800000 ≤ t.val * 2048 + r.val → segt t r = 128#32)
    (hX : ∀ (t : Fin 392) (r : Fin 2048) (h : t.val * 2048 + r.val < 800000) (κ : Fin 128),
      Xp t r κ = X ⟨t.val * 2048 + r.val, h⟩ κ)
    (hXr : ∀ e κ, ∃ y : ℝ, X e κ = (y : EReal)) (hW1 : ∀ κ j, ∃ y : ℝ, W1 κ j = (y : EReal))
    (hb1 : ∀ j, ∃ y : ℝ, b1 j = (y : EReal))
    (hW2 : ∀ κ j, ∃ y : ℝ, W2 κ j = (y : EReal)) (hb2 : ∀ j, ∃ y : ℝ, b2 j = (y : EReal))
    (hW3 : ∀ κ, ∃ y : ℝ, W3 κ = (y : EReal)) (hb3 : ∃ y : ℝ, b3 = (y : EReal))
    (t : Fin 392) (r : Fin 2048) (h : t.val * 2048 + r.val < 800000) :
    outT Xp segt W1 b1 W2 b2 W3 b3 t r = outR X sg W1 b1 W2 b2 W3 b3 ⟨t.val * 2048 + r.val, h⟩ := by
  choose XR hXR using hXr
  choose W1R hW1R using hW1
  choose b1R hb1R using hb1
  choose W2R hW2R using hW2
  choose b2R hb2R using hb2
  obtain rfl : X = fun e κ => ((XR e κ : ℝ) : EReal) := funext fun e => funext fun κ => hXR e κ
  obtain rfl : W1 = fun κ j => ((W1R κ j : ℝ) : EReal) := funext fun κ => funext fun j => hW1R κ j
  obtain rfl : b1 = fun j => ((b1R j : ℝ) : EReal) := funext fun j => hb1R j
  obtain rfl : W2 = fun κ j => ((W2R κ j : ℝ) : EReal) := funext fun κ => funext fun j => hW2R κ j
  obtain rfl : b2 = fun j => ((b2R j : ℝ) : EReal) := funext fun j => hb2R j

  have hl1 : ∀ (t : Fin 392) (r : Fin 2048) (h : t.val * 2048 + r.val < 800000) (j : Fin 256),
      linT Xp (fun κ j => ((W1R κ j : ℝ) : EReal)) (fun j => ((b1R j : ℝ) : EReal)) t r j
        = (((∑ κ : Fin 128, XR ⟨t.val * 2048 + r.val, h⟩ κ * W1R κ j) + b1R j : ℝ) : EReal) := by
    intro t r h j
    unfold linT
    simp only [hX t r h]
    exact dot_coe _ _ _
  have hL1 : lin (fun e κ => ((XR e κ : ℝ) : EReal)) (fun κ j => ((W1R κ j : ℝ) : EReal)) (fun j => ((b1R j : ℝ) : EReal))
      = fun e j => (((∑ κ : Fin 128, XR e κ * W1R κ j) + b1R j : ℝ) : EReal) :=
    funext fun e => funext fun j => dot_coe _ _ _

  have ha1 : ∀ (t : Fin 392) (r : Fin 2048) (h : t.val * 2048 + r.val < 800000) (j : Fin 256),
      act1T Xp segt (fun κ j => ((W1R κ j : ℝ) : EReal)) (fun j => ((b1R j : ℝ) : EReal)) t r j
        = max (normR sg (fun e j => (((∑ κ : Fin 128, XR e κ * W1R κ j) + b1R j : ℝ) : EReal)) ⟨t.val * 2048 + r.val, h⟩ j) 0 :=
    fun t r h j => roundT_eq segt sg hs hpad _ (fun e j => (∑ κ : Fin 128, XR e κ * W1R κ j) + b1R j) hl1 _ _
      (fun g j => kstat_halves segt sg hs hpad _ _ hl1 (fun e j => ⟨_, rfl⟩) g j) t r h j

  have hH1 : ∀ (e : Fin 800000) (j : Fin 256), ∃ y : ℝ,
      max (normR sg (fun e j => (((∑ κ : Fin 128, XR e κ * W1R κ j) + b1R j : ℝ) : EReal)) e j) 0 = (y : EReal) :=
    fun e j => ⟨_, max_normR_coe sg (fun e j => (∑ κ : Fin 128, XR e κ * W1R κ j) + b1R j) e j⟩
  choose H1R hH1R using hH1

  have hl2 : ∀ (t : Fin 392) (r : Fin 2048) (h : t.val * 2048 + r.val < 800000) (j : Fin 64),
      lin2T Xp segt (fun κ j => ((W1R κ j : ℝ) : EReal)) (fun j => ((b1R j : ℝ) : EReal))
          (fun κ j => ((W2R κ j : ℝ) : EReal)) (fun j => ((b2R j : ℝ) : EReal)) t r j
        = (((∑ κ : Fin 256, H1R ⟨t.val * 2048 + r.val, h⟩ κ * W2R κ j) + b2R j : ℝ) : EReal) := by
    intro t r h j
    unfold lin2T linT
    simp only [ha1 t r h, hH1R]
    exact dot_coe _ _ _
  have hL2 : lin (fun e j => max (normR sg (lin (fun e κ => ((XR e κ : ℝ) : EReal)) (fun κ j => ((W1R κ j : ℝ) : EReal))
        (fun j => ((b1R j : ℝ) : EReal))) e j) 0) (fun κ j => ((W2R κ j : ℝ) : EReal)) (fun j => ((b2R j : ℝ) : EReal))
      = fun e j => (((∑ κ : Fin 256, H1R e κ * W2R κ j) + b2R j : ℝ) : EReal) := by
    rw [hL1]
    funext e j
    unfold lin
    simp only [hH1R]
    exact dot_coe _ _ _

  rw [outT_rounds]
  show _ = (∑ κ : Fin 64, max (normR sg (lin (fun e j => max (normR sg (lin (fun e κ => ((XR e κ : ℝ) : EReal))
    (fun κ j => ((W1R κ j : ℝ) : EReal)) (fun j => ((b1R j : ℝ) : EReal))) e j) 0) (fun κ j => ((W2R κ j : ℝ) : EReal))
    (fun j => ((b2R j : ℝ) : EReal))) ⟨t.val * 2048 + r.val, h⟩ κ) 0 * W3 κ) + b3
  rw [hL2]
  refine congrArg (· + b3) (Finset.sum_congr rfl fun κ _ => congrArg (· * W3 κ) ?_)
  exact roundT_eq segt sg hs hpad _ (fun e j => (∑ κ : Fin 256, H1R e κ * W2R κ j) + b2R j) hl2 _ _
    (fun g j => kstat1_halves segt sg hs hpad _ _ hl2 g j) t r h κ

end Cert.Spec

end
-- ==== Proof.KFinal.lean ====
import proofs.«413591_j8993661518313_3_alg».proof.Proof.KChain
import proofs.«413591_j8993661518313_3_alg».proof.Proof.HostPrefix
import proofs.«413591_j8993661518313_3_alg».proof.Proof.PreFacts
import proofs.«413591_j8993661518313_3_alg».proof.Proof.AlgNet

set_option maxRecDepth 16384

noncomputable section

namespace Cert.KernelIdeal.Hand

open Idealize.ShloMosaic Idealize.ShloMosaic.TcCoe Idealize.ShloMosaic.ValueIdx Idealize.SL.Sem
open Cert.KernelIdeal Cert.KernelIdeal.Gen

variable (m : (ℓ : Loc nD τ sig) → Buf (Elt Ideal) ℓ) (c : Dev nD)

/-- A buffer that none of the five leading host stretches writes is, after them, as launched. -/
theorem W5_kept (r : Ref sig .tc) (h4 : r ∉ hostOps0_4_W := by decide) (h3 : r ∉ hostOps0_3_W := by decide)
    (h2 : r ∉ hostOps0_2_W := by decide) (h1 : r ∉ hostOps0_1_W := by decide) (h0 : r ∉ hostOps0_W := by decide) :
    V5 m c r = m ((c : Thread nD τ).loc r) :=
  (V5_of m c r h4).trans <| (V4_of m c r h3).trans <| (V3_of m c r h2).trans <| (V2_of m c r h1).trans (V1_of m c r h0)

def sgK (e : Fin 800000) : Fin 128 := ⟨(sgwk (W0 m c) e).toNat % 128, Nat.mod_lt _ (by norm_num)⟩

variable [Cert.Pre_finite_inputs.Facts]
variable (hp : Cert.Pre_finite_inputs.fn (F := Ideal) (m ((c.tc : Thread nD τ).loc main_arg0)) (m ((c.tc : Thread nD τ).loc main_arg1))
      (m ((c.tc : Thread nD τ).loc main_arg2)) (m ((c.tc : Thread nD τ).loc main_arg3)) (m ((c.tc : Thread nD τ).loc main_arg4))
      (m ((c.tc : Thread nD τ).loc main_arg5)) (m ((c.tc : Thread nD τ).loc main_arg6)) (m ((c.tc : Thread nD τ).loc main_arg7))
      (m ((c.tc : Thread nD τ).loc main_arg8)) = (fun _ => 1#1))

include hp

theorem sgK_spec (e : Fin 800000) : sgwk (W0 m c) e = BitVec.ofNat 32 (sgK m c e).val := by
  obtain ⟨i, hi⟩ := sgwk_mem (W0 m c) e
  obtain ⟨g, hg⟩ := Cert.PreFacts.batch_fin hp i
  have hw : sgwk (W0 m c) e = BitVec.ofNat 32 g.val := hi.trans hg
  have hg128 : g.val < 128 := g.isLt
  have hn : (sgwk (W0 m c) e).toNat = g.val := by
    rw [hw, BitVec.toNat_ofNat]
    exact Nat.mod_eq_of_lt (by omega)
  have hk : (sgK m c e).val = g.val := by
    show (sgwk (W0 m c) e).toNat % 128 = g.val
    rw [hn]
    exact Nat.mod_eq_of_lt hg128
  rw [hk]
  exact hw

theorem hs_K (t : Fin 392) (r : Fin 2048) (h : t.val * 2048 + r.val < 800000) :
    segt (V5 m) c t r = BitVec.ofNat 32 (sgK m c ⟨t.val * 2048 + r.val, h⟩).val :=
  ((segt_prefix (W0 m c) t r).trans (dif_pos h)).trans (sgK_spec m c hp _)

omit hp in
omit [Cert.Pre_finite_inputs.Facts] in
theorem hpad_K (t : Fin 392) (r : Fin 2048) (h : 800000 ≤ t.val * 2048 + r.val) : segt (V5 m) c t r = 128#32 :=
  (segt_prefix (W0 m c) t r).trans (dif_neg (Nat.not_lt.mpr h))

omit hp in
omit [Cert.Pre_finite_inputs.Facts] in
theorem hX_K (t : Fin 392) (r : Fin 2048) (h : t.val * 2048 + r.val < 800000) (κ : Fin 128) :
    Xp (V5 m) c t r κ = Xk (W0 m c) ⟨t.val * 2048 + r.val, h⟩ κ :=
  (Xp_prefix (W0 m c) t r κ).trans (dif_pos h)

theorem hXr_K (e : Fin 800000) (κ : Fin 128) : ∃ y : ℝ, Xk (W0 m c) e κ = ((y : ℝ) : EReal) := by
  obtain ⟨i, hi⟩ := Xk_mem (W0 m c) e κ
  obtain ⟨y, hy⟩ := Cert.PreFacts.real_a0 hp i
  exact ⟨y, hi.trans hy⟩

omit hp in
omit [Cert.Pre_finite_inputs.Facts] in
theorem W1k_at (κ : Fin 128) (j : Fin 256) :
    W1k (V5 m) c κ j = (m ((c.tc : Thread nD τ).loc main_arg3) : S128x256.Idx → EReal) (ix2 κ j) :=
  congrFun (W1_prefix (W0 m c)) (ix2 κ j)

omit hp in
omit [Cert.Pre_finite_inputs.Facts] in
theorem b1k_at (j : Fin 256) : b1k (V5 m) c j = (m ((c.tc : Thread nD τ).loc main_arg4) : S256.Idx → EReal) (ix1 j) :=
  congrFun (W5_kept m c main_arg4) (ix1 j)

omit hp in
omit [Cert.Pre_finite_inputs.Facts] in
theorem W2k_at (κ : Fin 256) (j : Fin 64) :
    W2k (V5 m) c κ j = (m ((c.tc : Thread nD τ).loc main_arg5) : S256x64.Idx → EReal) (ix2 κ j) :=
  congrFun (W2_prefix (W0 m c)) (ix2 κ j)

omit hp in
omit [Cert.Pre_finite_inputs.Facts] in
theorem b2k_at (j : Fin 64) : b2k (V5 m) c j = (m ((c.tc : Thread nD τ).loc main_arg6) : S64.Idx → EReal) (ix1 j) :=
  congrFun (W5_kept m c main_arg6) (ix1 j)

omit hp in
omit [Cert.Pre_finite_inputs.Facts] in
theorem W3k_at (κ : Fin 64) :
    W3k (V5 m) c κ = (m ((c.tc : Thread nD τ).loc main_arg7) : S64x1.Idx → EReal) (ix2 κ (0 : Fin 1)) :=
  congrFun (W3_prefix (W0 m c)) (ix2 κ (0 : Fin 1))

omit hp in
omit [Cert.Pre_finite_inputs.Facts] in
theorem b3k_at : b3k (V5 m) c = (m ((c.tc : Thread nD τ).loc main_arg8) : S1.Idx → EReal) (ix1 (0 : Fin 1)) :=
  congrFun (W5_kept m c main_arg8) (ix1 (0 : Fin 1))

theorem kernel_result (e : Fin 800000) :
    (W11 m c (Proc.devRef .tc main_v91) : S800000x1.Idx → EReal) (ix2 e (0 : Fin 1))
      = Spec.outR (Xk (W0 m c)) (sgK m c) (W1k (V5 m) c) (b1k (V5 m) c) (W2k (V5 m) c) (b2k (V5 m) c) (W3k (V5 m) c)
          (b3k (V5 m) c) e := by
  have hlt : e.val / 2048 * 2048 + e.val % 2048 < 800000 := by
    rw [Nat.div_add_mod']
    exact e.isLt
  have he : (⟨e.val / 2048 * 2048 + e.val % 2048, hlt⟩ : Fin 800000) = e := Fin.ext (Nat.div_add_mod' e.val 2048)
  have key := Spec.outT_eq_outR (Xp (V5 m) c) (segt (V5 m) c) (Xk (W0 m c)) (sgK m c) (W1k (V5 m) c) (b1k (V5 m) c)
    (W2k (V5 m) c) (b2k (V5 m) c) (W3k (V5 m) c) (b3k (V5 m) c) (hs_K m c hp) (hpad_K m c) (hX_K m c) (hXr_K m c hp)
    (fun κ j => (Cert.PreFacts.real_a3 hp (ix2 κ j)).imp fun _ hy => (W1k_at m c κ j).trans hy)
    (fun j => (Cert.PreFacts.real_a4 hp (ix1 j)).imp fun _ hy => (b1k_at m c j).trans hy)
    (fun κ j => (Cert.PreFacts.real_a5 hp (ix2 κ j)).imp fun _ hy => (W2k_at m c κ j).trans hy)
    (fun j => (Cert.PreFacts.real_a6 hp (ix1 j)).imp fun _ hy => (b2k_at m c j).trans hy)
    (fun κ => (Cert.PreFacts.real_a7 hp (ix2 κ (0 : Fin 1))).imp fun _ hy => (W3k_at m c κ).trans hy)
    ((Cert.PreFacts.real_a8 hp (ix1 (0 : Fin 1))).imp fun _ hy => (b3k_at m c).trans hy)
    ⟨e.val / 2048, by have := e.isLt; omega⟩ ⟨e.val % 2048, Nat.mod_lt _ (by norm_num)⟩ hlt
  rw [he] at key
  exact (kernel_value m c e).trans key

end Cert.KernelIdeal.Hand

end
-- ==== Proof.Glue.lean ====
import proofs.«413591_j8993661518313_3_alg».proof.Proof.RefValue
import proofs.«413591_j8993661518313_3_alg».proof.Proof.KFinal
import proofs.«413591_j8993661518313_3_alg».proof.Proof.HostPrefix
import proofs.«413591_j8993661518313_3_alg».proof.Proof.Launch
import Idealize.ShloMosaic.Lib.ValueIdx

noncomputable section

namespace Cert.Proof.Glue

open Idealize.ShloMosaic Idealize.ShloMosaic.TcCoe Idealize.ShloMosaic.ValueIdx Idealize.SL.Sem Idealize.ShloMosaic.StableHlo
open Cert.KernelIdeal.Hand

theorem toInt_word (n : Fin 128) : (BitVec.ofNat 32 n.val).toInt = (n.val : ℤ) := by
  have hn := n.isLt
  rw [BitVec.toInt_eq_toNat_cond, BitVec.toNat_ofNat, Nat.mod_eq_of_lt (by omega), if_pos (by omega)]

variable [Cert.Pre_finite_inputs.Facts]

theorem result_eq
    (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (c : Dev Cert.KernelIdeal.nD)
    (hp : Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) = (fun _ => 1#1))
    (hag : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) :
    (Cert.ReferenceIdeal.RefValue.outTerm (launchContents m' c) : Cert.KernelIdeal.S800000x1.Idx → EReal)
      = (W11 m c (Proc.devRef .tc Cert.KernelIdeal.main_v91) : Cert.KernelIdeal.S800000x1.Idx → EReal) := by
  obtain ⟨a0, a1, a2, a3, a4, a5, a6, a7, a8⟩ := hag

  have hw : ∀ e, Cert.ReferenceIdeal.RefValue.sgw (launchContents m' c) e = BitVec.ofNat 32 (sgK m c e).val := fun e =>
    (sgwk_bridge (W0 m c) (launchContents m' c) a1.symm a2.symm e).symm.trans (sgK_spec m c hp e)
  have h : ∀ e, 0 ≤ (Cert.ReferenceIdeal.RefValue.sgw (launchContents m' c) e).toInt ∧ (Cert.ReferenceIdeal.RefValue.sgw (launchContents m' c) e).toInt < 128 := fun e => by
    rw [hw e, toInt_word]
    have := (sgK m c e).isLt
    omega
  have hsg : Cert.ReferenceIdeal.RefValue.sg (launchContents m' c) h = sgK m c := funext fun e => Fin.ext (by
    have := Cert.ReferenceIdeal.RefValue.sg_word (launchContents m' c) h e
    rw [hw e, toInt_word] at this
    omega)
  funext i
  obtain ⟨e, z, rfl⟩ : ∃ (e : Fin 800000) (z : Fin 1), i = ix2 e z := ⟨i 0, i 1, eq_ix2 i⟩
  obtain rfl : z = 0 := Subsingleton.elim _ _
  refine (Cert.ReferenceIdeal.RefValue.outTerm_eq_outR (launchContents m' c) h e).trans ?_
  rw [show Cert.ReferenceIdeal.RefValue.X (launchContents m' c) = Xk (W0 m c) from
      funext fun e => funext fun κ => (Xk_bridge (W0 m c) (launchContents m' c) a0.symm a1.symm e κ).symm, hsg,
    show Cert.ReferenceIdeal.RefValue.W1 (launchContents m' c) = W1k (V5 m) c from
      funext fun κ => funext fun j => (congrFun a3 (ix2 κ j)).trans (W1k_at m c κ j).symm,
    show Cert.ReferenceIdeal.RefValue.b1 (launchContents m' c) = b1k (V5 m) c from
      funext fun j => (congrFun a4 (ix1 j)).trans (b1k_at m c j).symm,
    show Cert.ReferenceIdeal.RefValue.W2 (launchContents m' c) = W2k (V5 m) c from
      funext fun κ => funext fun j => (congrFun a5 (ix2 κ j)).trans (W2k_at m c κ j).symm,
    show Cert.ReferenceIdeal.RefValue.b2 (launchContents m' c) = b2k (V5 m) c from
      funext fun j => (congrFun a6 (ix1 j)).trans (b2k_at m c j).symm,
    show Cert.ReferenceIdeal.RefValue.W3 (launchContents m' c) = W3k (V5 m) c from
      funext fun κ => (congrFun a7 (ix2 κ (0 : Fin 1))).trans (W3k_at m c κ).symm,
    show Cert.ReferenceIdeal.RefValue.b3 (launchContents m' c) = b3k (V5 m) c from
      (congrFun a8 (ix1 (0 : Fin 1))).trans (b3k_at m c).symm]
  exact (kernel_result m c hp e).symm

end Cert.Proof.Glue

end
-- ==== Proof.lean ====
import proofs.«413591_j8993661518313_3_alg».proof.Defs
import proofs.«413591_j8993661518313_3_alg».proof.Proof.Gen.Kernel
import proofs.«413591_j8993661518313_3_alg».proof.Proof.Gen.KernelIdeal
import proofs.«413591_j8993661518313_3_alg».proof.Proof.Gen.ReferenceIdeal
import proofs.«413591_j8993661518313_3_alg».proof.Proof.Gen.Pre_finite_inputs
import proofs.«413591_j8993661518313_3_alg».proof.Proof.Launch
import proofs.«413591_j8993661518313_3_alg».proof.Proof.Launch_W
import proofs.«413591_j8993661518313_3_alg».proof.Proof.RefRun
import proofs.«413591_j8993661518313_3_alg».proof.Proof.Glue

noncomputable section

namespace Cert.Proof

open Idealize.ShloMosaic Idealize.ShloMosaic.TcCoe Idealize.SL.Sem

/-- The word-level program's run keeps its arguments. -/
theorem frame_k : Cert.frame_Kernel := fun m ρ _ => Cert.Kernel.Hand.frame m ρ

/-- So does the idealized program's, the same run at the ideal instance. -/
theorem frame_ki : Cert.frame_KernelIdeal := fun m ρ _ => Cert.KernelIdeal.Hand.frame m ρ

/-- The reference is a straight line of host operations: its run, the result dropped. -/
theorem frame_ri : Cert.frame_ReferenceIdeal := fun m ρ _ =>
  (θ_run Cert.ReferenceIdeal.defs _ _).mono (fun _ h c => (h c).2) (Cert.ReferenceIdeal.Value.run (F := Ideal) m ρ)

/-- A round trip through bf16 is the identity on extended reals. -/
theorem preserves : Cert.preserves_Kernel_KernelIdeal :=
  ⟨IdealRules.truncf_extf.statement _ .f32 .bf16, IdealRules.truncf_extf.statement _ .f32 .bf16,
   IdealRules.truncf_extf.statement _ .f32 .bf16, IdealRules.truncf_extf.statement _ .f32 .bf16⟩

/-- Both runs end at one function of the arguments: the kernels' at the end of the fold of buffer contents, the reference's at its composed term. -/
theorem algebraic : Cert.algebraic_KernelIdeal_ReferenceIdeal := by
  intro m g m' g' hpre hag
  refine ⟨fun c => Cert.KernelIdeal.Hand.W11 m c (Proc.devRef .tc Cert.KernelIdeal.main_v91), ?_, ?_⟩
  · exact (θ_run Cert.KernelIdeal.defs _ _).mono (fun r h c =>
      ⟨h c _ (Cert.KernelIdeal.Hand.mem_uc Cert.KernelIdeal.main_v91 (by decide)),
        (h c _ (Cert.KernelIdeal.Hand.mem_uc Cert.KernelIdeal.main_arg0 (by decide))).trans (Cert.KernelIdeal.Hand.W11_arg m c Cert.KernelIdeal.main_arg0 (by decide)),
        (h c _ (Cert.KernelIdeal.Hand.mem_uc Cert.KernelIdeal.main_arg1 (by decide))).trans (Cert.KernelIdeal.Hand.W11_arg m c Cert.KernelIdeal.main_arg1 (by decide)),
        (h c _ (Cert.KernelIdeal.Hand.mem_uc Cert.KernelIdeal.main_arg2 (by decide))).trans (Cert.KernelIdeal.Hand.W11_arg m c Cert.KernelIdeal.main_arg2 (by decide)),
        (h c _ (Cert.KernelIdeal.Hand.mem_uc Cert.KernelIdeal.main_arg3 (by decide))).trans (Cert.KernelIdeal.Hand.W11_arg m c Cert.KernelIdeal.main_arg3 (by decide)),
        (h c _ (Cert.KernelIdeal.Hand.mem_uc Cert.KernelIdeal.main_arg4 (by decide))).trans (Cert.KernelIdeal.Hand.W11_arg m c Cert.KernelIdeal.main_arg4 (by decide)),
        (h c _ (Cert.KernelIdeal.Hand.mem_uc Cert.KernelIdeal.main_arg5 (by decide))).trans (Cert.KernelIdeal.Hand.W11_arg m c Cert.KernelIdeal.main_arg5 (by decide)),
        (h c _ (Cert.KernelIdeal.Hand.mem_uc Cert.KernelIdeal.main_arg6 (by decide))).trans (Cert.KernelIdeal.Hand.W11_arg m c Cert.KernelIdeal.main_arg6 (by decide)),
        (h c _ (Cert.KernelIdeal.Hand.mem_uc Cert.KernelIdeal.main_arg7 (by decide))).trans (Cert.KernelIdeal.Hand.W11_arg m c Cert.KernelIdeal.main_arg7 (by decide)),
        (h c _ (Cert.KernelIdeal.Hand.mem_uc Cert.KernelIdeal.main_arg8 (by decide))).trans (Cert.KernelIdeal.Hand.W11_arg m c Cert.KernelIdeal.main_arg8 (by decide))⟩)
      (Cert.KernelIdeal.Hand.run_all m g)
  · exact (θ_run Cert.ReferenceIdeal.defs _ _).mono (fun r h c =>
      ⟨(h c).1.trans (Cert.Proof.Glue.result_eq m m' c (hpre c) (hag c)), (h c).2⟩)
      (Cert.ReferenceIdeal.Value.run (F := Ideal) m' g')

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
